-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S4x8192x1024 : Shape := ⟨3, ![4, 8192, 1024]⟩
abbrev S4x8192x1 : Shape := ⟨3, ![4, 8192, 1]⟩
abbrev S1024 : Shape := ⟨1, ![1024]⟩
abbrev S_ : Shape := ⟨0, ![]⟩
abbrev S4x1024 : Shape := ⟨2, ![4, 1024]⟩
abbrev S4x1024x1 : Shape := ⟨3, ![4, 1024, 1]⟩
abbrev S1x1x1024 : Shape := ⟨3, ![1, 1, 1024]⟩
abbrev S4x8192 : Shape := ⟨2, ![4, 8192]⟩
abbrev S4x1024x8192 : Shape := ⟨3, ![4, 1024, 8192]⟩
abbrev S4x1x8192 : Shape := ⟨3, ![4, 1, 8192]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S4x8192x1024 : S_.BroadcastsInDim S4x8192x1024 (![] : Fin 0 → Fin S4x8192x1024.rank)
  reducesTo_S4x8192x1024_S_d0_1_2 : S4x8192x1024.ReducesTo [0, 1, 2] S_
  bcast_S_S4x8192x1 : S_.BroadcastsInDim S4x8192x1 (![] : Fin 0 → Fin S4x8192x1.rank)
  reducesTo_S4x8192x1_S_d0_1_2 : S4x8192x1.ReducesTo [0, 1, 2] S_
  bcast_S_S1024 : S_.BroadcastsInDim S1024 (![] : Fin 0 → Fin S1024.rank)
  reducesTo_S1024_S_d0 : S1024.ReducesTo [0] S_
  reducesTo_S4x1024x1024_S4x1024_d2 : S4x1024x1024.ReducesTo [2] S4x1024
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x1024_0_1_2 : S4x1024x1.BroadcastsInDim S4x1024x1024 (![0, 1, 2] : Fin 3 → Fin S4x1024x1024.rank)
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  reducesTo_S4x8192x1024_S4x8192_d2 : S4x8192x1024.ReducesTo [2] S4x8192
  bcast_S4x8192_S4x8192x1_0_1 : S4x8192.BroadcastsInDim S4x8192x1 (![0, 1] : Fin 2 → Fin S4x8192x1.rank)
  bcast_S4x8192x1_S4x8192x1024_0_1_2 : S4x8192x1.BroadcastsInDim S4x8192x1024 (![0, 1, 2] : Fin 3 → Fin S4x8192x1024.rank)
  bcast_S1x1x1024_S4x8192x1024_0_1_2 : S1x1x1024.BroadcastsInDim S4x8192x1024 (![0, 1, 2] : Fin 3 → Fin S4x8192x1024.rank)
  bcast_S_S4x1024x8192 : S_.BroadcastsInDim S4x1024x8192 (![] : Fin 0 → Fin S4x1024x8192.rank)
  transposes_S4x8192x1_S4x1x8192_0_2_1 : S4x8192x1.Transposes [0, 2, 1] S4x1x8192
  bcast_S4x1x8192_S4x1024x8192_0_1_2 : S4x1x8192.BroadcastsInDim S4x1024x8192 (![0, 1, 2] : Fin 3 → Fin S4x1024x8192.rank)
  reducesTo_S4x1024x8192_S4x1024_d2 : S4x1024x8192.ReducesTo [2] S4x1024
  bcast_S_S4x1024 : S_.BroadcastsInDim S4x1024 (![] : Fin 0 → Fin S4x1024.rank)
  bcast_S4x1024x1_S4x1024x8192_0_1_2 : S4x1024x1.BroadcastsInDim S4x1024x8192 (![0, 1, 2] : Fin 3 → Fin S4x1024x8192.rank)
  reducesTo_S4x1024x1_S_d0_1_2 : S4x1024x1.ReducesTo [0, 1, 2] S_
  dot_S4x1024x1024_S4x8192x1024_S4x1024x8192_2_2_1_1_0_0_wf : DotDims.WF S4x1024x1024 S4x8192x1024 S4x1024x8192 [2] [2] [1] [1] [0] [0]

variable [Facts]

def dot_S4x1024x1024_S4x8192x1024_S4x1024x8192_2_2_1_1_0_0 : DotDims S4x1024x1024 S4x8192x1024 S4x1024x8192 where
  lhsContracting := [2]
  rhsContracting := [2]
  lhsNonContracting := [1]
  rhsNonContracting := [1]
  lhsBatch := [0]
  rhsBatch := [0]
  wf := dot_S4x1024x1024_S4x8192x1024_S4x1024x8192_2_2_1_1_0_0_wf
def fn_part7 {F : FTy → Type} [FloatOps F] (main_v53 : IVec S_ 1) (main_v127 : IVec S4x1024x1 1) : IVec S_ 1 :=
  let main_c_38 : IVec S_ 1 := constantI S_ 1 1#1
  let main_v128 : IVec S_ 1 := (fun x v => Host.reduce IntOp.andi x v reducesTo_S4x1024x1_S_d0_1_2 h_S_) main_v127 main_c_38
  let main_v129 : IVec S_ 1 := andi main_v53 main_v128
  main_v129

def fn_part6 {F : FTy → Type} [FloatOps F] (main_v53 : IVec S_ 1) (main_v108 : FVec F S4x1024x8192 .f32) (main_v109 : FVec F S4x1024 .f32) : IVec S_ 1 :=
  let main_cst_32 : FVec F S_ .f32 := constant S_ .f32 0xFF800000#32
  let main_v110 : FVec F S4x1024 .f32 := broadcastInDim S4x1024 ![] bcast_S_S4x1024 main_cst_32
  let main_v111 : FVec F S4x1024 .f32 := maximumf main_v110 main_v109
  let main_v112 : FVec F S4x1024x1 .f32 := broadcastInDim S4x1024x1 ![0, 1] bcast_S4x1024_S4x1024x1_0_1 main_v111
  let main_v113 : FVec F S4x1024x8192 .f32 := broadcastInDim S4x1024x8192 ![0, 1, 2] bcast_S4x1024x1_S4x1024x8192_0_1_2 main_v112
  let main_v114 : FVec F S4x1024x8192 .f32 := subf main_v108 main_v113
  let main_v115 : FVec F S4x1024x8192 .f32 := Host.exp main_v114
  let main_cst_33 : FVec F S_ .f32 := constant S_ .f32 0x00000000#32
  let main_v116 : FVec F S4x1024 .f32 := (fun x v => Host.reduceAdd x v reducesTo_S4x1024x8192_S4x1024_d2 h_S_) main_v115 main_cst_33
  let main_v117 : FVec F S4x1024x1 .f32 := broadcastInDim S4x1024x1 ![0, 1] bcast_S4x1024_S4x1024x1_0_1 main_v116
  let main_v118 : FVec F S4x1024x8192 .f32 := broadcastInDim S4x1024x8192 ![0, 1, 2] bcast_S4x1024x1_S4x1024x8192_0_1_2 main_v117
  let main_v119 : FVec F S4x1024x8192 .f32 := Host.divf main_v115 main_v118
  let main_cst_34 : FVec F S_ .f32 := constant S_ .f32 0x3A03126F#32
  let main_v120 : FVec F S4x1024x8192 .f32 := broadcastInDim S4x1024x8192 ![] bcast_S_S4x1024x8192 main_cst_34
  let main_v121 : IVec S4x1024x8192 1 := cmpf .olt main_v119 main_v120
  let main_cst_35 : FVec F S_ .f32 := constant S_ .f32 0x00000000#32
  let main_v122 : FVec F S4x1024x8192 .f32 := broadcastInDim S4x1024x8192 ![] bcast_S_S4x1024x8192 main_cst_35
  let main_v123 : FVec F S4x1024x8192 .f32 := select main_v121 main_v122 main_v119
  let main_cst_36 : FVec F S_ .f32 := constant S_ .f32 0x00000000#32
  let main_v124 : FVec F S4x1024 .f32 := (fun x v => Host.reduceAdd x v reducesTo_S4x1024x8192_S4x1024_d2 h_S_) main_v123 main_cst_36
  let main_v125 : FVec F S4x1024x1 .f32 := broadcastInDim S4x1024x1 ![0, 1] bcast_S4x1024_S4x1024x1_0_1 main_v124
  let main_cst_37 : FVec F S_ .f32 := constant S_ .f32 0x00000000#32
  let main_v126 : FVec F S4x1024x1 .f32 := broadcastInDim S4x1024x1 ![] bcast_S_S4x1024x1 main_cst_37
  let main_v127 : IVec S4x1024x1 1 := cmpf .une main_v125 main_v126
  fn_part7 (F := F) main_v53 main_v127

def fn_part5 {F : FTy → Type} [FloatOps F] (main_arg1 : FVec F S4x8192x1024 .f32) (main_arg3 : FVec F S4x8192x1 .f32) (main_arg7 : FVec F S1024 .f32) (main_arg8 : FVec F S1024 .f32) (main_v53 : IVec S_ 1) (main_v77 : FVec F S4x1024x1024 .f32) (main_v81 : FVec F S4x8192x1 .f32) (main_v88 : FVec F S4x8192x1 .f32) : IVec S_ 1 :=
  let main_v89 : FVec F S4x8192x1024 .f32 := broadcastInDim S4x8192x1024 ![0, 1, 2] bcast_S4x8192x1_S4x8192x1024_0_1_2 main_v81
  let main_v90 : FVec F S4x8192x1024 .f32 := subf main_arg1 main_v89
  let main_cst_29 : FVec F S_ .f32 := constant S_ .f32 0x3727C5AC#32
  let main_v91 : FVec F S4x8192x1 .f32 := broadcastInDim S4x8192x1 ![] bcast_S_S4x8192x1 main_cst_29
  let main_v92 : FVec F S4x8192x1 .f32 := addf main_v88 main_v91
  let main_v93 : FVec F S4x8192x1 .f32 := Host.sqrt main_v92
  let main_v94 : FVec F S4x8192x1024 .f32 := broadcastInDim S4x8192x1024 ![0, 1, 2] bcast_S4x8192x1_S4x8192x1024_0_1_2 main_v93
  let main_v95 : FVec F S4x8192x1024 .f32 := Host.divf main_v90 main_v94
  let main_v96 : FVec F S1x1x1024 .f32 := broadcastInDim S1x1x1024 ![2] bcast_S1024_S1x1x1024_2 main_arg7
  let main_v97 : FVec F S4x8192x1024 .f32 := broadcastInDim S4x8192x1024 ![0, 1, 2] bcast_S1x1x1024_S4x8192x1024_0_1_2 main_v96
  let main_v98 : FVec F S4x8192x1024 .f32 := mulf main_v95 main_v97
  let main_v99 : FVec F S1x1x1024 .f32 := broadcastInDim S1x1x1024 ![2] bcast_S1024_S1x1x1024_2 main_arg8
  let main_v100 : FVec F S4x8192x1024 .f32 := broadcastInDim S4x8192x1024 ![0, 1, 2] bcast_S1x1x1024_S4x8192x1024_0_1_2 main_v99
  let main_v101 : FVec F S4x8192x1024 .f32 := addf main_v98 main_v100
  let main_v102 : FVec F S4x1024x8192 .f32 := (fun l r => Host.dotGeneral dot_S4x1024x1024_S4x8192x1024_S4x1024x8192_2_2_1_1_0_0 none l r) main_v77 main_v101
  let main_cst_30 : FVec F S_ .f32 := constant S_ .f32 0x44800000#32
  let main_v103 : FVec F S_ .f32 := Host.sqrt main_cst_30
  let main_v104 : FVec F S4x1024x8192 .f32 := broadcastInDim S4x1024x8192 ![] bcast_S_S4x1024x8192 main_v103
  let main_v105 : FVec F S4x1024x8192 .f32 := Host.divf main_v102 main_v104
  let main_v106 : FVec F S4x1x8192 .f32 := (transpose S4x1x8192 [0, 2, 1] · transposes_S4x8192x1_S4x1x8192_0_2_1) main_arg3
  let main_v107 : FVec F S4x1024x8192 .f32 := broadcastInDim S4x1024x8192 ![0, 1, 2] bcast_S4x1x8192_S4x1024x8192_0_1_2 main_v106
  let main_v108 : FVec F S4x1024x8192 .f32 := mulf main_v105 main_v107
  let main_cst_31 : FVec F S_ .f32 := constant S_ .f32 0xFF800000#32
  let main_v109 : FVec F S4x1024 .f32 := (fun x v => Host.reduce FloatOps.maximumf x v reducesTo_S4x1024x8192_S4x1024_d2 h_S_) main_v108 main_cst_31
  fn_part6 (F := F) main_v53 main_v108 main_v109

def fn_part4 {F : FTy → Type} [FloatOps F] (main_arg1 : FVec F S4x8192x1024 .f32) (main_arg3 : FVec F S4x8192x1 .f32) (main_arg5 : FVec F S1024 .f32) (main_arg6 : FVec F S1024 .f32) (main_arg7 : FVec F S1024 .f32) (main_arg8 : FVec F S1024 .f32) (main_v53 : IVec S_ 1) (main_v66 : FVec F S4x1024x1024 .f32) (main_v68 : FVec F S4x1024x1 .f32) : IVec S_ 1 :=
  let main_v69 : FVec F S4x1024x1 .f32 := Host.sqrt main_v68
  let main_v70 : FVec F S4x1024x1024 .f32 := broadcastInDim S4x1024x1024 ![0, 1, 2] bcast_S4x1024x1_S4x1024x1024_0_1_2 main_v69
  let main_v71 : FVec F S4x1024x1024 .f32 := Host.divf main_v66 main_v70
  let main_v72 : FVec F S1x1x1024 .f32 := broadcastInDim S1x1x1024 ![2] bcast_S1024_S1x1x1024_2 main_arg5
  let main_v73 : FVec F S4x1024x1024 .f32 := broadcastInDim S4x1024x1024 ![0, 1, 2] bcast_S1x1x1024_S4x1024x1024_0_1_2 main_v72
  let main_v74 : FVec F S4x1024x1024 .f32 := mulf main_v71 main_v73
  let main_v75 : FVec F S1x1x1024 .f32 := broadcastInDim S1x1x1024 ![2] bcast_S1024_S1x1x1024_2 main_arg6
  let main_v76 : FVec F S4x1024x1024 .f32 := broadcastInDim S4x1024x1024 ![0, 1, 2] bcast_S1x1x1024_S4x1024x1024_0_1_2 main_v75
  let main_v77 : FVec F S4x1024x1024 .f32 := addf main_v74 main_v76
  let main_cst_25 : FVec F S_ .f32 := constant S_ .f32 0x00000000#32
  let main_v78 : FVec F S4x8192 .f32 := (fun x v => Host.reduceAdd x v reducesTo_S4x8192x1024_S4x8192_d2 h_S_) main_arg1 main_cst_25
  let main_v79 : FVec F S4x8192x1 .f32 := broadcastInDim S4x8192x1 ![0, 1] bcast_S4x8192_S4x8192x1_0_1 main_v78
  let main_cst_26 : FVec F S_ .f32 := constant S_ .f32 0x44800000#32
  let main_v80 : FVec F S4x8192x1 .f32 := broadcastInDim S4x8192x1 ![] bcast_S_S4x8192x1 main_cst_26
  let main_v81 : FVec F S4x8192x1 .f32 := Host.divf main_v79 main_v80
  let main_v82 : FVec F S4x8192x1024 .f32 := broadcastInDim S4x8192x1024 ![0, 1, 2] bcast_S4x8192x1_S4x8192x1024_0_1_2 main_v81
  let main_v83 : FVec F S4x8192x1024 .f32 := subf main_arg1 main_v82
  let main_v84 : FVec F S4x8192x1024 .f32 := mulf main_v83 main_v83
  let main_cst_27 : FVec F S_ .f32 := constant S_ .f32 0x00000000#32
  let main_v85 : FVec F S4x8192 .f32 := (fun x v => Host.reduceAdd x v reducesTo_S4x8192x1024_S4x8192_d2 h_S_) main_v84 main_cst_27
  let main_v86 : FVec F S4x8192x1 .f32 := broadcastInDim S4x8192x1 ![0, 1] bcast_S4x8192_S4x8192x1_0_1 main_v85
  let main_cst_28 : FVec F S_ .f32 := constant S_ .f32 0x44800000#32
  let main_v87 : FVec F S4x8192x1 .f32 := broadcastInDim S4x8192x1 ![] bcast_S_S4x8192x1 main_cst_28
  let main_v88 : FVec F S4x8192x1 .f32 := Host.divf main_v86 main_v87
  fn_part5 (F := F) main_arg1 main_arg3 main_arg7 main_arg8 main_v53 main_v77 main_v81 main_v88

def fn_part3 {F : FTy → Type} [FloatOps F] (main_arg0 : FVec F S4x1024x1024 .f32) (main_arg1 : FVec F S4x8192x1024 .f32) (main_arg3 : FVec F S4x8192x1 .f32) (main_arg5 : FVec F S1024 .f32) (main_arg6 : FVec F S1024 .f32) (main_arg7 : FVec F S1024 .f32) (main_arg8 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_cst_20 : FVec F S_ .f32 := constant S_ .f32 0x00000000#32
  let main_v54 : FVec F S4x1024 .f32 := (fun x v => Host.reduceAdd x v reducesTo_S4x1024x1024_S4x1024_d2 h_S_) main_arg0 main_cst_20
  let main_v55 : FVec F S4x1024x1 .f32 := broadcastInDim S4x1024x1 ![0, 1] bcast_S4x1024_S4x1024x1_0_1 main_v54
  let main_cst_21 : FVec F S_ .f32 := constant S_ .f32 0x44800000#32
  let main_v56 : FVec F S4x1024x1 .f32 := broadcastInDim S4x1024x1 ![] bcast_S_S4x1024x1 main_cst_21
  let main_v57 : FVec F S4x1024x1 .f32 := Host.divf main_v55 main_v56
  let main_v58 : FVec F S4x1024x1024 .f32 := broadcastInDim S4x1024x1024 ![0, 1, 2] bcast_S4x1024x1_S4x1024x1024_0_1_2 main_v57
  let main_v59 : FVec F S4x1024x1024 .f32 := subf main_arg0 main_v58
  let main_v60 : FVec F S4x1024x1024 .f32 := mulf main_v59 main_v59
  let main_cst_22 : FVec F S_ .f32 := constant S_ .f32 0x00000000#32
  let main_v61 : FVec F S4x1024 .f32 := (fun x v => Host.reduceAdd x v reducesTo_S4x1024x1024_S4x1024_d2 h_S_) main_v60 main_cst_22
  let main_v62 : FVec F S4x1024x1 .f32 := broadcastInDim S4x1024x1 ![0, 1] bcast_S4x1024_S4x1024x1_0_1 main_v61
  let main_cst_23 : FVec F S_ .f32 := constant S_ .f32 0x44800000#32
  let main_v63 : FVec F S4x1024x1 .f32 := broadcastInDim S4x1024x1 ![] bcast_S_S4x1024x1 main_cst_23
  let main_v64 : FVec F S4x1024x1 .f32 := Host.divf main_v62 main_v63
  let main_v65 : FVec F S4x1024x1024 .f32 := broadcastInDim S4x1024x1024 ![0, 1, 2] bcast_S4x1024x1_S4x1024x1024_0_1_2 main_v57
  let main_v66 : FVec F S4x1024x1024 .f32 := subf main_arg0 main_v65
  let main_cst_24 : FVec F S_ .f32 := constant S_ .f32 0x3727C5AC#32
  let main_v67 : FVec F S4x1024x1 .f32 := broadcastInDim S4x1024x1 ![] bcast_S_S4x1024x1 main_cst_24
  let main_v68 : FVec F S4x1024x1 .f32 := addf main_v64 main_v67
  fn_part4 (F := F) main_arg1 main_arg3 main_arg5 main_arg6 main_arg7 main_arg8 main_v53 main_v66 main_v68

def fn_part2 {F : FTy → Type} [FloatOps F] (main_arg0 : FVec F S4x1024x1024 .f32) (main_arg1 : FVec F S4x8192x1024 .f32) (main_arg3 : FVec F S4x8192x1 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg0 main_arg1 main_arg3 main_arg5 main_arg6 main_arg7 main_arg8 main_v48 main_v49 main_v50

def fn_part1 {F : FTy → Type} [FloatOps F] (main_arg0 : FVec F S4x1024x1024 .f32) (main_arg1 : FVec F S4x8192x1024 .f32) (main_arg3 : FVec F S4x8192x1 .f32) (main_arg4 : FVec F S4x8192x1 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_v13 : IVec S_ 1) (main_v16 : IVec S4x8192x1 1) : IVec S_ 1 :=
  let main_c_5 : IVec S_ 1 := constantI S_ 1 1#1
  let main_v17 : IVec S_ 1 := (fun x v => Host.reduce IntOp.andi x v reducesTo_S4x8192x1_S_d0_1_2 h_S_) main_v16 main_c_5
  let main_v18 : IVec S_ 1 := andi main_v13 main_v17
  let main_v19 : FVec F S4x8192x1 .f32 := Host.absf main_arg4
  let main_cst_6 : FVec F S_ .f32 := constant S_ .f32 0x7F800000#32
  let main_v20 : FVec F S4x8192x1 .f32 := broadcastInDim S4x8192x1 ![] bcast_S_S4x8192x1 main_cst_6
  let main_v21 : IVec S4x8192x1 1 := cmpf .olt main_v19 main_v20
  let main_c_7 : IVec S_ 1 := constantI S_ 1 1#1
  let main_v22 : IVec S_ 1 := (fun x v => Host.reduce IntOp.andi x v reducesTo_S4x8192x1_S_d0_1_2 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg1 main_arg3 main_arg5 main_arg6 main_arg7 main_arg8 main_arg9 main_arg10 main_v33

def fn {F : FTy → Type} [FloatOps F] (main_arg0 : FVec F S4x1024x1024 .f32) (main_arg1 : FVec F S4x8192x1024 .f32) (main_arg2 : FVec F S4x8192x1024 .f32) (main_arg3 : FVec F S4x8192x1 .f32) (main_arg4 : FVec F S4x8192x1 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x8192x1024 .f32 := Host.absf main_arg1
  let main_cst_0 : FVec F S_ .f32 := constant S_ .f32 0x7F800000#32
  let main_v5 : FVec F S4x8192x1024 .f32 := broadcastInDim S4x8192x1024 ![] bcast_S_S4x8192x1024 main_cst_0
  let main_v6 : IVec S4x8192x1024 1 := cmpf .olt main_v4 main_v5
  let main_c_1 : IVec S_ 1 := constantI S_ 1 1#1
  let main_v7 : IVec S_ 1 := (fun x v => Host.reduce IntOp.andi x v reducesTo_S4x8192x1024_S_d0_1_2 h_S_) main_v6 main_c_1
  let main_v8 : IVec S_ 1 := andi main_v3 main_v7
  let main_v9 : FVec F S4x8192x1024 .f32 := Host.absf main_arg2
  let main_cst_2 : FVec F S_ .f32 := constant S_ .f32 0x7F800000#32
  let main_v10 : FVec F S4x8192x1024 .f32 := broadcastInDim S4x8192x1024 ![] bcast_S_S4x8192x1024 main_cst_2
  let main_v11 : IVec S4x8192x1024 1 := cmpf .olt main_v9 main_v10
  let main_c_3 : IVec S_ 1 := constantI S_ 1 1#1
  let main_v12 : IVec S_ 1 := (fun x v => Host.reduce IntOp.andi x v reducesTo_S4x8192x1024_S_d0_1_2 h_S_) main_v11 main_c_3
  let main_v13 : IVec S_ 1 := andi main_v8 main_v12
  let main_v14 : FVec F S4x8192x1 .f32 := Host.absf main_arg3
  let main_cst_4 : FVec F S_ .f32 := constant S_ .f32 0x7F800000#32
  let main_v15 : FVec F S4x8192x1 .f32 := broadcastInDim S4x8192x1 ![] bcast_S_S4x8192x1 main_cst_4
  let main_v16 : IVec S4x8192x1 1 := cmpf .olt main_v14 main_v15
  fn_part1 (F := F) main_arg0 main_arg1 main_arg3 main_arg4 main_arg5 main_arg6 main_arg7 main_arg8 main_arg9 main_arg10 main_v13 main_v16
-- ==== Kernel.lean ====
abbrev S4x1024x1024 : Shape := ⟨3, ![4, 1024, 1024]⟩
abbrev S4x8192x1024 : Shape := ⟨3, ![4, 8192, 1024]⟩
abbrev S4x8192x1 : Shape := ⟨3, ![4, 8192, 1]⟩
abbrev S1024 : Shape := ⟨1, ![1024]⟩
abbrev S1x1024 : Shape := ⟨2, ![1, 1024]⟩
abbrev S4x1024x8192 : Shape := ⟨3, ![4, 1024, 8192]⟩
abbrev S4x1024x1 : Shape := ⟨3, ![4, 1024, 1]⟩
abbrev S1x1024x1024 : Shape := ⟨3, ![1, 1024, 1024]⟩
abbrev S1x512x1024 : Shape := ⟨3, ![1, 512, 1024]⟩
abbrev S1x512x1 : Shape := ⟨3, ![1, 512, 1]⟩
abbrev S1x1024x512 : Shape := ⟨3, ![1, 1024, 512]⟩
abbrev S1x1024x1 : Shape := ⟨3, ![1, 1024, 1]⟩
abbrev S1024x1024 : Shape := ⟨2, ![1024, 1024]⟩
abbrev S1024x1 : Shape := ⟨2, ![1024, 1]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩

abbrev nBuf : Space → Nat
  | .hbm => 21
  | .vmem => 35
  | .smem => 0
  | _ => 0

abbrev bufTy : (tb : Table) → Fin (tcTables nBuf tb) → BufTy
  | .hbm, ⟨0, _⟩ => ⟨S4x1024x1024, .f32⟩
  | .hbm, ⟨1, _⟩ => ⟨S4x8192x1024, .f32⟩
  | .hbm, ⟨2, _⟩ => ⟨S4x8192x1024, .f32⟩
  | .hbm, ⟨3, _⟩ => ⟨S4x8192x1, .f32⟩
  | .hbm, ⟨4, _⟩ => ⟨S4x8192x1, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4x1024x8192, .f32⟩
  | .hbm, ⟨18, _⟩ => ⟨S4x1024x1, .f32⟩
  | .hbm, ⟨19, _⟩ => ⟨S4x1024x1, .f32⟩
  | .hbm, ⟨20, _⟩ => ⟨S4x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1, .f32⟩
  | .local _ .vmem, ⟨5, _⟩ => ⟨S1x512x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x1, .f32⟩
  | .local _ .vmem, ⟨15, _⟩ => ⟨S1x1024x1, .f32⟩
  | .local _ .vmem, ⟨16, _⟩ => ⟨S1024x1024, .bf16⟩
  | .local _ .vmem, ⟨17, _⟩ => ⟨S1024x1, .f32⟩
  | .local _ .vmem, ⟨18, _⟩ => ⟨S1024x1, .f32⟩
  | .local _ .vmem, ⟨19, _⟩ => ⟨S1x1024x512, .f32⟩
  | .local _ .vmem, ⟨20, _⟩ => ⟨S1x1024x512, .f32⟩
  | .local _ .vmem, ⟨21, _⟩ => ⟨S1x512x1024, .f32⟩
  | .local _ .vmem, ⟨22, _⟩ => ⟨S1x512x1024, .f32⟩
  | .local _ .vmem, ⟨23, _⟩ => ⟨S1x1024x1, .f32⟩
  | .local _ .vmem, ⟨24, _⟩ => ⟨S1x1024x1, .f32⟩
  | .local _ .vmem, ⟨25, _⟩ => ⟨S1x1024x1, .f32⟩
  | .local _ .vmem, ⟨26, _⟩ => ⟨S1x1024x1, .f32⟩
  | .local _ .vmem, ⟨27, _⟩ => ⟨S1x1024x1024, .f32⟩
  | .local _ .vmem, ⟨28, _⟩ => ⟨S1x1024x1024, .f32⟩
  | .local _ .vmem, ⟨29, _⟩ => ⟨S1x1024, .f32⟩
  | .local _ .vmem, ⟨30, _⟩ => ⟨S1x1024, .f32⟩
  | .local _ .vmem, ⟨31, _⟩ => ⟨S1x1024x1024, .f32⟩
  | .local _ .vmem, ⟨32, _⟩ => ⟨S1x1024x1024, .f32⟩
  | .local _ .vmem, ⟨33, _⟩ => ⟨S1024x1024, .f32⟩
  | .local _ .vmem, ⟨34, _⟩ => ⟨S1024x1, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg7_1 : Ref sig .tc := ⟨.vmem, 32, rfl⟩
abbrev cc1_scratch0 : Ref sig .tc := ⟨.vmem, 33, rfl⟩
abbrev cc1_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_32 : BitVec 32 := 0#32
  let v64 : BitVec 1 := Scalar.cmpi .ne v63 c0_i32_32
  v64

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v63 : BitVec 1 := Scalar.cmpi .eq arg1 c15_i32
  let v64 : BitVec 32 := Scalar.extui v63
  let c0_i32_33 : BitVec 32 := 0#32
  let v65 : BitVec 1 := Scalar.cmpi .ne v64 c0_i32_33
  v65

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  broadcasts_S1x1024_S512x1024 : S1x1024.Broadcasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  reduces_S1024x512_S1024 : S1024x512.Reduces [1] S1024
  broadcasts_S1024x1_S1024x512 : S1024x1.Broadcasts S1024x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S1024x1024_S1x1024x1024 : S1024x1024.ShapeCasts S1x1024x1024
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x1024x1024.size a
  hwx0_0 : ∀ i : grid0.Coords, EltTy.bits .f32 = 32 ∨ (Rect.block (s := S4x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x8192x1024.size a
  hwx0_1 : ∀ i : grid0.Coords, EltTy.bits .f32 = 32 ∨ (Rect.block (s := S4x8192x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x8192x1.size a
  hwx0_2 : ∀ i : grid0.Coords, EltTy.bits .f32 = 32 ∨ (Rect.block (s := S4x8192x1) S1x512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S4x1024x8192.size a
  hwx0_7 : ∀ i : grid0.Coords, EltTy.bits .f32 = 32 ∨ (Rect.block (s := S4x1024x8192) S1x1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x1.size a ≤ S4x1024x1.size a
  hwx0_8 : ∀ i : grid0.Coords, EltTy.bits .f32 = 32 ∨ (Rect.block (s := S4x1024x1) S1x1024x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x1.size a ≤ S4x1024x1.size a
  hwx0_9 : ∀ i : grid0.Coords, EltTy.bits .f32 = 32 ∨ (Rect.block (s := S4x1024x1) S1x1024x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S4x1024x8192.size a
  hwx1_0 : ∀ i : grid1.Coords, EltTy.bits .f32 = 32 ∨ (Rect.block (s := S4x1024x8192) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x8192x1024.size a
  hwx1_1 : ∀ i : grid1.Coords, EltTy.bits .f32 = 32 ∨ (Rect.block (s := S4x8192x1024) S1x512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S4x1024x1.size a
  hwx1_2 : ∀ i : grid1.Coords, EltTy.bits .f32 = 32 ∨ (Rect.block (s := S4x1024x1) S1x1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1.size a ≤ S4x1024x1.size a
  hwx1_3 : ∀ i : grid1.Coords, EltTy.bits .f32 = 32 ∨ (Rect.block (s := S4x1024x1) S1x1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x1024x1024.size a
  hwx1_4 : ∀ i : grid1.Coords, EltTy.bits .f32 = 32 ∨ (Rect.block (s := S4x1024x1024) S1x1024x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024x1024.size a ≤ S4x1024x1024.size a
  hwx1_7 : ∀ i : grid1.Coords, EltTy.bits .f32 = 32 ∨ (Rect.block (s := S4x1024x1024) S1x1024x1024.size (cc1_transform_7 i) (hinb1_7 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x1024x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v6_0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_1) S1x1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_2) S1x1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4x1024x1024 : Shape := ⟨3, ![4, 1024, 1024]⟩
abbrev S4x8192x1024 : Shape := ⟨3, ![4, 8192, 1024]⟩
abbrev S4x8192x1 : Shape := ⟨3, ![4, 8192, 1]⟩
abbrev S1024 : Shape := ⟨1, ![1024]⟩
abbrev S_ : Shape := ⟨0, ![]⟩
abbrev S4x1024 : Shape := ⟨2, ![4, 1024]⟩
abbrev S4x1024x1 : Shape := ⟨3, ![4, 1024, 1]⟩
abbrev S1x1x1024 : Shape := ⟨3, ![1, 1, 1024]⟩
abbrev S4x8192 : Shape := ⟨2, ![4, 8192]⟩
abbrev S4x1024x8192 : Shape := ⟨3, ![4, 1024, 8192]⟩
abbrev S4x1x8192 : Shape := ⟨3, ![4, 1, 8192]⟩

abbrev nBuf : Space → Nat
  | .hbm => 133
  | .vmem => 0
  | .smem => 0
  | _ => 0

abbrev hbmTy0_0 (i : Nat) : BufTy := match i % 128 with
  | 0 => ⟨S4x1024x1024, .f32⟩
  | 1 => ⟨S4x8192x1024, .f32⟩
  | 2 => ⟨S4x8192x1024, .f32⟩
  | 3 => ⟨S4x8192x1, .f32⟩
  | 4 => ⟨S4x8192x1, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S_, .f32⟩
  | 12 => ⟨S4x1024, .f32⟩
  | 13 => ⟨S4x1024x1, .f32⟩
  | 14 => ⟨S_, .f32⟩
  | 15 => ⟨S4x1024x1, .f32⟩
  | 16 => ⟨S4x1024x1, .f32⟩
  | 17 => ⟨S4x1024x1024, .f32⟩
  | 18 => ⟨S4x1024x1024, .f32⟩
  | 19 => ⟨S4x1024x1024, .f32⟩
  | 20 => ⟨S_, .f32⟩
  | 21 => ⟨S4x1024, .f32⟩
  | 22 => ⟨S4x1024x1, .f32⟩
  | 23 => ⟨S_, .f32⟩
  | 24 => ⟨S4x1024x1, .f32⟩
  | 25 => ⟨S4x1024x1, .f32⟩
  | 26 => ⟨S4x1024x1024, .f32⟩
  | 27 => ⟨S4x1024x1024, .f32⟩
  | 28 => ⟨S_, .f32⟩
  | 29 => ⟨S4x1024x1, .f32⟩
  | 30 => ⟨S4x1024x1, .f32⟩
  | 31 => ⟨S4x1024x1, .f32⟩
  | 32 => ⟨S4x1024x1024, .f32⟩
  | 33 => ⟨S4x1024x1024, .f32⟩
  | 34 => ⟨S1x1x1024, .f32⟩
  | 35 => ⟨S4x1024x1024, .f32⟩
  | 36 => ⟨S4x1024x1024, .f32⟩
  | 37 => ⟨S1x1x1024, .f32⟩
  | 38 => ⟨S4x1024x1024, .f32⟩
  | 39 => ⟨S4x1024x1024, .f32⟩
  | 40 => ⟨S_, .f32⟩
  | 41 => ⟨S4x8192, .f32⟩
  | 42 => ⟨S4x8192x1, .f32⟩
  | 43 => ⟨S_, .f32⟩
  | 44 => ⟨S4x8192x1, .f32⟩
  | 45 => ⟨S4x8192x1, .f32⟩
  | 46 => ⟨S4x8192x1024, .f32⟩
  | 47 => ⟨S4x8192x1024, .f32⟩
  | 48 => ⟨S4x8192x1024, .f32⟩
  | 49 => ⟨S_, .f32⟩
  | 50 => ⟨S4x8192, .f32⟩
  | 51 => ⟨S4x8192x1, .f32⟩
  | 52 => ⟨S_, .f32⟩
  | 53 => ⟨S4x8192x1, .f32⟩
  | 54 => ⟨S4x8192x1, .f32⟩
  | 55 => ⟨S4x8192x1024, .f32⟩
  | 56 => ⟨S4x8192x1024, .f32⟩
  | 57 => ⟨S_, .f32⟩
  | 58 => ⟨S4x8192x1, .f32⟩
  | 59 => ⟨S4x8192x1, .f32⟩
  | 60 => ⟨S4x8192x1, .f32⟩
  | 61 => ⟨S4x8192x1024, .f32⟩
  | 62 => ⟨S4x8192x1024, .f32⟩
  | 63 => ⟨S1x1x1024, .f32⟩
  | 64 => ⟨S4x8192x1024, .f32⟩
  | 65 => ⟨S4x8192x1024, .f32⟩
  | 66 => ⟨S1x1x1024, .f32⟩
  | 67 => ⟨S4x8192x1024, .f32⟩
  | 68 => ⟨S4x8192x1024, .f32⟩
  | 69 => ⟨S4x1024x8192, .f32⟩
  | 70 => ⟨S_, .f32⟩
  | 71 => ⟨S_, .f32⟩
  | 72 => ⟨S4x1024x8192, .f32⟩
  | 73 => ⟨S4x1024x8192, .f32⟩
  | 74 => ⟨S4x1x8192, .f32⟩
  | 75 => ⟨S4x1024x8192, .f32⟩
  | 76 => ⟨S4x1024x8192, .f32⟩
  | 77 => ⟨S_, .f32⟩
  | 78 => ⟨S4x1024, .f32⟩
  | 79 => ⟨S_, .f32⟩
  | 80 => ⟨S4x1024, .f32⟩
  | 81 => ⟨S4x1024, .f32⟩
  | 82 => ⟨S4x1024x1, .f32⟩
  | 83 => ⟨S4x1024x8192, .f32⟩
  | 84 => ⟨S4x1024x8192, .f32⟩
  | 85 => ⟨S4x1024x8192, .f32⟩
  | 86 => ⟨S_, .f32⟩
  | 87 => ⟨S4x1024, .f32⟩
  | 88 => ⟨S4x1024x1, .f32⟩
  | 89 => ⟨S4x1024x8192, .f32⟩
  | 90 => ⟨S4x1024x8192, .f32⟩
  | 91 => ⟨S_, .f32⟩
  | 92 => ⟨S4x1024x8192, .f32⟩
  | 93 => ⟨S4x1024x8192, .i1⟩
  | 94 => ⟨S_, .f32⟩
  | 95 => ⟨S4x1024x8192, .f32⟩
  | 96 => ⟨S4x1024x8192, .f32⟩
  | 97 => ⟨S_, .f32⟩
  | 98 => ⟨S4x1024, .f32⟩
  | 99 => ⟨S4x1024x1, .f32⟩
  | 100 => ⟨S4x1024x8192, .f32⟩
  | 101 => ⟨S4x1024x8192, .f32⟩
  | 102 => ⟨S_, .f32⟩
  | 103 => ⟨S4x8192, .f32⟩
  | 104 => ⟨S4x8192x1, .f32⟩
  | 105 => ⟨S_, .f32⟩
  | 106 => ⟨S4x8192x1, .f32⟩
  | 107 => ⟨S4x8192x1, .f32⟩
  | 108 => ⟨S4x8192x1024, .f32⟩
  | 109 => ⟨S4x8192x1024, .f32⟩
  | 110 => ⟨S4x8192x1024, .f32⟩
  | 111 => ⟨S_, .f32⟩
  | 112 => ⟨S4x8192, .f32⟩
  | 113 => ⟨S4x8192x1, .f32⟩
  | 114 => ⟨S_, .f32⟩
  | 115 => ⟨S4x8192x1, .f32⟩
  | 116 => ⟨S4x8192x1, .f32⟩
  | 117 => ⟨S4x8192x1024, .f32⟩
  | 118 => ⟨S4x8192x1024, .f32⟩
  | 119 => ⟨S_, .f32⟩
  | 120 => ⟨S4x8192x1, .f32⟩
  | 121 => ⟨S4x8192x1, .f32⟩
  | 122 => ⟨S4x8192x1, .f32⟩
  | 123 => ⟨S4x8192x1024, .f32⟩
  | 124 => ⟨S4x8192x1024, .f32⟩
  | 125 => ⟨S1x1x1024, .f32⟩
  | 126 => ⟨S4x8192x1024, .f32⟩
  | 127 => ⟨S4x8192x1024, .f32⟩
  | _ => ⟨S4x1024x1024, .f32⟩

abbrev hbmTy0_1 (i : Nat) : BufTy := match i % 128 with
  | 0 => ⟨S1x1x1024, .f32⟩
  | 1 => ⟨S4x8192x1024, .f32⟩
  | 2 => ⟨S4x8192x1024, .f32⟩
  | 3 => ⟨S4x1024x1024, .f32⟩
  | 4 => ⟨S4x1024x1024, .f32⟩
  | _ => ⟨S4x1024x1024, .f32⟩

abbrev hbmTy (i : Nat) : BufTy := match i / 128 with
  | 0 => hbmTy0_0 i
  | 1 => hbmTy0_1 i
  | _ => ⟨S4x1024x1024, .f32⟩

abbrev bufTy : (tb : Table) → Fin (tcTables nBuf tb) → BufTy
  | .hbm, ⟨i, _⟩ => hbmTy i
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_call0_v0 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_18 : Ref sig .tc := ⟨.hbm, 111, rfl⟩
abbrev main_v80 : Ref sig .tc := ⟨.hbm, 112, rfl⟩
abbrev main_v81 : Ref sig .tc := ⟨.hbm, 113, rfl⟩
abbrev main_cst_19 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_20 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]

class Facts₀ : Prop where
  reducesTo_S4x1024x1024_S4x1024_d2 : S4x1024x1024.ReducesTo [2] S4x1024
  h_S_ : 0 < S_.numel
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x1024_0_1_2 : S4x1024x1.BroadcastsInDim S4x1024x1024 (![0, 1, 2] : Fin 3 → Fin S4x1024x1024.rank)
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  reducesTo_S4x8192x1024_S4x8192_d2 : S4x8192x1024.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1x1x1024_S4x8192x1024_0_1_2 : S1x1x1024.BroadcastsInDim S4x8192x1024 (![0, 1, 2] : Fin 3 → Fin S4x8192x1024.rank)
  bcast_S_S4x1024x8192 : S_.BroadcastsInDim S4x1024x8192 (![] : Fin 0 → Fin S4x1024x8192.rank)
  transposes_S4x8192x1_S4x1x8192_0_2_1 : S4x8192x1.Transposes [0, 2, 1] S4x1x8192
  bcast_S4x1x8192_S4x1024x8192_0_1_2 : S4x1x8192.BroadcastsInDim S4x1024x8192 (![0, 1, 2] : Fin 3 → Fin S4x1024x8192.rank)
  reducesTo_S4x1024x8192_S4x1024_d2 : S4x1024x8192.ReducesTo [2] S4x1024
  bcast_S_S4x1024 : S_.BroadcastsInDim S4x1024 (![] : Fin 0 → Fin S4x1024.rank)
  bcast_S4x1024x1_S4x1024x8192_0_1_2 : S4x1024x1.BroadcastsInDim S4x1024x8192 (![0, 1, 2] : Fin 3 → Fin S4x1024x8192.rank)
  dot_S4x1024x1024_S4x8192x1024_S4x1024x8192_2_2_1_1_0_0_wf : DotDims.WF S4x1024x1024 S4x8192x1024 S4x1024x8192 [2] [2] [1] [1] [0] [0]
  dot_S4x1024x8192_S4x8192x1024_S4x1024x1024_2_1_1_2_0_0_wf : DotDims.WF S4x1024x8192 S4x8192x1024 S4x1024x1024 [2] [1] [1] [2] [0] [0]

variable [Facts₀]

def dot_S4x1024x1024_S4x8192x1024_S4x1024x8192_2_2_1_1_0_0 : DotDims S4x1024x1024 S4x8192x1024 S4x1024x8192 where
  lhsContracting := [2]
  rhsContracting := [2]
  lhsNonContracting := [1]
  rhsNonContracting := [1]
  lhsBatch := [0]
  rhsBatch := [0]
  wf := dot_S4x1024x1024_S4x8192x1024_S4x1024x8192_2_2_1_1_0_0_wf
def dot_S4x1024x8192_S4x8192x1024_S4x1024x1024_2_1_1_2_0_0 : DotDims S4x1024x8192 S4x8192x1024 S4x1024x1024 where
  lhsContracting := [2]
  rhsContracting := [1]
  lhsNonContracting := [1]
  rhsNonContracting := [2]
  lhsBatch := [0]
  rhsBatch := [0]
  wf := dot_S4x1024x8192_S4x8192x1024_S4x1024x1024_2_1_1_2_0_0_wf

class Facts : Prop extends Facts₀ where

variable [Facts]
-- ==== Proof.KI.R0Defs.lean ====
import proofs.«404741_j62388694941903_3_alg».proof.Proof.Gen.KernelIdeal.Launch
import proofs.«404741_j62388694941903_3_alg».proof.Proof.Gen.KernelIdeal.Skeleton
import proofs.«404741_j62388694941903_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end Regions

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1

theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel

theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

abbrev VO0_7 : View sig .tc .vmem S1x1024x512 .f32 := (Memref.whole cc0_stg7_0 : Memref sig .tc .vmem S1x1024x512 .f32).view

abbrev VO0_8 : View sig .tc .vmem S1x1024x1 .f32 := (Memref.whole cc0_stg8_0 : Memref sig .tc .vmem S1x1024x1 .f32).view

abbrev VO0_9 : View sig .tc .vmem S1x1024x1 .f32 := (Memref.whole cc0_stg9_0 : Memref sig .tc .vmem S1x1024x1 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x1 .f32 := win0_9.stage (cfg0.slots t 9)
abbrev hs0_9 (t : Fin cfg0.N) : (ms0_9 t).IsWhole := hstage0_9 ((cfg0.slots t 9).cast nbuf0_9)

abbrev scM0_0 : Memref sig .tc .vmem S1024x1024 .bf16 := Memref.whole cc0_scratch0
abbrev VS0_0 : View sig .tc .vmem S1024x1024 .bf16 := scM0_0.view

abbrev scM0_1 : Memref sig .tc .vmem S1024x1 .f32 := Memref.whole cc0_scratch1
abbrev VS0_1 : View sig .tc .vmem S1024x1 .f32 := scM0_1.view

abbrev scM0_2 : Memref sig .tc .vmem S1024x1 .f32 := Memref.whole cc0_scratch2
abbrev VS0_2 : View sig .tc .vmem S1024x1 .f32 := scM0_2.view

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 (F := F) c) ∗ (∃ r, prngReg c r)) := by
  unfold Pipeline.ΦA rest0; rw [scopedRest0_eq]; simp only [scM0_0, scM0_1, scM0_2, owns_whole]; try rfl

end Cert.KernelIdeal.Gen

end
-- ==== Proof.KI.R0RunA.lean ====
import proofs.«404741_j62388694941903_3_alg».proof.Proof.KI.R0Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S1x1024x1024 .f32) (harg2 : arg2.IsWhole) (arg3 : Memref sig .tc .vmem S1x512x1024 .f32) (harg3 : arg3.IsWhole) (arg4 : Memref sig .tc .vmem S1x512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x512 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1x1024x1024 .f32) (x1 : Vec F S1x512x1024 .f32) (x2 : Vec F S1x512x1 .f32) (x3 : Vec F S1x1024 .f32) (x4 : Vec F S1x1024 .f32) (x5 : Vec F S1x1024 .f32) (x6 : Vec F S1x1024 .f32) :
    Σ' (L7 : List (View.Piece (Elt F) S1x1024x512 .f32)) (LS0 : List (View.Piece (Elt F) S1024x1024 .bf16)) (LS1 : List (View.Piece (Elt F) S1024x1 .f32)), { LS2 : List (View.Piece (Elt F) S1024x1 .f32) //
      ∀ (xi8 xi9 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__producer_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi8 xi9 E K => ?run⟩
  case run =>
    simp only [cc0__producer_kernel_eq_skeleton]; unfold cc0__producer_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Gen

end
-- ==== Proof.KI.R0RunB.lean ====
import proofs.«404741_j62388694941903_3_alg».proof.Proof.KI.R0Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg2 : Memref sig .tc .vmem S1x1024x1024 .f32) (harg2 : arg2.IsWhole) (arg3 : Memref sig .tc .vmem S1x512x1024 .f32) (harg3 : arg3.IsWhole) (arg4 : Memref sig .tc .vmem S1x512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x512 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1x1024x1024 .f32) (x1 : Vec F S1x512x1024 .f32) (x2 : Vec F S1x512x1 .f32) (x3 : Vec F S1x1024 .f32) (x4 : Vec F S1x1024 .f32) (x5 : Vec F S1x1024 .f32) (x6 : Vec F S1x1024 .f32) (xs0 : Vec F S1024x1024 .bf16) (xs1 : Vec F S1024x1 .f32) (xs2 : Vec F S1024x1 .f32) :
    Σ' (L7 : List (View.Piece (Elt F) S1x1024x512 .f32)) (LS1 : List (View.Piece (Elt F) S1024x1 .f32)), { LS2 : List (View.Piece (Elt F) S1024x1 .f32) //
      ∀ (xi8 xi9 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__producer_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi8 xi9 E K => ?run⟩
  case run =>
    simp only [cc0__producer_kernel_eq_skeleton]; unfold cc0__producer_kernel_skel
    simp only [k0_part2_eq_skeleton]; unfold k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]; · iexists _; iexact HS1
    iexists _; iexact HS2

end Cert.KernelIdeal.Gen

end
-- ==== Proof.KI.R0RunC.lean ====
import proofs.«404741_j62388694941903_3_alg».proof.Proof.KI.R0Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg2 : Memref sig .tc .vmem S1x1024x1024 .f32) (harg2 : arg2.IsWhole) (arg3 : Memref sig .tc .vmem S1x512x1024 .f32) (harg3 : arg3.IsWhole) (arg4 : Memref sig .tc .vmem S1x512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x512 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1x1024x1024 .f32) (x1 : Vec F S1x512x1024 .f32) (x2 : Vec F S1x512x1 .f32) (x3 : Vec F S1x1024 .f32) (x4 : Vec F S1x1024 .f32) (x5 : Vec F S1x1024 .f32) (x6 : Vec F S1x1024 .f32) (xs0 : Vec F S1024x1024 .bf16) (xs1 : Vec F S1024x1 .f32) (xs2 : Vec F S1024x1 .f32) :
    Σ' (L7 : List (View.Piece (Elt F) S1x1024x512 .f32)) (L8 : List (View.Piece (Elt F) S1x1024x1 .f32)) (L9 : List (View.Piece (Elt F) S1x1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xs0 ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__producer_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__producer_kernel_eq_skeleton]; unfold cc0__producer_kernel_skel
    simp only [k0_part2_eq_skeleton]; unfold k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]
    · iexists _; isplitr; · ipureintro; exact harg12.read_unread _
      iexact HS0
    isplitl [HS1]; · iexists _; iexact HS1
    iexists _; iexact HS2

end Cert.KernelIdeal.Gen

end
-- ==== Proof.KI.R0Frame.lean ====
import proofs.«404741_j62388694941903_3_alg».proof.Proof.KI.R0RunA
import proofs.«404741_j62388694941903_3_alg».proof.Proof.KI.R0RunB
import proofs.«404741_j62388694941903_3_alg».proof.Proof.KI.R0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def idle0_8 : Vec F S1x1024x1 .f32 := VO0_8.read (Elt F) VO0_8.junk
def idle0_9 : Vec F S1x1024x1 .f32 := VO0_9.read (Elt F) VO0_9.junk

section
variable (c : Dev nD) (i : grid0.Coords) (arg2 : Memref sig .tc .vmem S1x1024x1024 .f32) (harg2 : arg2.IsWhole) (arg3 : Memref sig .tc .vmem S1x512x1024 .f32) (harg3 : arg3.IsWhole) (arg4 : Memref sig .tc .vmem S1x512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x512 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x1 .f32) (harg14 : arg14.IsWhole)
include c i arg2 harg2 arg3 harg3 arg4 harg4 arg5 harg5 arg6 harg6 arg7 harg7 arg8 harg8 arg9 harg9 arg10 harg10 arg11 harg11 arg12 harg12 arg13 harg13 arg14 harg14

section
variable (hc0 : cond0_0 i) (hc1 : ¬cond0_1 i) (x0 : Vec F S1x1024x1024 .f32) (x1 : Vec F S1x512x1024 .f32) (x2 : Vec F S1x512x1 .f32) (x3 : Vec F S1x1024 .f32) (x4 : Vec F S1x1024 .f32) (x5 : Vec F S1x1024 .f32) (x6 : Vec F S1x1024 .f32)
include hc0 hc1 x0 x1 x2 x3 x4 x5 x6

theorem cover0_A_7 (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1 S1x1024x512.size (by sl_kernel_rfl) y

def out0_A_7 : Vec F S1x1024x512 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1)

theorem scover0_A_0 (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1 S1024x1024.size (by sl_kernel_rfl) y

def sout0_A_0 : Vec F S1024x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1)

theorem scover0_A_1 (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1 S1024x1.size (by sl_kernel_rfl) y

def sout0_A_1 : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1)

theorem scover0_A_2 (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1 S1024x1.size (by sl_kernel_rfl) y

def sout0_A_2 : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1)

def outs0_A : Vec F S1x1024x512 .f32 × Vec F S1x1024x1 .f32 × Vec F S1x1024x1 .f32 × Vec F S1024x1024 .bf16 × Vec F S1024x1 .f32 × Vec F S1024x1 .f32 :=
  (out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6,
    idle0_8,
    idle0_9,
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6,
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6,
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)

end

section
variable (hc0 : ¬cond0_0 i) (hc1 : ¬cond0_1 i) (x0 : Vec F S1x1024x1024 .f32) (x1 : Vec F S1x512x1024 .f32) (x2 : Vec F S1x512x1 .f32) (x3 : Vec F S1x1024 .f32) (x4 : Vec F S1x1024 .f32) (x5 : Vec F S1x1024 .f32) (x6 : Vec F S1x1024 .f32) (xs0 : Vec F S1024x1024 .bf16) (xs1 : Vec F S1024x1 .f32) (xs2 : Vec F S1024x1 .f32)
include hc0 hc1 x0 x1 x2 x3 x4 x5 x6 xs0 xs1 xs2

theorem cover0_B_7 (y : S1x1024x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).1 S1x1024x512.size (by sl_kernel_rfl) y

def out0_B_7 : Vec F S1x1024x512 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).1)

theorem scover0_B_1 (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.1 S1024x1.size (by sl_kernel_rfl) y

def sout0_B_1 : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.1)

theorem scover0_B_2 (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.1 S1024x1.size (by sl_kernel_rfl) y

def sout0_B_2 : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.1)

def outs0_B : Vec F S1x1024x512 .f32 × Vec F S1x1024x1 .f32 × Vec F S1x1024x1 .f32 × Vec F S1024x1024 .bf16 × Vec F S1024x1 .f32 × Vec F S1024x1 .f32 :=
  (out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2,
    idle0_8,
    idle0_9,
    xs0,
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2,
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)

end

section
variable (hc0 : ¬cond0_0 i) (hc1 : cond0_1 i) (x0 : Vec F S1x1024x1024 .f32) (x1 : Vec F S1x512x1024 .f32) (x2 : Vec F S1x512x1 .f32) (x3 : Vec F S1x1024 .f32) (x4 : Vec F S1x1024 .f32) (x5 : Vec F S1x1024 .f32) (x6 : Vec F S1x1024 .f32) (xs0 : Vec F S1024x1024 .bf16) (xs1 : Vec F S1024x1 .f32) (xs2 : Vec F S1024x1 .f32)
include hc0 hc1 x0 x1 x2 x3 x4 x5 x6 xs0 xs1 xs2

theorem cover0_C_7 (y : S1x1024x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).1 S1x1024x512.size (by sl_kernel_rfl) y

def out0_C_7 : Vec F S1x1024x512 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).1)

theorem cover0_C_8 (y : S1x1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.1 S1x1024x1.size (by sl_kernel_rfl) y

def out0_C_8 : Vec F S1x1024x1 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.1)

theorem cover0_C_9 (y : S1x1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.1 S1x1024x1.size (by sl_kernel_rfl) y

def out0_C_9 : Vec F S1x1024x1 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.1)

theorem scover0_C_1 (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.2.1 S1024x1.size (by sl_kernel_rfl) y

def sout0_C_1 : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.2.1)

theorem scover0_C_2 (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.2.2.1 S1024x1.size (by sl_kernel_rfl) y

def sout0_C_2 : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2).2.2.2.2.1)

def outs0_C : Vec F S1x1024x512 .f32 × Vec F S1x1024x1 .f32 × Vec F S1x1024x1 .f32 × Vec F S1024x1024 .bf16 × Vec F S1024x1 .f32 × Vec F S1024x1 .f32 :=
  (out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2,
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2,
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2,
    xs0,
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2,
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)

end

end

section Regions
variable (V : (c : Dev nD) → (b : Ref sig .tc) → Buf (Elt F) ((c : Thread nD τ).loc b))

def outsAt0 (c : Dev nD) : (n : ℕ) → n < cfg0.N → Vec F S1x1024x512 .f32 × Vec F S1x1024x1 .f32 × Vec F S1x1024x1 .f32 × Vec F S1024x1024 .bf16 × Vec F S1024x1 .f32 × Vec F S1024x1 .f32
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn =>
    if h0 : (n + 1) % 16 = 0 then
      if h1 : (n + 1) % 16 = 15 then
        False.elim (by omega)
      else
        outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩)
    else
      if h1 : (n + 1) % 16 = 15 then
        outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2
      else
        outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2

theorem outsAt0_A (c : Dev nD) (t : Fin cfg0.N) (h0 : t.val % 16 = 0) (h1 : ¬t.val % 16 = 15) :
    outsAt0 V c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.2.2.1 ∗ owns (c : Thread nD τ) scM0_1 fullShare (outsAt0 V c n hn).2.2.2.2.1 ∗ owns (c : Thread nD τ) scM0_2 fullShare (outsAt0 V c n hn).2.2.2.2.2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (outsAt0 V c n hn).2.2.2.1 ∗ owns (c : Thread nD τ) scM0_1 fullShare (outsAt0 V c n hn).2.2.2.2.1 ∗ owns (c : Thread nD τ) scM0_2 fullShare (outsAt0 V c n hn).2.2.2.2.2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).2.2.2.1 ∗ owns (c : Thread nD τ) scM0_1 fullShare (outsAt0 V c (n - 1) (by omega)).2.2.2.2.1 ∗ owns (c : Thread nD τ) scM0_2 fullShare (outsAt0 V c (n - 1) (by omega)).2.2.2.2.2 ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]
theorem after0_9 (c : Dev nD) (t : Fin cfg0.N) : (dat0 V c).after 9 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  by_cases h0 : t.val % 16 = 0
  · have h1 : ¬t.val % 16 = 15 := by omega
    rw [Dat.leavesExact_idle (dat0 V c) 8 t (idleAt0_8 t (fun h => h1 ((hcond0_1 t).mp h))) (noFlush0_8 t (fun h => h1 ((hcond0_1 t).mp h)))]
    rw [Dat.leavesExact_idle (dat0 V c) 9 t (idleAt0_9 t (fun h => h1 ((hcond0_1 t).mp h))) (noFlush0_9 t (fun h => h1 ((hcond0_1 t).mp h)))]
    rw [outsAt0_A V c t h0 h1]
    unfold outs0_A out0_A_7 sout0_A_0 sout0_A_1 sout0_A_2; (try dsimp only)
    by_cases hz : t.val = 0
    · rw [PhiS0_castSucc V c t, PhiS0_zero V c _ _ hz, PhiA0_eq]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, ⟨%e7, H7⟩, H8, H9, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _)
      isplitl [H8]; · iexists _; iexact H8
      iexists _; iexact H9

    · rw [PhiS0_castSucc V c t, PhiS0_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexists _; iexact HS0
      isplitl [HS1]; · iexists _; iexact HS1
      isplitl [HS2]; · iexists _; iexact HS2
      iintro ⟨H0, H1, H2, H3, H4, H5, H6, ⟨%e7, H7⟩, H8, H9, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _)
      isplitl [H8]; · iexists _; iexact H8
      iexists _; iexact H9

  · have hz : t.val ≠ 0 := by omega
    by_cases h1 : t.val % 16 = 15
    ·
      rw [show (dat0 V c).leavesExact 8 t = owns (c : Thread nD τ) (ms0_8 t) fullShare ((dat0 V c).after 8 t) from by
        unfold Dat.leavesExact; rw [liveAt0_8 t ((hcond0_1 t).mpr h1)], after0_8]
      rw [show (dat0 V c).leavesExact 9 t = owns (c : Thread nD τ) (ms0_9 t) fullShare ((dat0 V c).after 9 t) from by
        unfold Dat.leavesExact; rw [liveAt0_9 t ((hcond0_1 t).mpr h1)], after0_9]
      rw [outsAt0_C V c t h0 h1]
      unfold outs0_C out0_C_7 out0_C_8 out0_C_9 sout0_C_1 sout0_C_2; (try dsimp only)
      rw [PhiS0_castSucc V c t, PhiS0_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, ⟨%e7, H7⟩, ⟨%e8, H8⟩, ⟨%e9, H9⟩, HS0, ⟨%es1, HS1⟩, ⟨%es2, HS2⟩⟩
      isplitl [HS0 HS1 HS2 Hr Hg]
      · isplitl [HS0 HS1 HS2 Hr]
        · isplitl [HS0]
          · iexact HS0
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_C_9 c _ _ _ _ _ _ _ _ _ _ _ _ _ _ _ _ _ _ _ _ _ _ _ _ _ _ _ _ _ _ _ _ _ _ _ _ _ _ _)

    ·
      rw [Dat.leavesExact_idle (dat0 V c) 8 t (idleAt0_8 t (fun h => h1 ((hcond0_1 t).mp h))) (noFlush0_8 t (fun h => h1 ((hcond0_1 t).mp h)))]
      rw [Dat.leavesExact_idle (dat0 V c) 9 t (idleAt0_9 t (fun h => h1 ((hcond0_1 t).mp h))) (noFlush0_9 t (fun h => h1 ((hcond0_1 t).mp h)))]
      rw [outsAt0_B V c t h0 h1]
      unfold outs0_B out0_B_7 sout0_B_1 sout0_B_2; (try dsimp only)
      rw [PhiS0_castSucc V c t, PhiS0_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, ⟨%e7, H7⟩, H8, H9, HS0, ⟨%es1, HS1⟩, ⟨%es2, HS2⟩⟩
      isplitl [HS0 HS1 HS2 Hr Hg]
      · isplitl [HS0 HS1 HS2 Hr]
        · isplitl [HS0]
          · iexact HS0
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _ _)
      isplitl [H8]; · iexists _; iexact H8
      iexists _; iexact H9

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, Hr⟩, Hg⟩
  isplitl [HS0 HS1 HS2 Hr]
  · isplitl [HS0]; · iexists _; iexact HS0
    isplitl [HS1]; · iexists _; iexact HS1
    isplitl [HS2]; · iexists _; iexact HS2
    iexact Hr
  iexact Hg

theorem hout0 (c : Dev nD) : (dat0 V c).Φ (Fin.last cfg0.N) ⊢ Pipeline.ΦA spec0 c :=
  Phi_out0 V c _ (by rw [Fin.val_last]; have : cfg0.N = 64 := N_0; omega)

end Regions

end Cert.KernelIdeal.Gen

end
-- ==== Proof.KI.R1Defs.lean ====
import proofs.«404741_j62388694941903_3_alg».proof.Proof.Gen.KernelIdeal.Launch
import proofs.«404741_j62388694941903_3_alg».proof.Proof.Gen.KernelIdeal.Skeleton
import proofs.«404741_j62388694941903_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1

theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel

theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel

theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel

theorem liveAt1_7_C : ∀ t : Fin cfg1.N, ¬cond1_0 (grid1.coords t) → cond1_1 (grid1.coords t) → cfg1.idle 7 (grid1.coords t) = false := by decide +kernel

abbrev VO1_7 : View sig .tc .vmem S1x1024x1024 .f32 := (Memref.whole cc1_stg7_0 : Memref sig .tc .vmem S1x1024x1024 .f32).view
abbrev ms1_0 (t : Fin cfg1.N) : Memref sig .tc .vmem S1x1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024x1024 .f32 := win1_7.stage (cfg1.slots t 7)
abbrev hs1_7 (t : Fin cfg1.N) : (ms1_7 t).IsWhole := hstage1_7 ((cfg1.slots t 7).cast nbuf1_7)

abbrev scM1_0 : Memref sig .tc .vmem S1024x1024 .f32 := Memref.whole cc1_scratch0
abbrev scM1_1 : Memref sig .tc .vmem S1024x1 .f32 := Memref.whole cc1_scratch1
abbrev VS1_0 : View sig .tc .vmem S1024x1024 .f32 := scM1_0.view
abbrev VS1_1 : View sig .tc .vmem S1024x1 .f32 := scM1_1.view

def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem PhiA1_eq (c : Dev nD) :
    (Pipeline.ΦA spec1 c : sProp 𝕄)
      = iprop(iprop(rest1 (F := F) c ∗ (∃ d, owns (c : Thread nD τ) scM1_0 fullShare d) ∗ (∃ d, owns (c : Thread nD τ) scM1_1 fullShare d)) ∗ (∃ r, prngReg c r)) := by
  unfold Pipeline.ΦA rest1; rw [scopedRest1_eq]; simp only [scM1_0, scM1_1, owns_whole]
  refine Entails.antisymm (show (_ : sProp 𝕄) ⊢ _ from ?_) (show (_ : sProp 𝕄) ⊢ _ from ?_)
  · iintro ⟨⟨R0, R1, R2, R3, R4, R5, R6, R7, R8, R9, R10, R11, R12, R13, R14, R15, R16, R17, R18, HS0, HS1⟩, Hg⟩
    iframe
  · iintro ⟨⟨⟨R0, R1, R2, R3, R4, R5, R6, R7, R8, R9, R10, R11, R12, R13, R14, R15, R16, R17, R18⟩, HS0, HS1⟩, Hg⟩
    iframe

end Cert.KernelIdeal.Gen

end
-- ==== Proof.KI.R1RunA.lean ====
import proofs.«404741_j62388694941903_3_alg».proof.Proof.KI.R1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg2 : Memref sig .tc .vmem S1x1024x512 .f32) (harg2 : arg2.IsWhole) (arg3 : Memref sig .tc .vmem S1x512x1024 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1x1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (hc0 : cond1_0 i) (hc1 : ¬cond1_1 i)
    (x0 : Vec F S1x1024x512 .f32) (x1 : Vec F S1x512x1024 .f32) (x2 : Vec F S1x1024x1 .f32) (x3 : Vec F S1x1024x1 .f32) (x4 : Vec F S1x1024x1024 .f32) (x5 : Vec F S1x1024 .f32) (x6 : Vec F S1x1024 .f32) :
    Σ' (L7 : List (View.Piece (Elt F) S1x1024x1024 .f32)) (LS0 : List (View.Piece (Elt F) S1024x1024 .f32)), { LS1 : List (View.Piece (Elt F) S1024x1 .f32) //
      ∀ (xi7 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__consumer_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc1__consumer_kernel_eq_skeleton]; unfold cc1__consumer_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Gen

end
-- ==== Proof.KI.R1RunB.lean ====
import proofs.«404741_j62388694941903_3_alg».proof.Proof.KI.R1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (arg2 : Memref sig .tc .vmem S1x1024x512 .f32) (harg2 : arg2.IsWhole) (arg3 : Memref sig .tc .vmem S1x512x1024 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1x1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (hc0 : ¬cond1_0 i) (hc1 : ¬cond1_1 i)
    (x0 : Vec F S1x1024x512 .f32) (x1 : Vec F S1x512x1024 .f32) (x2 : Vec F S1x1024x1 .f32) (x3 : Vec F S1x1024x1 .f32) (x4 : Vec F S1x1024x1024 .f32) (x5 : Vec F S1x1024 .f32) (x6 : Vec F S1x1024 .f32) (xs0 : Vec F S1024x1024 .f32) (xs1 : Vec F S1024x1 .f32) :
    Σ' (L7 : List (View.Piece (Elt F) S1x1024x1024 .f32)) (LS0 : List (View.Piece (Elt F) S1024x1024 .f32)), { LS1 : List (View.Piece (Elt F) S1024x1 .f32) //
      ∀ (xi7 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__consumer_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc1__consumer_kernel_eq_skeleton]; unfold cc1__consumer_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Gen

end
-- ==== Proof.KI.R1RunC.lean ====
import proofs.«404741_j62388694941903_3_alg».proof.Proof.KI.R1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (arg2 : Memref sig .tc .vmem S1x1024x512 .f32) (harg2 : arg2.IsWhole) (arg3 : Memref sig .tc .vmem S1x512x1024 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1x1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (hc0 : ¬cond1_0 i) (hc1 : cond1_1 i)
    (x0 : Vec F S1x1024x512 .f32) (x1 : Vec F S1x512x1024 .f32) (x2 : Vec F S1x1024x1 .f32) (x3 : Vec F S1x1024x1 .f32) (x4 : Vec F S1x1024x1024 .f32) (x5 : Vec F S1x1024 .f32) (x6 : Vec F S1x1024 .f32) (xs0 : Vec F S1024x1024 .f32) (xs1 : Vec F S1024x1 .f32) :
    Σ' (L7 : List (View.Piece (Elt F) S1x1024x1024 .f32)) (LS0 : List (View.Piece (Elt F) S1024x1024 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__consumer_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__consumer_kernel_eq_skeleton]; unfold cc1__consumer_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _; iexact HS1

end Cert.KernelIdeal.Gen

end
-- ==== Proof.KI.R1Frame.lean ====
import proofs.«404741_j62388694941903_3_alg».proof.Proof.KI.R1RunA
import proofs.«404741_j62388694941903_3_alg».proof.Proof.KI.R1RunB
import proofs.«404741_j62388694941903_3_alg».proof.Proof.KI.R1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S1x1024x512 .f32) (harg2 : arg2.IsWhole) (arg3 : Memref sig .tc .vmem S1x512x1024 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1x1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole)
include c i arg2 harg2 arg3 harg3 arg4 harg4 arg5 harg5 arg6 harg6 arg7 harg7 arg8 harg8 arg9 harg9 arg10 harg10 arg11 harg11

section
variable (hc0 : cond1_0 i) (hc1 : ¬cond1_1 i) (x0 : Vec F S1x1024x512 .f32) (x1 : Vec F S1x512x1024 .f32) (x2 : Vec F S1x1024x1 .f32) (x3 : Vec F S1x1024x1 .f32) (x4 : Vec F S1x1024x1024 .f32) (x5 : Vec F S1x1024 .f32) (x6 : Vec F S1x1024 .f32)
include hc0 hc1 x0 x1 x2 x3 x4 x5 x6

def out1_A_7 : Vec F S1x1024x1024 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 hc1 x0 x1 x2 x3 x4 x5 x6).1)

theorem scover1_A_0 (y : S1024x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.1 S1024x1024.size (by sl_kernel_rfl) y

def sout1_A_0 : Vec F S1024x1024 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.1)

theorem scover1_A_1 (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S1024x1.size (by sl_kernel_rfl) y

def sout1_A_1 : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1)

def outs1_A : Vec F S1x1024x1024 .f32 × Vec F S1024x1024 .f32 × Vec F S1024x1 .f32 :=
  (out1_A_7 c i arg2 harg2 arg3 harg3 arg4 harg4 arg5 harg5 arg6 harg6 arg7 harg7 arg8 harg8 arg9 harg9 arg10 harg10 arg11 harg11 hc0 hc1 x0 x1 x2 x3 x4 x5 x6,
    sout1_A_0 c i arg2 harg2 arg3 harg3 arg4 harg4 arg5 harg5 arg6 harg6 arg7 harg7 arg8 harg8 arg9 harg9 arg10 harg10 arg11 harg11 hc0 hc1 x0 x1 x2 x3 x4 x5 x6,
    sout1_A_1 c i arg2 harg2 arg3 harg3 arg4 harg4 arg5 harg5 arg6 harg6 arg7 harg7 arg8 harg8 arg9 harg9 arg10 harg10 arg11 harg11 hc0 hc1 x0 x1 x2 x3 x4 x5 x6)

end

section
variable (hc0 : ¬cond1_0 i) (hc1 : ¬cond1_1 i) (x0 : Vec F S1x1024x512 .f32) (x1 : Vec F S1x512x1024 .f32) (x2 : Vec F S1x1024x1 .f32) (x3 : Vec F S1x1024x1 .f32) (x4 : Vec F S1x1024x1024 .f32) (x5 : Vec F S1x1024 .f32) (x6 : Vec F S1x1024 .f32) (xs0 : Vec F S1024x1024 .f32) (xs1 : Vec F S1024x1 .f32)
include hc0 hc1 x0 x1 x2 x3 x4 x5 x6 xs0 xs1

def out1_B_7 : Vec F S1x1024x1024 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).1)

theorem scover1_B_0 (y : S1024x1024.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1 S1024x1024.size (by sl_kernel_rfl) y

def sout1_B_0 : Vec F S1024x1024 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1)

theorem scover1_B_1 (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.2.1 S1024x1.size (by sl_kernel_rfl) y

def sout1_B_1 : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.2.1)

def outs1_B : Vec F S1x1024x1024 .f32 × Vec F S1024x1024 .f32 × Vec F S1024x1 .f32 :=
  (out1_B_7 c i arg2 harg2 arg3 harg3 arg4 harg4 arg5 harg5 arg6 harg6 arg7 harg7 arg8 harg8 arg9 harg9 arg10 harg10 arg11 harg11 hc0 hc1 x0 x1 x2 x3 x4 x5 x6 xs0 xs1,
    sout1_B_0 c i arg2 harg2 arg3 harg3 arg4 harg4 arg5 harg5 arg6 harg6 arg7 harg7 arg8 harg8 arg9 harg9 arg10 harg10 arg11 harg11 hc0 hc1 x0 x1 x2 x3 x4 x5 x6 xs0 xs1,
    sout1_B_1 c i arg2 harg2 arg3 harg3 arg4 harg4 arg5 harg5 arg6 harg6 arg7 harg7 arg8 harg8 arg9 harg9 arg10 harg10 arg11 harg11 hc0 hc1 x0 x1 x2 x3 x4 x5 x6 xs0 xs1)

end

section
variable (hc0 : ¬cond1_0 i) (hc1 : cond1_1 i) (x0 : Vec F S1x1024x512 .f32) (x1 : Vec F S1x512x1024 .f32) (x2 : Vec F S1x1024x1 .f32) (x3 : Vec F S1x1024x1 .f32) (x4 : Vec F S1x1024x1024 .f32) (x5 : Vec F S1x1024 .f32) (x6 : Vec F S1x1024 .f32) (xs0 : Vec F S1024x1024 .f32) (xs1 : Vec F S1024x1 .f32)
include hc0 hc1 x0 x1 x2 x3 x4 x5 x6 xs0 xs1

theorem cover1_C_7 (y : S1x1024x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1 S1x1024x1024.size (by sl_kernel_rfl) y

def out1_C_7 : Vec F S1x1024x1024 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1)

theorem scover1_C_0 (y : S1024x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1 S1024x1024.size (by sl_kernel_rfl) y

def sout1_C_0 : Vec F S1024x1024 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1)

theorem scover1_C_1 (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1 S1024x1.size (by sl_kernel_rfl) y

def sout1_C_1 : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1)

def outs1_C : Vec F S1x1024x1024 .f32 × Vec F S1024x1024 .f32 × Vec F S1024x1 .f32 :=
  (out1_C_7 c i arg2 harg2 arg3 harg3 arg4 harg4 arg5 harg5 arg6 harg6 arg7 harg7 arg8 harg8 arg9 harg9 arg10 harg10 arg11 harg11 hc0 hc1 x0 x1 x2 x3 x4 x5 x6 xs0 xs1,
    sout1_C_0 c i arg2 harg2 arg3 harg3 arg4 harg4 arg5 harg5 arg6 harg6 arg7 harg7 arg8 harg8 arg9 harg9 arg10 harg10 arg11 harg11 hc0 hc1 x0 x1 x2 x3 x4 x5 x6 xs0 xs1,
    sout1_C_1 c i arg2 harg2 arg3 harg3 arg4 harg4 arg5 harg5 arg6 harg6 arg7 harg7 arg8 harg8 arg9 harg9 arg10 harg10 arg11 harg11 hc0 hc1 x0 x1 x2 x3 x4 x5 x6 xs0 xs1)

end

end

def outsAt1 (c : Dev nD) : (n : ℕ) → n < cfg1.N → Vec F S1x1024x1024 .f32 × Vec F S1024x1024 .f32 × Vec F S1024x1 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if h0 : (n + 1) % 16 = 0 then
      if h1 : (n + 1) % 16 = 15 then
        False.elim (by omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
    else
      if h1 : (n + 1) % 16 = 15 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2

theorem outsAt1_A (c : Dev nD) (t : Fin cfg1.N) (h0 : t.val % 16 = 0) (h1 : ¬t.val % 16 = 15) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold outs1_A sout1_A_0 sout1_A_1; (try dsimp only)
      by_cases hz : t.val = 0
      ·
        rw [PhiS1_castSucc V c t, PhiS1_zero V c _ _ hz, PhiA1_eq]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HR HS0 HS1 Hg]
        · isplitl [HR HS0 HS1]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS1_castSucc V c t, PhiS1_pos V c _ _ hz]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HR HS0 HS1 Hg]
        · isplitl [HR HS0 HS1]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 16 = 15
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold outs1_C out1_C_7 sout1_C_0 sout1_C_1; (try dsimp only)
      by_cases hz : t.val = 0
      · exfalso; omega
      ·
        rw [PhiS1_castSucc V c t, PhiS1_pos V c _ _ hz]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        iintro ⟨H0, H1, H2, H3, H4, H5, H6, ⟨%e7, H7⟩, ⟨%es0, HS0⟩, ⟨%es1, HS1⟩⟩
        isplitl [HR HS0 HS1 Hg]
        · isplitl [HR HS0 HS1]
          · isplitl [HR]; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold outs1_B sout1_B_0 sout1_B_1; (try dsimp only)
      by_cases hz : t.val = 0
      · exfalso; omega
      ·
        rw [PhiS1_castSucc V c t, PhiS1_pos V c _ _ hz]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HR HS0 HS1 Hg]
        · isplitl [HR HS0 HS1]
          · isplitl [HR]; · iexact HR
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1⟩, Hg⟩
  isplitl [HR HS0 HS1]
  · isplitl [HR]; · iexact HR
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Gen

end
-- ==== Proof.KI.Regions.lean ====
import proofs.«404741_j62388694941903_3_alg».proof.Proof.KI.R0Frame
import proofs.«404741_j62388694941903_3_alg».proof.Proof.KI.R1Frame
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W1_of_not_written (c : Dev nD) (b : Ref sig .tc)
    (hb : b ≠ main_v0 ∧ b ≠ main_v1 ∧ b ≠ main_v2 ∧ b ≠ main_v3 ∧ b ≠ main_v4 ∧ b ≠ main_v5) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2⟩))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

-- An argument array is read-only in both calls and is no reshape's result, so it ends as launched.
theorem W3_kept (c : Dev nD) (b : Ref sig .tc)
    (h1 : ∀ w, Pipeline.arrRef spec1 w = b → (cfg1.win w).isOut = false)
    (h0 : ∀ w, Pipeline.arrRef spec0 w = b → (cfg0.win w).isOut = false)
    (hb : b ≠ main_v0 ∧ b ≠ main_v1 ∧ b ≠ main_v2 ∧ b ≠ main_v3 ∧ b ≠ main_v4 ∧ b ≠ main_v5) :
    W3 m ρ c (Proc.devRef .tc b) = m ((c : Thread nD τ).loc b) := by
  have e3 : W3 m ρ c (Proc.devRef .tc b) = W2 m ρ c (Proc.devRef .tc b) := by
    by_cases hw : ∃ w, Pipeline.arrRef spec1 w = b
    · obtain ⟨w, rfl⟩ := hw
      exact (W3_arr m ρ c w).trans (((dat1 (V2 m ρ) c).arrAt_in w (h1 w rfl) _).trans (A_eq1 (V2 m ρ) c w))
    · exact W3_of_ne m ρ c b fun w e => hw ⟨w, e⟩
  have e2 : W2 m ρ c (Proc.devRef .tc b) = W1 m ρ c (Proc.devRef .tc b) := by
    by_cases hw : ∃ w, Pipeline.arrRef spec0 w = b
    · obtain ⟨w, rfl⟩ := hw
      exact (W2_arr m ρ c w).trans (((dat0 (V1 m ρ) c).arrAt_in w (h0 w rfl) _).trans (A_eq0 (V1 m ρ) c w))
    · exact W2_of_ne m ρ c b fun w e => hw ⟨w, e⟩
  exact e3.trans (e2.trans ((W1_of_not_written m ρ c b hb).trans rfl))

theorem W3_main_v7 (c : Dev nD) : W3 m ρ c (Proc.devRef .tc main_v7) = (dat1 (V2 m ρ) c).arrAt 7 cfg1.N := W3_arr m ρ c 7

theorem run_value : θ_run defs (onTc (τ := τ) (main (F := F))) ⟨m, fun _ => 0, ρ⟩ (fun r => ∀ c : Dev nD,
      r.2.mem ((c.tc : Thread nD τ).loc main_v7) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v7 (by decide))).trans (W3_main_v7 m ρ c),
    (h c _ (mem_uc main_arg0 (by decide))).trans (W3_kept m ρ c main_arg0 (by decide) (by decide) (by decide)),
    (h c _ (mem_uc main_arg1 (by decide))).trans (W3_kept m ρ c main_arg1 (by decide) (by decide) (by decide)),
    (h c _ (mem_uc main_arg2 (by decide))).trans (W3_kept m ρ c main_arg2 (by decide) (by decide) (by decide)),
    (h c _ (mem_uc main_arg3 (by decide))).trans (W3_kept m ρ c main_arg3 (by decide) (by decide) (by decide)),
    (h c _ (mem_uc main_arg4 (by decide))).trans (W3_kept m ρ c main_arg4 (by decide) (by decide) (by decide)),
    (h c _ (mem_uc main_arg5 (by decide))).trans (W3_kept m ρ c main_arg5 (by decide) (by decide) (by decide)),
    (h c _ (mem_uc main_arg6 (by decide))).trans (W3_kept m ρ c main_arg6 (by decide) (by decide) (by decide)),
    (h c _ (mem_uc main_arg7 (by decide))).trans (W3_kept m ρ c main_arg7 (by decide) (by decide) (by decide)),
    (h c _ (mem_uc main_arg8 (by decide))).trans (W3_kept m ρ c main_arg8 (by decide) (by decide) (by decide)),
    (h c _ (mem_uc main_arg9 (by decide))).trans (W3_kept m ρ c main_arg9 (by decide) (by decide) (by decide)),
    (h c _ (mem_uc main_arg10 (by decide))).trans (W3_kept m ρ c main_arg10 (by decide) (by decide) (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_value m ρ)

end Cert.KernelIdeal.Hand

end
-- ==== Proof.Spec.lean ====
import Idealize.ShloMosaic.PureOps.Ideal

noncomputable section

namespace Cert.Spec

open scoped BigOperators

def mean (x : Fin 1024 → ℝ) : ℝ := (∑ c, x c) / 1024

def var (x : Fin 1024 → ℝ) : ℝ := (∑ c, (x c - mean x) * (x c - mean x)) / 1024

def ln (eps : ℝ) (x g b : Fin 1024 → ℝ) (c : Fin 1024) : ℝ :=
  (x c - mean x) / Real.sqrt (var x + eps) * g c + b c

theorem var_nonneg (x : Fin 1024 → ℝ) : 0 ≤ var x :=
  div_nonneg (Finset.sum_nonneg fun c _ => mul_self_nonneg _) (by norm_num)

def affOf (q k : Fin 1024 → ℝ) (cx : ℝ) : ℝ := (∑ c, q c * k c) / 32 * cx

def rowMax (a : Fin 8192 → ℝ) : ℝ := Finset.univ.sup' ⟨⟨0, by norm_num⟩, Finset.mem_univ _⟩ a

def expo (a : Fin 8192 → ℝ) (x : Fin 8192) : ℝ := Real.exp (a x - rowMax a)

def denom (a : Fin 8192 → ℝ) : ℝ := ∑ x, expo a x

def prob (a : Fin 8192 → ℝ) (x : Fin 8192) : ℝ := expo a x / denom a

def kept (thr : ℝ) (a : Fin 8192 → ℝ) (x : Fin 8192) : ℝ := if prob a x < thr then 0 else prob a x

def mass (thr : ℝ) (a : Fin 8192 → ℝ) : ℝ := ∑ x, kept thr a x

structure Inputs where
  feat : Fin 4 → Fin 1024 → Fin 1024 → ℝ
  memk : Fin 4 → Fin 8192 → Fin 1024 → ℝ
  memv : Fin 4 → Fin 8192 → Fin 1024 → ℝ
  memc : Fin 4 → Fin 8192 → ℝ
  gq : Fin 1024 → ℝ
  bq : Fin 1024 → ℝ
  gk : Fin 1024 → ℝ
  bk : Fin 1024 → ℝ
  gv : Fin 1024 → ℝ
  bv : Fin 1024 → ℝ

variable (eps thr : ℝ) (I : Inputs)

def q (b : Fin 4) (p : Fin 1024) : Fin 1024 → ℝ := ln eps (I.feat b p) I.gq I.bq

def k (b : Fin 4) (x : Fin 8192) : Fin 1024 → ℝ := ln eps (I.memk b x) I.gk I.bk

def v (b : Fin 4) (x : Fin 8192) : Fin 1024 → ℝ := ln eps (I.memv b x) I.gv I.bv

def aff (b : Fin 4) (p : Fin 1024) (x : Fin 8192) : ℝ := affOf (q eps I b p) (k eps I b x) (I.memc b x)

def keptMass (b : Fin 4) (p : Fin 1024) : ℝ := mass thr (aff eps I b p)

def out (b : Fin 4) (p : Fin 1024) (c : Fin 1024) : ℝ :=
  (∑ x, kept thr (aff eps I b p) x / keptMass eps thr I b p * v eps I b x c) + I.feat b p c

end Cert.Spec

end
-- ==== Proof.Bridge.lean ====
import Idealize.ShloMosaic.Lib.ValueIdx
import proofs.«404741_j62388694941903_3_alg».proof.Proof.Spec

noncomputable section

namespace Cert.Bridge

open Idealize.ShloMosaic Idealize.ShloMosaic.ValueIdx

abbrev A3 (a b c : Nat) : Type := (⟨3, ![a, b, c]⟩ : Shape).Idx → EReal

abbrev A1 (a : Nat) : Type := (⟨1, ![a]⟩ : Shape).Idx → EReal

structure Args where
  feat : A3 4 1024 1024
  memk : A3 4 8192 1024
  memv : A3 4 8192 1024
  memc : A3 4 8192 1
  gq : A1 1024
  bq : A1 1024
  gk : A1 1024
  bk : A1 1024
  gv : A1 1024
  bv : A1 1024

structure Args.IsReal (a : Args) : Prop where
  feat : ∀ i, a.feat i = (((a.feat i).toReal : ℝ) : EReal)
  memk : ∀ i, a.memk i = (((a.memk i).toReal : ℝ) : EReal)
  memv : ∀ i, a.memv i = (((a.memv i).toReal : ℝ) : EReal)
  memc : ∀ i, a.memc i = (((a.memc i).toReal : ℝ) : EReal)
  gq : ∀ i, a.gq i = (((a.gq i).toReal : ℝ) : EReal)
  bq : ∀ i, a.bq i = (((a.bq i).toReal : ℝ) : EReal)
  gk : ∀ i, a.gk i = (((a.gk i).toReal : ℝ) : EReal)
  bk : ∀ i, a.bk i = (((a.bk i).toReal : ℝ) : EReal)
  gv : ∀ i, a.gv i = (((a.gv i).toReal : ℝ) : EReal)
  bv : ∀ i, a.bv i = (((a.bv i).toReal : ℝ) : EReal)

def Args.inputs (a : Args) : Spec.Inputs where
  feat b p c := (a.feat (ix3 b p c)).toReal
  memk b x c := (a.memk (ix3 b x c)).toReal
  memv b x c := (a.memv (ix3 b x c)).toReal
  memc b x := (a.memc (ix3 b x 0)).toReal
  gq c := (a.gq (ix1 c)).toReal
  bq c := (a.bq (ix1 c)).toReal
  gk c := (a.gk (ix1 c)).toReal
  bk c := (a.bk (ix1 c)).toReal
  gv c := (a.gv (ix1 c)).toReal
  bv c := (a.bv (ix1 c)).toReal

def Args.result (eps thr : ℝ) (a : Args) : A3 4 1024 1024 :=
  fun i => ((Spec.out eps thr a.inputs (i 0) (i 1) (i 2) : ℝ) : EReal)

end Cert.Bridge

end
-- ==== Proof.Consts.lean ====
import Idealize.ShloMosaic.PureOps.Ideal

noncomputable section

namespace Cert.Consts

open Idealize.ShloMosaic

def epsR : ℝ := 10995116 * (2 : ℝ) ^ (-40 : ℤ)

def thrR : ℝ := 8589935 * (2 : ℝ) ^ (-34 : ℤ)

theorem epsR_pos : 0 < epsR := by
  unfold epsR; positivity
theorem ofBits_eps : Ideal.ofBits .f32 0x3727C5AC#32 = ((epsR : ℝ) : EReal) := by
  simp [Ideal.ofBits, Ideal.ieee, epsR, -EReal.coe_mul]
theorem ofBits_thr : Ideal.ofBits .f32 0x3A03126F#32 = ((thrR : ℝ) : EReal) := by
  simp [Ideal.ofBits, Ideal.ieee, thrR, -EReal.coe_mul]
theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num
theorem ofBits_neg_inf : Ideal.ofBits .f32 0xFF800000#32 = (⊥ : EReal) := by
  simp [Ideal.ofBits, Ideal.ieee]
theorem ofBits_pos_inf : Ideal.ofBits .f32 0x7F800000#32 = (⊤ : EReal) := by
  simp [Ideal.ofBits, Ideal.ieee]

theorem sqrt_1024 : Real.sqrt 1024 = 32 := by
  rw [show (1024 : ℝ) = 32 ^ 2 by norm_num, Real.sqrt_sq (by norm_num)]

end Cert.Consts

end
-- ==== Proof.KI.Entry.lean ====
import proofs.«404741_j62388694941903_3_alg».proof.Proof.KI.Regions
import proofs.«404741_j62388694941903_3_alg».proof.Proof.Bridge
import proofs.«404741_j62388694941903_3_alg».proof.Proof.Consts
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

def argsOf (c : Dev nD) : Cert.Bridge.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg5), m ((c.tc : Thread nD τ).loc main_arg6),
   m ((c.tc : Thread nD τ).loc main_arg7), m ((c.tc : Thread nD τ).loc main_arg8), m ((c.tc : Thread nD τ).loc main_arg9),
   m ((c.tc : Thread nD τ).loc main_arg10)⟩

theorem W1_v0 (c : Dev nD) : (W1 m ρ c (Proc.devRef .tc main_v0) : S1x1024.Idx → EReal)
    = shapeCast S1x1024 (m ((c.tc : Thread nD τ).loc main_arg5)) shapeCasts_S1024_S1x1024 := by
  show StableHlo.after hostOps0 (fun b => m (c, b)) (Proc.devRef .tc main_v0) = _
  after_results; rfl
theorem W1_v1 (c : Dev nD) : (W1 m ρ c (Proc.devRef .tc main_v1) : S1x1024.Idx → EReal)
    = shapeCast S1x1024 (m ((c.tc : Thread nD τ).loc main_arg6)) shapeCasts_S1024_S1x1024 := by
  show StableHlo.after hostOps0 (fun b => m (c, b)) (Proc.devRef .tc main_v1) = _
  after_results; rfl
theorem W1_v2 (c : Dev nD) : (W1 m ρ c (Proc.devRef .tc main_v2) : S1x1024.Idx → EReal)
    = shapeCast S1x1024 (m ((c.tc : Thread nD τ).loc main_arg7)) shapeCasts_S1024_S1x1024 := by
  show StableHlo.after hostOps0 (fun b => m (c, b)) (Proc.devRef .tc main_v2) = _
  after_results; rfl
theorem W1_v3 (c : Dev nD) : (W1 m ρ c (Proc.devRef .tc main_v3) : S1x1024.Idx → EReal)
    = shapeCast S1x1024 (m ((c.tc : Thread nD τ).loc main_arg8)) shapeCasts_S1024_S1x1024 := by
  show StableHlo.after hostOps0 (fun b => m (c, b)) (Proc.devRef .tc main_v3) = _
  after_results; rfl
theorem W1_v4 (c : Dev nD) : (W1 m ρ c (Proc.devRef .tc main_v4) : S1x1024.Idx → EReal)
    = shapeCast S1x1024 (m ((c.tc : Thread nD τ).loc main_arg9)) shapeCasts_S1024_S1x1024 := by
  show StableHlo.after hostOps0 (fun b => m (c, b)) (Proc.devRef .tc main_v4) = _
  after_results; rfl
theorem W1_v5 (c : Dev nD) : (W1 m ρ c (Proc.devRef .tc main_v5) : S1x1024.Idx → EReal)
    = shapeCast S1x1024 (m ((c.tc : Thread nD τ).loc main_arg10)) shapeCasts_S1024_S1x1024 := by
  show StableHlo.after hostOps0 (fun b => m (c, b)) (Proc.devRef .tc main_v5) = _
  after_results; rfl

theorem e0_feat (c : Dev nD) : V1 m ρ c (Pipeline.arrRef spec0 0) = (argsOf m c).feat :=
  W1_of_not_written m ρ c main_arg0 (by decide)
theorem e0_memk (c : Dev nD) : V1 m ρ c (Pipeline.arrRef spec0 1) = (argsOf m c).memk :=
  W1_of_not_written m ρ c main_arg1 (by decide)
theorem e0_memc (c : Dev nD) : V1 m ρ c (Pipeline.arrRef spec0 2) = (argsOf m c).memc :=
  W1_of_not_written m ρ c main_arg3 (by decide)
theorem e0_gq (c : Dev nD) (j : Fin 1024) :
    V1 m ρ c (Pipeline.arrRef spec0 3) (ix2 (0 : Fin 1) j) = (argsOf m c).gq (ix1 j) :=
  (congrFun (W1_v0 m ρ c) (ix2 (0 : Fin 1) j)).trans (shapeCast_a_1a_apply _ _ 0 j)
theorem e0_bq (c : Dev nD) (j : Fin 1024) :
    V1 m ρ c (Pipeline.arrRef spec0 4) (ix2 (0 : Fin 1) j) = (argsOf m c).bq (ix1 j) :=
  (congrFun (W1_v1 m ρ c) (ix2 (0 : Fin 1) j)).trans (shapeCast_a_1a_apply _ _ 0 j)
theorem e0_gk (c : Dev nD) (j : Fin 1024) :
    V1 m ρ c (Pipeline.arrRef spec0 5) (ix2 (0 : Fin 1) j) = (argsOf m c).gk (ix1 j) :=
  (congrFun (W1_v2 m ρ c) (ix2 (0 : Fin 1) j)).trans (shapeCast_a_1a_apply _ _ 0 j)
theorem e0_bk (c : Dev nD) (j : Fin 1024) :
    V1 m ρ c (Pipeline.arrRef spec0 6) (ix2 (0 : Fin 1) j) = (argsOf m c).bk (ix1 j) :=
  (congrFun (W1_v3 m ρ c) (ix2 (0 : Fin 1) j)).trans (shapeCast_a_1a_apply _ _ 0 j)

theorem e1_aff (c : Dev nD)
    (haff0 : ((dat0 (V1 m ρ) c).arrAt 7 cfg0.N : S4x1024x8192.Idx → EReal)
      = fun i => ((Cert.Spec.aff Cert.Consts.epsR (argsOf m c).inputs (i 0) (i 1) (i 2) : ℝ) : EReal)) :
    (V2 m ρ c (Pipeline.arrRef spec1 0) : S4x1024x8192.Idx → EReal)
      = fun i => ((Cert.Spec.aff Cert.Consts.epsR (argsOf m c).inputs (i 0) (i 1) (i 2) : ℝ) : EReal) :=
  (W2_arr m ρ c 7).trans haff0

theorem e1_max (c : Dev nD)
    (hmax0 : ((dat0 (V1 m ρ) c).arrAt 8 cfg0.N : S4x1024x1.Idx → EReal)
      = fun i => ((Cert.Spec.rowMax (Cert.Spec.aff Cert.Consts.epsR (argsOf m c).inputs (i 0) (i 1)) : ℝ) : EReal)) :
    (V2 m ρ c (Pipeline.arrRef spec1 2) : S4x1024x1.Idx → EReal)
      = fun i => ((Cert.Spec.rowMax (Cert.Spec.aff Cert.Consts.epsR (argsOf m c).inputs (i 0) (i 1)) : ℝ) : EReal) :=
  (W2_arr m ρ c 8).trans hmax0

theorem e1_sum (c : Dev nD)
    (hsum0 : ((dat0 (V1 m ρ) c).arrAt 9 cfg0.N : S4x1024x1.Idx → EReal)
      = fun i => ((Cert.Spec.denom (Cert.Spec.aff Cert.Consts.epsR (argsOf m c).inputs (i 0) (i 1)) : ℝ) : EReal)) :
    (V2 m ρ c (Pipeline.arrRef spec1 3) : S4x1024x1.Idx → EReal)
      = fun i => ((Cert.Spec.denom (Cert.Spec.aff Cert.Consts.epsR (argsOf m c).inputs (i 0) (i 1)) : ℝ) : EReal) :=
  (W2_arr m ρ c 9).trans hsum0

theorem e1_memv (c : Dev nD) : V2 m ρ c (Pipeline.arrRef spec1 1) = (argsOf m c).memv :=
  (W2_of_ne m ρ c main_arg2 (by decide)).trans (W1_of_not_written m ρ c main_arg2 (by decide))

theorem e1_feat (c : Dev nD) : V2 m ρ c (Pipeline.arrRef spec1 4) = (argsOf m c).feat :=
  ((W2_arr m ρ c 0).trans (((dat0 (V1 m ρ) c).arrAt_in 0 rfl _).trans (A_eq0 (V1 m ρ) c 0))).trans
    (W1_of_not_written m ρ c main_arg0 (by decide))

theorem e1_gv (c : Dev nD) (j : Fin 1024) :
    V2 m ρ c (Pipeline.arrRef spec1 5) (ix2 (0 : Fin 1) j) = (argsOf m c).gv (ix1 j) :=
  (congrFun ((W2_of_ne m ρ c main_v4 (by decide)).trans (W1_v4 m ρ c)) (ix2 (0 : Fin 1) j)).trans
    (shapeCast_a_1a_apply _ _ 0 j)
theorem e1_bv (c : Dev nD) (j : Fin 1024) :
    V2 m ρ c (Pipeline.arrRef spec1 6) (ix2 (0 : Fin 1) j) = (argsOf m c).bv (ix1 j) :=
  (congrFun ((W2_of_ne m ρ c main_v5 (by decide)).trans (W1_v5 m ρ c)) (ix2 (0 : Fin 1) j)).trans
    (shapeCast_a_1a_apply _ _ 0 j)

end Cert.KernelIdeal.Hand

end
-- ==== Proof.Online.lean ====
import proofs.«404741_j62388694941903_3_alg».proof.Proof.Spec
import Mathlib.Algebra.BigOperators.Fin
import Mathlib.Analysis.SpecialFunctions.Exp
import Mathlib.Order.Fin.Basic

noncomputable section

namespace Cert.Online

open scoped BigOperators

def slot (j : Fin 16) (r : Fin 512) : Fin 8192 := ⟨512 * j.val + r.val, by omega⟩

def tileMax (a : Fin 8192 → ℝ) (j : Fin 16) : ℝ :=
  Finset.univ.sup' ⟨⟨0, by norm_num⟩, Finset.mem_univ _⟩ fun r : Fin 512 => a (slot j r)

def runMax (a : Fin 8192 → ℝ) : ℕ → ℝ
  | 0 => tileMax a 0
  | n + 1 => max (runMax a n) (tileMax a ⟨(n + 1) % 16, by omega⟩)

def runSum (a : Fin 8192 → ℝ) : ℕ → ℝ
  | 0 => ∑ r : Fin 512, Real.exp (a (slot 0 r) - runMax a 0)
  | n + 1 => Real.exp (runMax a n - runMax a (n + 1)) * runSum a n
      + ∑ r : Fin 512, Real.exp (a (slot ⟨(n + 1) % 16, by omega⟩ r) - runMax a (n + 1))

def runTiles (f : Fin 8192 → ℝ) : ℕ → ℝ
  | 0 => ∑ r : Fin 512, f (slot 0 r)
  | n + 1 => runTiles f n + ∑ r : Fin 512, f (slot ⟨(n + 1) % 16, by omega⟩ r)

def tl (n : ℕ) : Fin 16 := ⟨n % 16, by omega⟩

theorem tl_zero : tl 0 = 0 := rfl

theorem tl_val (j : Fin 16) : tl j.val = j := Fin.ext (Nat.mod_eq_of_lt j.isLt)

theorem slot_div_mod (x : Fin 8192) :
    slot ⟨x.val / 512, by omega⟩ ⟨x.val % 512, Nat.mod_lt _ (by norm_num)⟩ = x := by
  apply Fin.ext
  simp only [slot]
  omega

def tileEquiv : Fin 16 × Fin 512 ≃ Fin 8192 where
  toFun p := slot p.1 p.2
  invFun x := (⟨x.val / 512, by omega⟩, ⟨x.val % 512, Nat.mod_lt _ (by norm_num)⟩)
  left_inv p := by
    rcases p with ⟨j, r⟩
    apply Prod.ext
    · apply Fin.ext
      simp only [slot]
      omega
    · apply Fin.ext
      simp only [slot]
      omega
  right_inv x := slot_div_mod x

theorem sum_tiles (g : Fin 8192 → ℝ) :
    ∑ i ∈ Finset.range 16, ∑ r : Fin 512, g (slot (tl i) r) = ∑ x, g x := by
  rw [← Fin.sum_univ_eq_sum_range (fun i => ∑ r : Fin 512, g (slot (tl i) r)) 16]
  simp only [tl_val]
  rw [← Finset.sum_product' (Finset.univ : Finset (Fin 16)) (Finset.univ : Finset (Fin 512))
    (fun j r => g (slot j r)), Finset.univ_product_univ]
  exact Fintype.sum_equiv tileEquiv _ _ (fun _ => rfl)

theorem runTiles_eq (f : Fin 8192 → ℝ) (n : ℕ) :
    runTiles f n = ∑ i ∈ Finset.range (n + 1), ∑ r : Fin 512, f (slot (tl i) r) := by
  induction n with
  | zero => simp [runTiles, tl_zero]
  | succ n ih => rw [runTiles, ih, Finset.sum_range_succ _ (n + 1)]; rfl

theorem runTiles_last (f : Fin 8192 → ℝ) : runTiles f 15 = ∑ x, f x := by
  rw [runTiles_eq, sum_tiles]

theorem runSum_eq (a : Fin 8192 → ℝ) (n : ℕ) :
    runSum a n = ∑ i ∈ Finset.range (n + 1), ∑ r : Fin 512, Real.exp (a (slot (tl i) r) - runMax a n) := by
  induction n with
  | zero => simp [runSum, tl_zero]
  | succ n ih =>
    rw [runSum, ih, Finset.sum_range_succ _ (n + 1), Finset.mul_sum]
    congr 1
    apply Finset.sum_congr rfl
    intro i _
    rw [Finset.mul_sum]
    apply Finset.sum_congr rfl
    intro r _
    rw [← Real.exp_add]
    congr 1
    ring

theorem le_tileMax (a : Fin 8192 → ℝ) (j : Fin 16) (r : Fin 512) : a (slot j r) ≤ tileMax a j :=
  Finset.le_sup' (fun r : Fin 512 => a (slot j r)) (Finset.mem_univ r)

theorem tileMax_mem (a : Fin 8192 → ℝ) (j : Fin 16) : ∃ r : Fin 512, tileMax a j = a (slot j r) := by
  obtain ⟨r, _, hr⟩ := Finset.exists_mem_eq_sup' (s := (Finset.univ : Finset (Fin 512)))
    ⟨⟨0, by norm_num⟩, Finset.mem_univ _⟩ (fun r : Fin 512 => a (slot j r))
  exact ⟨r, hr⟩

theorem le_runMax (a : Fin 8192 → ℝ) (n : ℕ) : ∀ i ≤ n, ∀ r : Fin 512, a (slot (tl i) r) ≤ runMax a n := by
  induction n with
  | zero =>
    intro i hi r
    obtain rfl : i = 0 := Nat.le_zero.mp hi
    exact le_tileMax a 0 r
  | succ n ih =>
    intro i hi r
    rw [runMax]
    rcases Nat.lt_or_ge i (n + 1) with h | h
    · exact le_trans (ih i (Nat.lt_succ_iff.mp h) r) (le_max_left _ _)
    · obtain rfl : i = n + 1 := le_antisymm hi h
      exact le_trans (le_tileMax a (tl (n + 1)) r) (le_max_right _ _)

theorem runMax_mem (a : Fin 8192 → ℝ) (n : ℕ) : ∃ x : Fin 8192, runMax a n = a x := by
  induction n with
  | zero =>
    obtain ⟨r, hr⟩ := tileMax_mem a 0
    exact ⟨slot 0 r, hr⟩
  | succ n ih =>
    rw [runMax]
    rcases max_cases (runMax a n) (tileMax a ⟨(n + 1) % 16, by omega⟩) with ⟨h, _⟩ | ⟨h, _⟩
    · rw [h]; exact ih
    · rw [h]
      obtain ⟨r, hr⟩ := tileMax_mem a ⟨(n + 1) % 16, by omega⟩
      exact ⟨_, hr⟩

theorem runMax_last (a : Fin 8192 → ℝ) : runMax a 15 = Spec.rowMax a := by
  apply le_antisymm
  · obtain ⟨x, hx⟩ := runMax_mem a 15
    rw [hx]
    exact Finset.le_sup' a (Finset.mem_univ x)
  · apply Finset.sup'_le
    intro x _
    have h := le_runMax a 15 (x.val / 512) (by omega) ⟨x.val % 512, Nat.mod_lt _ (by norm_num)⟩
    have e : tl (x.val / 512) = ⟨x.val / 512, by omega⟩ := Fin.ext (Nat.mod_eq_of_lt (by omega))
    rw [e, slot_div_mod] at h
    exact h

theorem runSum_last (a : Fin 8192 → ℝ) : runSum a 15 = Spec.denom a := by
  rw [runSum_eq, runMax_last, sum_tiles (fun x => Real.exp (a x - Spec.rowMax a))]
  rfl

theorem denom_pos (a : Fin 8192 → ℝ) : 0 < Spec.denom a :=
  Finset.sum_pos (fun _ _ => Real.exp_pos _) ⟨⟨0, by norm_num⟩, Finset.mem_univ _⟩

theorem aff_scaled (q k : Fin 1024 → ℝ) (cx : ℝ) :
    ∑ c, (q c * (1 / 32)) * (k c * cx) = Spec.affOf q k cx := by
  rw [Spec.affOf, Finset.sum_div, Finset.sum_mul]
  apply Finset.sum_congr rfl
  intro c _
  ring

theorem prob_mul (a : Fin 8192 → ℝ) (x : Fin 8192) :
    Spec.expo a x * (1 / Spec.denom a) = Spec.prob a x := by
  rw [Spec.prob, mul_one_div]

theorem renorm (T : Fin 8192 → ℝ) (v : Fin 8192 → ℝ) (M f : ℝ) (hM : M ≠ 0) :
    (∑ x, T x * v x) * (1 / M) + f = (∑ x, T x / M * v x) + f := by
  rw [Finset.sum_mul]
  congr 1
  apply Finset.sum_congr rfl
  intro x _
  ring

end Cert.Online

end
-- ==== Proof.KI.R0ValueBlocks.lean ====
import proofs.«404741_j62388694941903_3_alg».proof.Proof.KI.R0Defs
import proofs.«404741_j62388694941903_3_alg».proof.Proof.Bridge
import proofs.«404741_j62388694941903_3_alg».proof.Proof.Online
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable {F : FTy → Type} [FloatOps F]

def bOf0 (t : Fin cfg0.N) : Fin 4 := ⟨t.val / 16, by have := t.isLt; have : cfg0.N = 64 := N_0; omega⟩

def jOf0 (t : Fin cfg0.N) : Fin 16 := ⟨t.val % 16, by omega⟩

theorem bOf0_val (t : Fin cfg0.N) : (bOf0 t).val = t.val / 16 := rfl
theorem jOf0_val (t : Fin cfg0.N) : (jOf0 t).val = t.val % 16 := rfl

theorem index0_0 : ∀ t : Fin cfg0.N, win0_0.index t (0 : Fin 3) = t.val / 16 ∧ win0_0.index t (1 : Fin 3) = 0 ∧ win0_0.index t (2 : Fin 3) = 0 :=
  (by decide +kernel : ∀ t : Fin grid0.N, _)
theorem index0_1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)
theorem index0_2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, _)
theorem index0_3 : ∀ t : Fin cfg0.N, win0_3.index t (0 : Fin 2) = 0 ∧ win0_3.index t (1 : Fin 2) = 0 :=
  (by decide +kernel : ∀ t : Fin grid0.N, _)
theorem index0_4 : ∀ t : Fin cfg0.N, win0_4.index t (0 : Fin 2) = 0 ∧ win0_4.index t (1 : Fin 2) = 0 :=
  (by decide +kernel : ∀ t : Fin grid0.N, _)
theorem index0_5 : ∀ t : Fin cfg0.N, win0_5.index t (0 : Fin 2) = 0 ∧ win0_5.index t (1 : Fin 2) = 0 :=
  (by decide +kernel : ∀ t : Fin grid0.N, _)
theorem index0_6 : ∀ t : Fin cfg0.N, win0_6.index t (0 : Fin 2) = 0 ∧ win0_6.index t (1 : Fin 2) = 0 :=
  (by decide +kernel : ∀ t : Fin grid0.N, _)
theorem index0_7 : ∀ t : Fin cfg0.N, win0_7.index t (0 : Fin 3) = t.val / 16 ∧ win0_7.index t (1 : Fin 3) = 0 ∧ win0_7.index t (2 : Fin 3) = t.val % 16 :=
  (by decide +kernel : ∀ t : Fin grid0.N, _)
theorem index0_8 : ∀ t : Fin cfg0.N, win0_8.index t (0 : Fin 3) = t.val / 16 ∧ win0_8.index t (1 : Fin 3) = 0 ∧ win0_8.index t (2 : Fin 3) = 0 :=
  (by decide +kernel : ∀ t : Fin grid0.N, _)
theorem index0_9 : ∀ t : Fin cfg0.N, win0_9.index t (0 : Fin 3) = t.val / 16 ∧ win0_9.index t (1 : Fin 3) = 0 ∧ win0_9.index t (2 : Fin 3) = 0 :=
  (by decide +kernel : ∀ t : Fin grid0.N, _)

section Blocks
variable (V : (c : Dev nD) → (b : Ref sig .tc) → Buf (Elt F) ((c : Thread nD τ).loc b))

theorem iblk0_0_apply (c : Dev nD) (t : Fin cfg0.N) (x : S1x1024x1024.Idx) (k : S4x1024x1024.Idx)
    (hk0 : (k 0).val = t.val / 16) (hk1 : (k 1).val = (x 1).val) (hk2 : (k 2).val = (x 2).val) :
    (iblk0 V c 0 t : Vec F S1x1024x1024 .f32) x = (V c (Pipeline.arrRef spec0 0) : S4x1024x1024.Idx → Elt F .f32) k := by
  obtain ⟨e0, e1, e2⟩ := index0_0 t
  unfold iblk0
  rw [View.read_apply]
  refine congrArg (V c (Pipeline.arrRef spec0 0)) (funext fun a => Fin.ext ?_)
  have hx0 : (x 0).val < 1 := (x 0).isLt
  match a with
  | ⟨0, _⟩ => show win0_0.index t (0 : Fin 3) * 1 + 1 * (x 0).val = (k 0).val; omega
  | ⟨1, _⟩ => show win0_0.index t (1 : Fin 3) * 1024 + 1 * (x 1).val = (k 1).val; omega
  | ⟨2, _⟩ => show win0_0.index t (2 : Fin 3) * 1024 + 1 * (x 2).val = (k 2).val; omega

theorem iblk0_1_apply (c : Dev nD) (t : Fin cfg0.N) (x : S1x512x1024.Idx) (k : S4x8192x1024.Idx)
    (hk0 : (k 0).val = t.val / 16) (hk1 : (k 1).val = 512 * (t.val % 16) + (x 1).val) (hk2 : (k 2).val = (x 2).val) :
    (iblk0 V c 1 t : Vec F S1x512x1024 .f32) x = (V c (Pipeline.arrRef spec0 1) : S4x8192x1024.Idx → Elt F .f32) k := by
  obtain ⟨e0, e1, e2⟩ := index0_1 t
  unfold iblk0
  rw [View.read_apply]
  refine congrArg (V c (Pipeline.arrRef spec0 1)) (funext fun a => Fin.ext ?_)
  have hx0 : (x 0).val < 1 := (x 0).isLt
  match a with
  | ⟨0, _⟩ => show win0_1.index t (0 : Fin 3) * 1 + 1 * (x 0).val = (k 0).val; omega
  | ⟨1, _⟩ => show win0_1.index t (1 : Fin 3) * 512 + 1 * (x 1).val = (k 1).val; omega
  | ⟨2, _⟩ => show win0_1.index t (2 : Fin 3) * 1024 + 1 * (x 2).val = (k 2).val; omega

theorem iblk0_2_apply (c : Dev nD) (t : Fin cfg0.N) (x : S1x512x1.Idx) (k : S4x8192x1.Idx)
    (hk0 : (k 0).val = t.val / 16) (hk1 : (k 1).val = 512 * (t.val % 16) + (x 1).val) (hk2 : (k 2).val = (x 2).val) :
    (iblk0 V c 2 t : Vec F S1x512x1 .f32) x = (V c (Pipeline.arrRef spec0 2) : S4x8192x1.Idx → Elt F .f32) k := by
  obtain ⟨e0, e1, e2⟩ := index0_2 t
  unfold iblk0
  rw [View.read_apply]
  refine congrArg (V c (Pipeline.arrRef spec0 2)) (funext fun a => Fin.ext ?_)
  have hx0 : (x 0).val < 1 := (x 0).isLt
  match a with
  | ⟨0, _⟩ => show win0_2.index t (0 : Fin 3) * 1 + 1 * (x 0).val = (k 0).val; omega
  | ⟨1, _⟩ => show win0_2.index t (1 : Fin 3) * 512 + 1 * (x 1).val = (k 1).val; omega
  | ⟨2, _⟩ => show win0_2.index t (2 : Fin 3) * 1 + 1 * (x 2).val = (k 2).val; omega

theorem iblk0_3_apply (c : Dev nD) (t : Fin cfg0.N) (x : S1x1024.Idx) :
    (iblk0 V c 3 t : Vec F S1x1024 .f32) x = (V c (Pipeline.arrRef spec0 3) : S1x1024.Idx → Elt F .f32) x := by
  obtain ⟨e0, e1⟩ := index0_3 t
  unfold iblk0
  rw [View.read_apply]
  refine congrArg (V c (Pipeline.arrRef spec0 3)) (funext fun a => Fin.ext ?_)
  match a with
  | ⟨0, _⟩ => show win0_3.index t (0 : Fin 2) * 1 + 1 * (x 0).val = (x 0).val; omega
  | ⟨1, _⟩ => show win0_3.index t (1 : Fin 2) * 1024 + 1 * (x 1).val = (x 1).val; omega
theorem iblk0_4_apply (c : Dev nD) (t : Fin cfg0.N) (x : S1x1024.Idx) :
    (iblk0 V c 4 t : Vec F S1x1024 .f32) x = (V c (Pipeline.arrRef spec0 4) : S1x1024.Idx → Elt F .f32) x := by
  obtain ⟨e0, e1⟩ := index0_4 t
  unfold iblk0
  rw [View.read_apply]
  refine congrArg (V c (Pipeline.arrRef spec0 4)) (funext fun a => Fin.ext ?_)
  match a with
  | ⟨0, _⟩ => show win0_4.index t (0 : Fin 2) * 1 + 1 * (x 0).val = (x 0).val; omega
  | ⟨1, _⟩ => show win0_4.index t (1 : Fin 2) * 1024 + 1 * (x 1).val = (x 1).val; omega
theorem iblk0_5_apply (c : Dev nD) (t : Fin cfg0.N) (x : S1x1024.Idx) :
    (iblk0 V c 5 t : Vec F S1x1024 .f32) x = (V c (Pipeline.arrRef spec0 5) : S1x1024.Idx → Elt F .f32) x := by
  obtain ⟨e0, e1⟩ := index0_5 t
  unfold iblk0
  rw [View.read_apply]
  refine congrArg (V c (Pipeline.arrRef spec0 5)) (funext fun a => Fin.ext ?_)
  match a with
  | ⟨0, _⟩ => show win0_5.index t (0 : Fin 2) * 1 + 1 * (x 0).val = (x 0).val; omega
  | ⟨1, _⟩ => show win0_5.index t (1 : Fin 2) * 1024 + 1 * (x 1).val = (x 1).val; omega
theorem iblk0_6_apply (c : Dev nD) (t : Fin cfg0.N) (x : S1x1024.Idx) :
    (iblk0 V c 6 t : Vec F S1x1024 .f32) x = (V c (Pipeline.arrRef spec0 6) : S1x1024.Idx → Elt F .f32) x := by
  obtain ⟨e0, e1⟩ := index0_6 t
  unfold iblk0
  rw [View.read_apply]
  refine congrArg (V c (Pipeline.arrRef spec0 6)) (funext fun a => Fin.ext ?_)
  match a with
  | ⟨0, _⟩ => show win0_6.index t (0 : Fin 2) * 1 + 1 * (x 0).val = (x 0).val; omega
  | ⟨1, _⟩ => show win0_6.index t (1 : Fin 2) * 1024 + 1 * (x 1).val = (x 1).val; omega

end Blocks

theorem emb0_7 (t : Fin cfg0.N) (x : S1x1024x512.Idx) (k : S4x1024x8192.Idx)
    (hk0 : (k 0).val = t.val / 16) (hk1 : (k 1).val = (x 1).val) (hk2 : (k 2).val = 512 * (t.val % 16) + (x 2).val) :
    ((cfg0.win 7).blk t).view.emb x = k := by
  obtain ⟨e0, e1, e2⟩ := index0_7 t
  refine funext fun a => Fin.ext ?_
  have hx0 : (x 0).val < 1 := (x 0).isLt
  match a with
  | ⟨0, _⟩ => show win0_7.index t (0 : Fin 3) * 1 + 1 * (x 0).val = (k 0).val; omega
  | ⟨1, _⟩ => show win0_7.index t (1 : Fin 3) * 1024 + 1 * (x 1).val = (k 1).val; omega
  | ⟨2, _⟩ => show win0_7.index t (2 : Fin 3) * 512 + 1 * (x 2).val = (k 2).val; omega

theorem emb0_8 (t : Fin cfg0.N) (x : S1x1024x1.Idx) (k : S4x1024x1.Idx)
    (hk0 : (k 0).val = t.val / 16) (hk1 : (k 1).val = (x 1).val) (hk2 : (k 2).val = (x 2).val) :
    ((cfg0.win 8).blk t).view.emb x = k := by
  obtain ⟨e0, e1, e2⟩ := index0_8 t
  refine funext fun a => Fin.ext ?_
  have hx0 : (x 0).val < 1 := (x 0).isLt
  match a with
  | ⟨0, _⟩ => show win0_8.index t (0 : Fin 3) * 1 + 1 * (x 0).val = (k 0).val; omega
  | ⟨1, _⟩ => show win0_8.index t (1 : Fin 3) * 1024 + 1 * (x 1).val = (k 1).val; omega
  | ⟨2, _⟩ => show win0_8.index t (2 : Fin 3) * 1 + 1 * (x 2).val = (k 2).val; omega

theorem emb0_9 (t : Fin cfg0.N) (x : S1x1024x1.Idx) (k : S4x1024x1.Idx)
    (hk0 : (k 0).val = t.val / 16) (hk1 : (k 1).val = (x 1).val) (hk2 : (k 2).val = (x 2).val) :
    ((cfg0.win 9).blk t).view.emb x = k := by
  obtain ⟨e0, e1, e2⟩ := index0_9 t
  refine funext fun a => Fin.ext ?_
  have hx0 : (x 0).val < 1 := (x 0).isLt
  match a with
  | ⟨0, _⟩ => show win0_9.index t (0 : Fin 3) * 1 + 1 * (x 0).val = (k 0).val; omega
  | ⟨1, _⟩ => show win0_9.index t (1 : Fin 3) * 1024 + 1 * (x 1).val = (k 1).val; omega
  | ⟨2, _⟩ => show win0_9.index t (2 : Fin 3) * 1 + 1 * (x 2).val = (k 2).val; omega

theorem mem_blk0_7 (t : Fin cfg0.N) (i : S4x1024x8192.Idx) :
    i ∈ ((cfg0.win 7).blk t).view.set ↔ ∀ a : Fin 3, win0_7.index t a * S1x1024x512.size a ≤ (i a).val ∧ (i a).val < win0_7.index t a * S1x1024x512.size a + S1x1024x512.size a := by
  show i ∈ ((View.whole main_v6_0).slice (win0_7.rect t)).set ↔ _
  rw [View.set_slice_whole, Rect.mem_set_unit]
  exact Iff.rfl
theorem mem_blk0_8 (t : Fin cfg0.N) (i : S4x1024x1.Idx) :
    i ∈ ((cfg0.win 8).blk t).view.set ↔ ∀ a : Fin 3, win0_8.index t a * S1x1024x1.size a ≤ (i a).val ∧ (i a).val < win0_8.index t a * S1x1024x1.size a + S1x1024x1.size a := by
  show i ∈ ((View.whole main_v6_1).slice (win0_8.rect t)).set ↔ _
  rw [View.set_slice_whole, Rect.mem_set_unit]
  exact Iff.rfl
theorem mem_blk0_9 (t : Fin cfg0.N) (i : S4x1024x1.Idx) :
    i ∈ ((cfg0.win 9).blk t).view.set ↔ ∀ a : Fin 3, win0_9.index t a * S1x1024x1.size a ≤ (i a).val ∧ (i a).val < win0_9.index t a * S1x1024x1.size a + S1x1024x1.size a := by
  show i ∈ ((View.whole main_v6_2).slice (win0_9.rect t)).set ↔ _
  rw [View.set_slice_whole, Rect.mem_set_unit]
  exact Iff.rfl

theorem cover0_7 (i : S4x1024x8192.Idx) :
    ∃ t : Fin cfg0.N, (cfg0.win 7).flush t = true ∧ i ∈ ((cfg0.win 7).blk t).view.set := by
  have hN : cfg0.N = 64 := N_0
  have h0 : (i 0).val < 4 := (i 0).isLt
  have h1 : (i 1).val < 1024 := (i 1).isLt
  have h2 : (i 2).val < 8192 := (i 2).isLt
  refine ⟨⟨16 * (i 0).val + (i 2).val / 512, by omega⟩, flush0_7 _, ?_⟩
  rw [mem_blk0_7]
  obtain ⟨e0, e1, e2⟩ := index0_7 ⟨16 * (i 0).val + (i 2).val / 512, by omega⟩
  dsimp only at e0 e1 e2
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 1024 ≤ (i 1).val ∧ (i 1).val < win0_7.index _ (1 : Fin 3) * 1024 + 1024; omega
  | ⟨2, _⟩ => show win0_7.index _ (2 : Fin 3) * 512 ≤ (i 2).val ∧ (i 2).val < win0_7.index _ (2 : Fin 3) * 512 + 512; omega

theorem cover0_8 (i : S4x1024x1.Idx) :
    ∃ t : Fin cfg0.N, (cfg0.win 8).flush t = true ∧ i ∈ ((cfg0.win 8).blk t).view.set := by
  have hN : cfg0.N = 64 := N_0
  have h0 : (i 0).val < 4 := (i 0).isLt
  have h1 : (i 1).val < 1024 := (i 1).isLt
  have h2 : (i 2).val < 1 := (i 2).isLt
  refine ⟨⟨16 * (i 0).val + 15, by omega⟩, (flush0_8 _).mpr (by dsimp only; omega), ?_⟩
  rw [mem_blk0_8]
  obtain ⟨e0, e1, e2⟩ := index0_8 ⟨16 * (i 0).val + 15, by omega⟩
  dsimp only at e0 e1 e2
  intro a
  match a with
  | ⟨0, _⟩ => show win0_8.index _ (0 : Fin 3) * 1 ≤ (i 0).val ∧ (i 0).val < win0_8.index _ (0 : Fin 3) * 1 + 1; omega
  | ⟨1, _⟩ => show win0_8.index _ (1 : Fin 3) * 1024 ≤ (i 1).val ∧ (i 1).val < win0_8.index _ (1 : Fin 3) * 1024 + 1024; omega
  | ⟨2, _⟩ => show win0_8.index _ (2 : Fin 3) * 1 ≤ (i 2).val ∧ (i 2).val < win0_8.index _ (2 : Fin 3) * 1 + 1; omega

theorem cover0_9 (i : S4x1024x1.Idx) :
    ∃ t : Fin cfg0.N, (cfg0.win 9).flush t = true ∧ i ∈ ((cfg0.win 9).blk t).view.set := by
  have hN : cfg0.N = 64 := N_0
  have h0 : (i 0).val < 4 := (i 0).isLt
  have h1 : (i 1).val < 1024 := (i 1).isLt
  have h2 : (i 2).val < 1 := (i 2).isLt
  refine ⟨⟨16 * (i 0).val + 15, by omega⟩, (flush0_9 _).mpr (by dsimp only; omega), ?_⟩
  rw [mem_blk0_9]
  obtain ⟨e0, e1, e2⟩ := index0_9 ⟨16 * (i 0).val + 15, by omega⟩
  dsimp only at e0 e1 e2
  intro a
  match a with
  | ⟨0, _⟩ => show win0_9.index _ (0 : Fin 3) * 1 ≤ (i 0).val ∧ (i 0).val < win0_9.index _ (0 : Fin 3) * 1 + 1; omega
  | ⟨1, _⟩ => show win0_9.index _ (1 : Fin 3) * 1024 ≤ (i 1).val ∧ (i 1).val < win0_9.index _ (1 : Fin 3) * 1024 + 1024; omega
  | ⟨2, _⟩ => show win0_9.index _ (2 : Fin 3) * 1 ≤ (i 2).val ∧ (i 2).val < win0_9.index _ (2 : Fin 3) * 1 + 1; omega

end Cert.KernelIdeal.Gen

end
-- ==== Proof.KI.R0ValueReal.lean ====
import proofs.«404741_j62388694941903_3_alg».proof.Proof.KI.R0ValueBlocks
import proofs.«404741_j62388694941903_3_alg».proof.Proof.Consts

set_option maxRecDepth 16384

noncomputable section

namespace Cert.KernelIdeal.Gen

open Idealize.ShloMosaic Idealize.ShloMosaic.TcCoe Idealize.ShloMosaic.ValueIdx
open Idealize.SL Idealize.SL.Sem
open Cert.Online (slot)

section Real
variable (V : (c : Dev nD) → (b : Ref sig .tc) → Buf (Elt Ideal) ((c : Thread nD τ).loc b)) (c : Dev nD)
variable (a : Cert.Bridge.Args) (hr : a.IsReal)
include hr

theorem feat_blk0 (hfeat : (V c (Pipeline.arrRef spec0 0) : S4x1024x1024.Idx → EReal) = a.feat) (t : Fin cfg0.N) (p cc : Fin 1024) :
    (iblk0 V c 0 t : Vec Ideal S1x1024x1024 .f32) (ix3 (0 : Fin 1) p cc) = ((a.inputs.feat (bOf0 t) p cc : ℝ) : EReal) := by
  rw [iblk0_0_apply V c t (ix3 (0 : Fin 1) p cc) (ix3 (bOf0 t) p cc) rfl rfl rfl, hfeat]
  exact hr.feat _

theorem memk_blk0 (hmemk : (V c (Pipeline.arrRef spec0 1) : S4x8192x1024.Idx → EReal) = a.memk) (t : Fin cfg0.N) (r : Fin 512) (cc : Fin 1024) :
    (iblk0 V c 1 t : Vec Ideal S1x512x1024 .f32) (ix3 (0 : Fin 1) r cc) = ((a.inputs.memk (bOf0 t) (slot (jOf0 t) r) cc : ℝ) : EReal) := by
  rw [iblk0_1_apply V c t (ix3 (0 : Fin 1) r cc) (ix3 (bOf0 t) (slot (jOf0 t) r) cc) rfl rfl rfl, hmemk]
  exact hr.memk _

theorem memc_blk0 (hmemc : (V c (Pipeline.arrRef spec0 2) : S4x8192x1.Idx → EReal) = a.memc) (t : Fin cfg0.N) (r : Fin 512) :
    (iblk0 V c 2 t : Vec Ideal S1x512x1 .f32) (ix3 (0 : Fin 1) r (0 : Fin 1)) = ((a.inputs.memc (bOf0 t) (slot (jOf0 t) r) : ℝ) : EReal) := by
  rw [iblk0_2_apply V c t (ix3 (0 : Fin 1) r (0 : Fin 1)) (ix3 (bOf0 t) (slot (jOf0 t) r) (0 : Fin 1)) rfl rfl rfl, hmemc]
  exact hr.memc _

theorem gq_blk0 (hgq : ∀ j : Fin 1024, (V c (Pipeline.arrRef spec0 3) : S1x1024.Idx → EReal) (ix2 (0 : Fin 1) j) = a.gq (ix1 j)) (t : Fin cfg0.N) (j : Fin 1024) :
    (iblk0 V c 3 t : Vec Ideal S1x1024 .f32) (ix2 (0 : Fin 1) j) = ((a.inputs.gq j : ℝ) : EReal) := by
  rw [iblk0_3_apply V c t (ix2 (0 : Fin 1) j), hgq]
  exact hr.gq _

theorem bq_blk0 (hbq : ∀ j : Fin 1024, (V c (Pipeline.arrRef spec0 4) : S1x1024.Idx → EReal) (ix2 (0 : Fin 1) j) = a.bq (ix1 j)) (t : Fin cfg0.N) (j : Fin 1024) :
    (iblk0 V c 4 t : Vec Ideal S1x1024 .f32) (ix2 (0 : Fin 1) j) = ((a.inputs.bq j : ℝ) : EReal) := by
  rw [iblk0_4_apply V c t (ix2 (0 : Fin 1) j), hbq]
  exact hr.bq _

theorem gk_blk0 (hgk : ∀ j : Fin 1024, (V c (Pipeline.arrRef spec0 5) : S1x1024.Idx → EReal) (ix2 (0 : Fin 1) j) = a.gk (ix1 j)) (t : Fin cfg0.N) (j : Fin 1024) :
    (iblk0 V c 5 t : Vec Ideal S1x1024 .f32) (ix2 (0 : Fin 1) j) = ((a.inputs.gk j : ℝ) : EReal) := by
  rw [iblk0_5_apply V c t (ix2 (0 : Fin 1) j), hgk]
  exact hr.gk _

theorem bk_blk0 (hbk : ∀ j : Fin 1024, (V c (Pipeline.arrRef spec0 6) : S1x1024.Idx → EReal) (ix2 (0 : Fin 1) j) = a.bk (ix1 j)) (t : Fin cfg0.N) (j : Fin 1024) :
    (iblk0 V c 6 t : Vec Ideal S1x1024 .f32) (ix2 (0 : Fin 1) j) = ((a.inputs.bk j : ℝ) : EReal) := by
  rw [iblk0_6_apply V c t (ix2 (0 : Fin 1) j), hbk]
  exact hr.bk _

end Real

end Cert.KernelIdeal.Gen

end
-- ==== Proof.KI.R0ValueInvDef.lean ====
import proofs.«404741_j62388694941903_3_alg».proof.Proof.KI.R0Frame
import proofs.«404741_j62388694941903_3_alg».proof.Proof.KI.R0ValueReal

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)
open Cert.Online (slot runMax runSum)

section Inv
variable (V : (c : Dev nD) → (b : Ref sig .tc) → Buf (Elt Ideal) ((c : Thread nD τ).loc b)) (c : Dev nD)
variable (a : Cert.Bridge.Args)

abbrev affR0 (b : Fin 4) (p : Fin 1024) : Fin 8192 → ℝ := Cert.Spec.aff Cert.Consts.epsR a.inputs b p

structure Inv0 (n : ℕ) (hn : n < cfg0.N) : Prop where

  aff : ∀ (p : Fin 1024) (r : Fin 512), (outsAt0 V c n hn).1 (ix3 (0 : Fin 1) p r)
    = ((affR0 a (bOf0 ⟨n, hn⟩) p (slot (jOf0 ⟨n, hn⟩) r) : ℝ) : EReal)

  q : ∀ (p cc : Fin 1024), (outsAt0 V c n hn).2.2.2.1 (ix2 p cc)
    = ((Cert.Spec.q Cert.Consts.epsR a.inputs (bOf0 ⟨n, hn⟩) p cc * (1 / 32) : ℝ) : EReal)

  m : ∀ p : Fin 1024, (outsAt0 V c n hn).2.2.2.2.1 (ix2 p (0 : Fin 1))
    = ((runMax (affR0 a (bOf0 ⟨n, hn⟩) p) (n % 16) : ℝ) : EReal)

  l : ∀ p : Fin 1024, (outsAt0 V c n hn).2.2.2.2.2 (ix2 p (0 : Fin 1))
    = ((runSum (affR0 a (bOf0 ⟨n, hn⟩) p) (n % 16) : ℝ) : EReal)

  om : n % 16 = 15 → ∀ p : Fin 1024, (outsAt0 V c n hn).2.1 (ix3 (0 : Fin 1) p (0 : Fin 1))
    = ((runMax (affR0 a (bOf0 ⟨n, hn⟩) p) 15 : ℝ) : EReal)

  ol : n % 16 = 15 → ∀ p : Fin 1024, (outsAt0 V c n hn).2.2.1 (ix3 (0 : Fin 1) p (0 : Fin 1))
    = ((runSum (affR0 a (bOf0 ⟨n, hn⟩) p) 15 : ℝ) : EReal)

end Inv

end Cert.KernelIdeal.Gen

end
-- ==== Proof.KI.R0PiecesA.lean ====
import proofs.«404741_j62388694941903_3_alg».proof.Proof.KI.R0Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl
private theorem hz3 : (![0, 0, 0] : Fin 3 → Nat) = fun _ => 0 := funext fun a => by fin_cases a <;> rfl

section
variable (c : Dev nD) (i : grid0.Coords) (arg2 : Memref sig .tc .vmem S1x1024x1024 .f32) (harg2 : arg2.IsWhole) (arg3 : Memref sig .tc .vmem S1x512x1024 .f32) (harg3 : arg3.IsWhole) (arg4 : Memref sig .tc .vmem S1x512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x512 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i) (x0 : Vec F S1x1024x1024 .f32) (x1 : Vec F S1x512x1024 .f32) (x2 : Vec F S1x512x1 .f32) (x3 : Vec F S1x1024 .f32) (x4 : Vec F S1x1024 .f32) (x5 : Vec F S1x1024 .f32) (x6 : Vec F S1x1024 .f32)
include c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6

theorem out0_A_7_eq :
    out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay2 (k0_pay8 x0 x3 x4) (k0_pay12 x1 x5 x6 x2) (constant S1024x512 .f32 0x00000000#32) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

theorem sout0_A_0_eq :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay8 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

theorem sout0_A_1_eq :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay5 (k0_pay8 x0 x3 x4) (k0_pay12 x1 x5 x6 x2) (constant S1024x512 .f32 0x00000000#32) (k0_pay9 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

theorem sout0_A_2_eq :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay4 (k0_pay8 x0 x3 x4) (k0_pay12 x1 x5 x6 x2) (constant S1024x512 .f32 0x00000000#32) (k0_pay9 (F := F)) (k0_pay9 (F := F)) (k0_pay11 (k0_pay10 (F := F))) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

end

end Cert.KernelIdeal.Gen

end
-- ==== Proof.CoeOps.lean ====
import Idealize.ShloMosaic.PureOps.Ideal

noncomputable section

namespace Cert.CoeOps

open Idealize.ShloMosaic
open scoped BigOperators

theorem add_coe (a b : ℝ) : ((a : EReal) + (b : EReal)) = ((a + b : ℝ) : EReal) := (EReal.coe_add a b).symm
theorem sub_coe (a b : ℝ) : ((a : EReal) - (b : EReal)) = ((a - b : ℝ) : EReal) := (EReal.coe_sub a b).symm
theorem mul_coe (a b : ℝ) : ((a : EReal) * (b : EReal)) = ((a * b : ℝ) : EReal) := (EReal.coe_mul a b).symm
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]
theorem max_bot_coe (a : ℝ) : max (⊥ : EReal) (a : EReal) = (a : EReal) := max_eq_right bot_le

theorem div_coe (a : ℝ) {b : ℝ} (hb : b ≠ 0) : Ideal.div (a : EReal) (b : EReal) = ((a / b : ℝ) : EReal) := by
  rw [Ideal.div_coe hb, ← EReal.coe_mul, mul_one_div]

theorem sqrt_coe {r : ℝ} (hr : 0 ≤ r) : Ideal.sqrt (r : EReal) = ((Real.sqrt r : ℝ) : EReal) := by
  rw [Ideal.sqrt_coe, if_neg (not_lt.mpr hr)]

theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

theorem exp_coe (r : ℝ) : Ideal.exp (r : EReal) = ((Real.exp r : ℝ) : EReal) := rfl
theorem exp_bot : Ideal.exp (⊥ : EReal) = ((0 : ℝ) : EReal) := by
  rw [Ideal.exp_bot, EReal.coe_zero]

theorem sum_coe {ι : Type} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

theorem cmp_olt_coe (a b : ℝ) : Ideal.cmp .olt (a : EReal) (b : EReal) = if a < b then 1#1 else 0#1 := by
  unfold Ideal.cmp
  by_cases h : a < b
  · simp [h]
  · simp [h]

theorem cmp_une_coe (a b : ℝ) : Ideal.cmp .une (a : EReal) (b : EReal) = if a ≠ b then 1#1 else 0#1 := by
  unfold Ideal.cmp
  by_cases h : a = b
  · simp [h]
  · simp [h]

theorem coe_toReal_of_abs_lt_top {x : EReal} (h : max x (-x) < ⊤) : x = ((x.toReal : ℝ) : EReal) := by
  have h1 : x ≠ ⊤ := fun e => by simp [e] at h
  have h2 : x ≠ ⊥ := fun e => by simp [e] at h
  exact (EReal.coe_toReal h1 h2).symm

end Cert.CoeOps

end
-- ==== Proof.KI.R0Pay.lean ====
import proofs.«404741_j62388694941903_3_alg».proof.Proof.Gen.KernelIdeal.Skeleton
import proofs.«404741_j62388694941903_3_alg».proof.Proof.Spec
import proofs.«404741_j62388694941903_3_alg».proof.Proof.CoeOps
import proofs.«404741_j62388694941903_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay0

open Idealize.ShloMosaic Idealize.ShloMosaic.ValueIdx
open Cert.KernelIdeal Cert.KernelIdeal.Gen
open scoped BigOperators

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => ?_)
  match c with
  | ⟨0, _⟩ => exact Fin.ext rfl
  | ⟨1, _⟩ => exact Fin.ext rfl

end Layout

theorem pay9_apply (p : Fin 1024) (u : Fin 1) : k0_pay9 (F := Ideal) (ix2 p u) = (⊥ : EReal) := by
  unfold k0_pay9
  rw [shapeCast_self]
  exact Cert.Consts.ofBits_neg_inf

theorem pay11_apply (p : Fin 1024) (u : Fin 1) : k0_pay11 (k0_pay10 (F := Ideal)) (ix2 p u) = ((0 : ℝ) : EReal) := by
  unfold k0_pay11 k0_pay10
  rw [shapeCast_self]
  exact Cert.Consts.ofBits_zero

theorem pay6_apply (v : Vec Ideal S1024x1 .f32) (p : Fin 1024) (u : Fin 1) : k0_pay6 v (ix3 (0 : Fin 1) p u) = v (ix2 p u) := by
  unfold k0_pay6
  exact shapeCast_ab_1ab_apply v _ 0 p u

theorem pay7_apply (v : Vec Ideal S1024x1 .f32) (p : Fin 1024) (u : Fin 1) : k0_pay7 v (ix3 (0 : Fin 1) p u) = v (ix2 p u) := by
  unfold k0_pay7
  exact shapeCast_ab_1ab_apply v _ 0 p u

theorem pay2_apply (qs : Vec Ideal S1024x1024 .bf16) (ks : FVec Ideal S512x1024 .bf16) (cst : FVec Ideal S1024x512 .f32)
    (p : Fin 1024) (r : Fin 512) : k0_pay2 qs ks cst (ix3 (0 : Fin 1) p r) = k0_pay1 qs ks cst (ix2 p r) := by
  unfold k0_pay2
  generalize k0_pay1 qs ks cst = y
  exact shapeCast_ab_1ab_apply y _ 0 p r

theorem pay5_apply (qs : Vec Ideal S1024x1024 .bf16) (ks : FVec Ideal S512x1024 .bf16) (cst : FVec Ideal S1024x512 .f32)
    (mv : Vec Ideal S1024x1 .f32) (p : Fin 1024) (u : Fin 1) : k0_pay5 qs ks cst mv (ix2 p u) = k0_pay3 qs ks cst mv (ix2 p u) := by
  unfold k0_pay5
  rw [shapeCast_self]

theorem lhs_pay1_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_pay1_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_pay1_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_pay1_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

theorem pay1_sum (qs : FVec Ideal S1024x1024 .bf16) (ks : FVec Ideal S512x1024 .bf16) (p : Fin 1024) (r : Fin 512) :
    k0_pay1 qs ks (constant (F := Ideal) S1024x512 .f32 0x00000000#32) (ix2 p r) = ∑ c : Fin 1024, qs (ix2 p c) * ks (ix2 r c) := by
  unfold k0_pay1
  simp only [matmul]
  rw [Ideal.matmul_constant_zero_apply, ← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 p r) ((ValueIdx.contrEquiv1 dot_S1024x1024_S512x1024_S1024x512_1_1_0_0_n_n 1024 rfl rfl).symm k) = ix2 p k := funext fun a => Fin.ext (by
    match a with
    | ⟨0, _⟩ => exact lhs_pay1_0 _ _
    | ⟨1, _⟩ => exact (lhs_pay1_1 _ _).trans hk)
  have er : dot_S1024x1024_S512x1024_S1024x512_1_1_0_0_n_n.rhsIdx (ix2 p r) ((ValueIdx.contrEquiv1 dot_S1024x1024_S512x1024_S1024x512_1_1_0_0_n_n 1024 rfl rfl).symm k) = ix2 r k := funext fun a => Fin.ext (by
    match a with
    | ⟨0, _⟩ => exact rhs_pay1_0 _ _
    | ⟨1, _⟩ => exact (rhs_pay1_1 _ _).trans hk)
  rw [el, er]

def affT (Q : Fin 1024 → Fin 1024 → ℝ) (Ks : Fin 512 → Fin 1024 → ℝ) (p : Fin 1024) (r : Fin 512) : ℝ := ∑ c, Q p c * Ks r c

theorem pay1_apply (qs : FVec Ideal S1024x1024 .bf16) (ks : FVec Ideal S512x1024 .bf16)
    (Q : Fin 1024 → Fin 1024 → ℝ) (Ks : Fin 512 → Fin 1024 → ℝ)
    (hq : ∀ p c, qs (ix2 p c) = ((Q p c : ℝ) : EReal)) (hk : ∀ r c, ks (ix2 r c) = ((Ks r c : ℝ) : EReal))
    (p : Fin 1024) (r : Fin 512) :
    k0_pay1 qs ks (constant (F := Ideal) S1024x512 .f32 0x00000000#32) (ix2 p r) = ((affT Q Ks p r : ℝ) : EReal) := by
  rw [pay1_sum]
  unfold affT
  rw [← Cert.CoeOps.sum_coe]
  refine Finset.sum_congr rfl fun c _ => ?_
  rw [hq, hk, Cert.CoeOps.mul_coe]

theorem exp_apply {s : Shape} {φ : FTy} (a : FVec Ideal s φ) (i : s.Idx) : exp a i = Ideal.exp (a i) := rfl

theorem fold_max_coe {ι : Type} (s : Finset ι) (hs : s.Nonempty) (f : ι → ℝ) :
    s.fold max (⊥ : EReal) (fun i => ((f i : ℝ) : EReal)) = ((s.sup' hs f : ℝ) : EReal) := by
  induction hs using Finset.Nonempty.cons_induction with
  | singleton i =>
    rw [Finset.fold_singleton, Finset.sup'_singleton]
    exact max_eq_left bot_le
  | cons i s hi hs ih =>
    rw [Finset.fold_cons, ih, Finset.sup'_cons hs, Cert.CoeOps.max_coe]

theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (⊥ : EReal) (fun k => src (ix2 p k)) := by
  refine (Ideal.multiReduction_maximumf_single src 0xFF800000#32 h hφ hacc (ix1 p)).trans ?_
  have e : (src ∘ h.lift (ix1 p) : Fin b → EReal) = fun k => src (ix2 p k) := funext fun k => congrArg src (funext fun c => by
    match c with
    | ⟨0, _⟩ => exact Fin.ext rfl
    | ⟨1, _⟩ => exact Fin.ext rfl)
  rw [show FloatOps.ofBits (F := Ideal) .f32 0xFF800000#32 = (⊥ : EReal) from Cert.Consts.ofBits_neg_inf]
  exact congrArg (fun g : Fin b → EReal => Finset.fold max (⊥ : EReal) g Finset.univ) e

theorem pay3_raw (qs : Vec Ideal S1024x1024 .bf16) (ks : FVec Ideal S512x1024 .bf16) (cst : FVec Ideal S1024x512 .f32)
    (mv : Vec Ideal S1024x1 .f32) (p : Fin 1024) (u : Fin 1) :
    k0_pay3 qs ks cst mv (ix2 p u)
      = max (mv (ix2 p u)) ((Finset.univ : Finset (Fin 512)).fold max (⊥ : EReal) (fun r => k0_pay1 qs ks cst (ix2 p r))) := by
  unfold k0_pay3
  generalize k0_pay1 qs ks cst = y
  rw [maximumf_apply, shapeCast_a_a1_apply, rowMax_apply]

def rowMaxT (Q : Fin 1024 → Fin 1024 → ℝ) (Ks : Fin 512 → Fin 1024 → ℝ) (p : Fin 1024) : ℝ :=
  Finset.univ.sup' ⟨⟨0, by norm_num⟩, Finset.mem_univ _⟩ (affT Q Ks p)

theorem fold_pay1 (qs : FVec Ideal S1024x1024 .bf16) (ks : FVec Ideal S512x1024 .bf16)
    (Q : Fin 1024 → Fin 1024 → ℝ) (Ks : Fin 512 → Fin 1024 → ℝ)
    (hq : ∀ p c, qs (ix2 p c) = ((Q p c : ℝ) : EReal)) (hk : ∀ r c, ks (ix2 r c) = ((Ks r c : ℝ) : EReal)) (p : Fin 1024) :
    (Finset.univ : Finset (Fin 512)).fold max (⊥ : EReal)
        (fun r => k0_pay1 qs ks (constant (F := Ideal) S1024x512 .f32 0x00000000#32) (ix2 p r))
      = ((rowMaxT Q Ks p : ℝ) : EReal) := by
  rw [show (fun r => k0_pay1 qs ks (constant (F := Ideal) S1024x512 .f32 0x00000000#32) (ix2 p r))
      = fun r => ((affT Q Ks p r : ℝ) : EReal) from funext fun r => pay1_apply qs ks Q Ks hq hk p r]
  exact fold_max_coe _ _ _

theorem pay3_first (qs : FVec Ideal S1024x1024 .bf16) (ks : FVec Ideal S512x1024 .bf16) (mv : Vec Ideal S1024x1 .f32)
    (Q : Fin 1024 → Fin 1024 → ℝ) (Ks : Fin 512 → Fin 1024 → ℝ)
    (hq : ∀ p c, qs (ix2 p c) = ((Q p c : ℝ) : EReal)) (hk : ∀ r c, ks (ix2 r c) = ((Ks r c : ℝ) : EReal))
    (hm : ∀ p, mv (ix2 p (0 : Fin 1)) = (⊥ : EReal)) (p : Fin 1024) :
    k0_pay3 qs ks (constant (F := Ideal) S1024x512 .f32 0x00000000#32) mv (ix2 p (0 : Fin 1)) = ((rowMaxT Q Ks p : ℝ) : EReal) := by
  rw [pay3_raw, fold_pay1 qs ks Q Ks hq hk, hm]
  exact Cert.CoeOps.max_bot_coe _

theorem pay3_next (qs : FVec Ideal S1024x1024 .bf16) (ks : FVec Ideal S512x1024 .bf16) (mv : Vec Ideal S1024x1 .f32)
    (Q : Fin 1024 → Fin 1024 → ℝ) (Ks : Fin 512 → Fin 1024 → ℝ) (M : Fin 1024 → ℝ)
    (hq : ∀ p c, qs (ix2 p c) = ((Q p c : ℝ) : EReal)) (hk : ∀ r c, ks (ix2 r c) = ((Ks r c : ℝ) : EReal))
    (hm : ∀ p, mv (ix2 p (0 : Fin 1)) = ((M p : ℝ) : EReal)) (p : Fin 1024) :
    k0_pay3 qs ks (constant (F := Ideal) S1024x512 .f32 0x00000000#32) mv (ix2 p (0 : Fin 1))
      = ((max (M p) (rowMaxT Q Ks p) : ℝ) : EReal) := by
  rw [pay3_raw, fold_pay1 qs ks Q Ks hq hk, hm]
  exact Cert.CoeOps.max_coe _ _

theorem pay4_raw (qs : Vec Ideal S1024x1024 .bf16) (ks : FVec Ideal S512x1024 .bf16) (cst : FVec Ideal S1024x512 .f32)
    (mv1 mv2 lv : Vec Ideal S1024x1 .f32) (p : Fin 1024) :
    k0_pay4 qs ks cst mv1 mv2 lv (ix2 p (0 : Fin 1))
      = Ideal.exp (mv2 (ix2 p (0 : Fin 1)) - k0_pay3 qs ks cst mv1 (ix2 p (0 : Fin 1))) * lv (ix2 p (0 : Fin 1))
        + ∑ r : Fin 512, Ideal.exp (k0_pay1 qs ks cst (ix2 p r) - k0_pay3 qs ks cst mv1 (ix2 p (0 : Fin 1))) := by
  unfold k0_pay4
  generalize k0_pay3 qs ks cst mv1 = y3
  generalize k0_pay1 qs ks cst = y1
  rw [shapeCast_self, addf_apply, mulf_apply, exp_apply, subf_apply, shapeCast_a_a1_apply, rowSum_apply]
  refine congrArg (_ + ·) (Finset.sum_congr rfl fun r _ => ?_)
  rw [exp_apply, subf_apply, broadcastTo_a1_ab_apply]

theorem pay4_first (qs : FVec Ideal S1024x1024 .bf16) (ks : FVec Ideal S512x1024 .bf16) (mv1 mv2 lv : Vec Ideal S1024x1 .f32)
    (Q : Fin 1024 → Fin 1024 → ℝ) (Ks : Fin 512 → Fin 1024 → ℝ)
    (hq : ∀ p c, qs (ix2 p c) = ((Q p c : ℝ) : EReal)) (hk : ∀ r c, ks (ix2 r c) = ((Ks r c : ℝ) : EReal))
    (hm1 : ∀ p, mv1 (ix2 p (0 : Fin 1)) = (⊥ : EReal)) (hm2 : ∀ p, mv2 (ix2 p (0 : Fin 1)) = (⊥ : EReal))
    (hl : ∀ p, lv (ix2 p (0 : Fin 1)) = ((0 : ℝ) : EReal)) (p : Fin 1024) :
    k0_pay4 qs ks (constant (F := Ideal) S1024x512 .f32 0x00000000#32) mv1 mv2 lv (ix2 p (0 : Fin 1))
      = ((∑ r, Real.exp (affT Q Ks p r - rowMaxT Q Ks p) : ℝ) : EReal) := by
  rw [pay4_raw, pay3_first qs ks mv1 Q Ks hq hk hm1, hm2, hl, EReal.bot_sub, Cert.CoeOps.exp_bot, Cert.CoeOps.mul_coe, mul_zero,
    ← Cert.CoeOps.sum_coe, EReal.coe_zero, zero_add]
  refine Finset.sum_congr rfl fun r _ => ?_
  rw [pay1_apply qs ks Q Ks hq hk, Cert.CoeOps.sub_coe, Cert.CoeOps.exp_coe]

theorem pay4_next (qs : FVec Ideal S1024x1024 .bf16) (ks : FVec Ideal S512x1024 .bf16) (mv1 mv2 lv : Vec Ideal S1024x1 .f32)
    (Q : Fin 1024 → Fin 1024 → ℝ) (Ks : Fin 512 → Fin 1024 → ℝ) (M L : Fin 1024 → ℝ)
    (hq : ∀ p c, qs (ix2 p c) = ((Q p c : ℝ) : EReal)) (hk : ∀ r c, ks (ix2 r c) = ((Ks r c : ℝ) : EReal))
    (hm1 : ∀ p, mv1 (ix2 p (0 : Fin 1)) = ((M p : ℝ) : EReal)) (hm2 : ∀ p, mv2 (ix2 p (0 : Fin 1)) = ((M p : ℝ) : EReal))
    (hl : ∀ p, lv (ix2 p (0 : Fin 1)) = ((L p : ℝ) : EReal)) (p : Fin 1024) :
    k0_pay4 qs ks (constant (F := Ideal) S1024x512 .f32 0x00000000#32) mv1 mv2 lv (ix2 p (0 : Fin 1))
      = ((Real.exp (M p - max (M p) (rowMaxT Q Ks p)) * L p
          + ∑ r, Real.exp (affT Q Ks p r - max (M p) (rowMaxT Q Ks p)) : ℝ) : EReal) := by
  rw [pay4_raw, pay3_next qs ks mv1 Q Ks M hq hk hm1, hm2, hl, Cert.CoeOps.sub_coe, Cert.CoeOps.exp_coe, Cert.CoeOps.mul_coe,
    ← Cert.CoeOps.add_coe, ← Cert.CoeOps.sum_coe]
  refine congrArg (_ + ·) (Finset.sum_congr rfl fun r _ => ?_)
  rw [pay1_apply qs ks Q Ks hq hk, Cert.CoeOps.sub_coe, Cert.CoeOps.exp_coe]

end Cert.KernelIdeal.Pay0

end
-- ==== Proof.KI.R1Pay.lean ====
import proofs.«404741_j62388694941903_3_alg».proof.Proof.Gen.KernelIdeal.Skeleton
import proofs.«404741_j62388694941903_3_alg».proof.Proof.Spec
import proofs.«404741_j62388694941903_3_alg».proof.Proof.CoeOps
import proofs.«404741_j62388694941903_3_alg».proof.Proof.Consts
import Idealize.ShloMosaic.Lib.ValueIdx
import Idealize.ShloMosaic.Lib.ValueLayout
import Idealize.ShloMosaic.PureOps.Ideal.Laws

set_option maxRecDepth 16384

noncomputable section

namespace Cert.KernelIdeal.Pay1

open Idealize.ShloMosaic Idealize.ShloMosaic.ValueIdx
open Cert.KernelIdeal Cert.KernelIdeal.Gen
open scoped BigOperators

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => rfl
  | ⟨1, _⟩ => rfl

theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ r : Fin b, src (ix2 p r) :=
  (Ideal.multiReduction_add_single src 0x00000000#32 h hφ hacc (ix1 p)).trans
    (Finset.sum_congr rfl fun k _ => congrArg src (lift_row h p k))

theorem pay5_apply (p c : Fin 1024) : k1_pay5 (F := Ideal) (ix2 p c) = ((0 : ℝ) : EReal) := by
  unfold k1_pay5
  rw [shapeCast_self]
  exact Cert.Consts.ofBits_zero

theorem pay6_apply (p : Fin 1024) (u : Fin 1) : k1_pay6 (F := Ideal) (ix2 p u) = ((0 : ℝ) : EReal) := by
  unfold k1_pay6
  rw [shapeCast_self]
  exact Cert.Consts.ofBits_zero

theorem pay7_apply (affB : Vec Ideal S1x1024x512 .f32) (p : Fin 1024) (r : Fin 512) :
    k1_pay7 affB (ix2 p r) = affB (ix3 (0 : Fin 1) p r) := by
  unfold k1_pay7
  exact shapeCast_1ab_ab_apply affB _ p r

theorem pay9_apply (lB : Vec Ideal S1x1024x1 .f32) (p : Fin 1024) (u : Fin 1) :
    k1_pay9 lB (ix2 p u) = lB (ix3 (0 : Fin 1) p u) := by
  unfold k1_pay9
  exact shapeCast_1ab_ab_apply lB _ p u

theorem pay10_apply (p : Fin 1024) (u : Fin 1) : k1_pay10 (F := Ideal) (ix2 p u) = ((1 : ℝ) : EReal) := by
  unfold k1_pay10
  exact Cert.Consts.ofBits_one

theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl

def T (A : Fin 1024 → Fin 512 → ℝ) (M L : Fin 1024 → ℝ) (p : Fin 1024) (r : Fin 512) : ℝ :=
  if Real.exp (A p r - M p) * (1 / L p) < Cert.Consts.thrR then 0 else Real.exp (A p r - M p) * (1 / L p)

section Weights
variable (a : FVec Ideal S1024x512 .f32) (lcol ones : FVec Ideal S1024x1 .f32) (mB : Vec Ideal S1x1024x1 .f32)
  {A : Fin 1024 → Fin 512 → ℝ} {M L : Fin 1024 → ℝ}
  (ha : ∀ p r, a (ix2 p r) = ((A p r : ℝ) : EReal))
  (hl : ∀ p, lcol (ix2 p (0 : Fin 1)) = ((L p : ℝ) : EReal)) (hL : ∀ p, L p ≠ 0)
  (ho : ∀ p, ones (ix2 p (0 : Fin 1)) = ((1 : ℝ) : EReal))
  (hm : ∀ p, mB (ix3 (0 : Fin 1) p (0 : Fin 1)) = ((M p : ℝ) : EReal))

include ha hl hL ho hm in

theorem weight_apply (p : Fin 1024) (r : Fin 512) :
    mulf (exp (subf a (broadcastTo S1024x512 (shapeCast S1024x1 mB shapeCasts_S1x1024x1_S1024x1) broadcasts_S1024x1_S1024x512)))
      (broadcastTo S1024x512 (divf ones lcol) broadcasts_S1024x1_S1024x512) (ix2 p r)
      = ((Real.exp (A p r - M p) * (1 / L p) : ℝ) : EReal) := by
  rw [mulf_apply, exp_apply, subf_apply, broadcastTo_a1_ab_apply, broadcastTo_a1_ab_apply, shapeCast_1ab_ab_apply,
    divf_apply, ha, hm, ho, hl, Cert.CoeOps.sub_coe, Cert.CoeOps.exp_coe, Cert.CoeOps.div_coe _ (hL p), Cert.CoeOps.mul_coe]

include ha hl hL ho hm in
theorem pay1_apply (p : Fin 1024) (r : Fin 512) :
    k1_pay1 a lcol ones mB (ix2 p r) = ((T A M L p r : ℝ) : EReal) := by
  unfold k1_pay1
  rw [select_apply, cmpf_apply, broadcast_apply, broadcast_apply, weight_apply a lcol ones mB ha hl hL ho hm p r]
  show Scalar.select (Ideal.cmp .olt _ (Ideal.ofBits .f32 _)) (Ideal.ofBits .f32 _) _ = _
  rw [Cert.Consts.ofBits_thr, Cert.Consts.ofBits_zero, Cert.CoeOps.cmp_olt_coe]
  unfold T
  split
  · rw [select_one]
  · rw [select_zero]

include ha hl hL ho hm in
theorem pay2_apply (l2 : Vec Ideal S1024x1 .f32) {L2 : Fin 1024 → ℝ}
    (hl2 : ∀ p, l2 (ix2 p (0 : Fin 1)) = ((L2 p : ℝ) : EReal)) (p : Fin 1024) :
    k1_pay2 a lcol ones mB l2 (ix2 p (0 : Fin 1)) = ((L2 p + ∑ r, T A M L p r : ℝ) : EReal) := by
  unfold k1_pay2
  rw [shapeCast_self, addf_apply, shapeCast_a_a1_apply, hl2]
  refine (congrArg (((L2 p : ℝ) : EReal) + ·) ((rowSum_apply _ _ _ _ p).trans
    (Finset.sum_congr rfl fun r _ => pay1_apply a lcol ones mB ha hl hL ho hm p r))).trans ?_
  rw [Cert.CoeOps.sum_coe, Cert.CoeOps.add_coe]

end Weights

theorem pay4_apply (l2 : Vec Ideal S1024x1 .f32) (acc : Vec Ideal S1024x1024 .f32) (featB : Vec Ideal S1x1024x1024 .f32)
    {L2 : Fin 1024 → ℝ} {Acc X : Fin 1024 → Fin 1024 → ℝ}
    (hl2 : ∀ p, l2 (ix2 p (0 : Fin 1)) = ((L2 p : ℝ) : EReal)) (hL2 : ∀ p, L2 p ≠ 0)
    (hacc : ∀ p c, acc (ix2 p c) = ((Acc p c : ℝ) : EReal))
    (hx : ∀ p c, featB (ix3 (0 : Fin 1) p c) = ((X p c : ℝ) : EReal)) (p c : Fin 1024) :
    k1_pay4 l2 acc featB (ix3 (0 : Fin 1) p c) = ((Acc p c * (1 / L2 p) + X p c : ℝ) : EReal) := by
  unfold k1_pay4
  rw [shapeCast_ab_1ab_apply, addf_apply, mulf_apply, broadcastTo_a1_ab_apply, divf_apply, broadcast_apply,
    shapeCast_1ab_ab_apply, hacc, hl2, hx]
  show ((Acc p c : ℝ) : EReal) * Ideal.div (Ideal.ofBits .f32 _) _ + _ = _
  rw [Cert.Consts.ofBits_one, Cert.CoeOps.div_coe _ (hL2 p), Cert.CoeOps.mul_coe, Cert.CoeOps.add_coe]

theorem lhs_pv_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs_pv_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_pv_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_pv_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

theorem matmul_pv_apply (w : FVec Ideal S1024x512 .bf16) (v : FVec Ideal S512x1024 .bf16) (p c : Fin 1024) :
    matmul dot_S1024x512_S512x1024_S1024x1024_1_0_0_1_n_n none w v (constant (F := Ideal) S1024x1024 .f32 0x00000000#32) (ix2 p c)
      = ∑ r : Fin 512, w (ix2 p r) * v (ix2 r c) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p c) ((contrEquiv1 dot_S1024x512_S512x1024_S1024x1024_1_0_0_1_n_n 512 rfl rfl).symm k) = ix2 p k := funext fun a => Fin.ext (by
    match a with
    | ⟨0, _⟩ => exact lhs_pv_0 _ _
    | ⟨1, _⟩ => exact (lhs_pv_1 _ _).trans hk)
  have er : dot_S1024x512_S512x1024_S1024x1024_1_0_0_1_n_n.rhsIdx (ix2 p c) ((contrEquiv1 dot_S1024x512_S512x1024_S1024x1024_1_0_0_1_n_n 512 rfl rfl).symm k) = ix2 k c := funext fun a => Fin.ext (by
    match a with
    | ⟨0, _⟩ => exact (rhs_pv_0 _ _).trans hk
    | ⟨1, _⟩ => exact rhs_pv_1 _ _)
  rw [el, er]

section Accumulate
variable (a : FVec Ideal S1024x512 .f32) (lcol ones : FVec Ideal S1024x1 .f32) (mB : Vec Ideal S1x1024x1 .f32)
  {A : Fin 1024 → Fin 512 → ℝ} {M L : Fin 1024 → ℝ}
  (ha : ∀ p r, a (ix2 p r) = ((A p r : ℝ) : EReal))
  (hl : ∀ p, lcol (ix2 p (0 : Fin 1)) = ((L p : ℝ) : EReal)) (hL : ∀ p, L p ≠ 0)
  (ho : ∀ p, ones (ix2 p (0 : Fin 1)) = ((1 : ℝ) : EReal))
  (hm : ∀ p, mB (ix3 (0 : Fin 1) p (0 : Fin 1)) = ((M p : ℝ) : EReal))

include ha hl hL ho hm in
theorem pay3_apply (vv : FVec Ideal S512x1024 .f32) (acc : Vec Ideal S1024x1024 .f32)
    {Vv' : Fin 512 → Fin 1024 → ℝ} {Acc : Fin 1024 → Fin 1024 → ℝ}
    (hvv : ∀ r c, vv (ix2 r c) = ((Vv' r c : ℝ) : EReal)) (hacc : ∀ p c, acc (ix2 p c) = ((Acc p c : ℝ) : EReal))
    (p c : Fin 1024) :
    k1_pay3 a vv lcol ones mB acc (ix2 p c) = ((Acc p c + ∑ r, T A M L p r * Vv' r c : ℝ) : EReal) := by
  unfold k1_pay3
  rw [shapeCast_self, addf_apply, hacc]
  have hs : ∀ r : Fin 512,
      (truncf .bf16 (k1_pay1 a lcol ones mB) bitsLt_bf16_f32 : FVec Ideal S1024x512 .bf16) (ix2 p r)
        * (truncf .bf16 vv bitsLt_bf16_f32 : FVec Ideal S512x1024 .bf16) (ix2 r c)
        = ((T A M L p r * Vv' r c : ℝ) : EReal) := fun r => by
    rw [truncf_apply, truncf_apply, pay1_apply a lcol ones mB ha hl hL ho hm p r, hvv, Cert.CoeOps.mul_coe]
  refine (congrArg (((Acc p c : ℝ) : EReal) + ·) ((matmul_pv_apply _ _ p c).trans
    (Finset.sum_congr rfl fun r _ => hs r))).trans ?_
  rw [Cert.CoeOps.sum_coe, Cert.CoeOps.add_coe]

end Accumulate

section LayerNorm
variable (x : FVec Ideal S512x1024 .f32) {X : Fin 512 → Fin 1024 → ℝ}
  (hx : ∀ r c, x (ix2 r c) = ((X r c : ℝ) : EReal))

include hx in

theorem rowMean_apply (r : Fin 512) :
    divf (shapeCast S512x1 (multiReduction (F := Ideal) .add [1] S512 x 0x00000000#32 reduces_S512x1024_S512 (.inl rfl) rfl)
        shapeCasts_S512_S512x1) (broadcast S512x1 (Scalar.ofBits .f32 0x44800000#32)) (ix2 r (0 : Fin 1))
      = (((∑ c, X r c) / 1024 : ℝ) : EReal) := by
  rw [divf_apply, shapeCast_a_a1_apply, broadcast_apply]
  refine (congrArg (fun z => Ideal.div z _) ((rowSum_apply x _ _ _ r).trans
    ((Finset.sum_congr rfl fun c _ => hx r c).trans (Cert.CoeOps.sum_coe _ _)))).trans ?_
  show Ideal.div _ (Ideal.ofBits .f32 _) = _
  rw [Cert.Consts.ofBits_1024, Cert.CoeOps.div_coe _ (by norm_num)]

include hx in

theorem centered_apply (mu : FVec Ideal S512x1 .f32) {Mu : Fin 512 → ℝ}
    (hmu : ∀ r, mu (ix2 r (0 : Fin 1)) = ((Mu r : ℝ) : EReal)) (r : Fin 512) (c : Fin 1024) :
    subf x (broadcastTo S512x1024 mu broadcasts_S512x1_S512x1024) (ix2 r c) = ((X r c - Mu r : ℝ) : EReal) := by
  rw [subf_apply, broadcastTo_a1_ab_apply, hx, hmu, Cert.CoeOps.sub_coe]

include hx in

theorem rowVar_apply (mu : FVec Ideal S512x1 .f32) {Mu : Fin 512 → ℝ}
    (hmu : ∀ r, mu (ix2 r (0 : Fin 1)) = ((Mu r : ℝ) : EReal)) (r : Fin 512) :
    divf (shapeCast S512x1 (multiReduction (F := Ideal) .add [1] S512
          (mulf (subf x (broadcastTo S512x1024 mu broadcasts_S512x1_S512x1024))
            (subf x (broadcastTo S512x1024 mu broadcasts_S512x1_S512x1024)))
          0x00000000#32 reduces_S512x1024_S512 (.inl rfl) rfl)
        shapeCasts_S512_S512x1) (broadcast S512x1 (Scalar.ofBits .f32 0x44800000#32)) (ix2 r (0 : Fin 1))
      = (((∑ c, (X r c - Mu r) * (X r c - Mu r)) / 1024 : ℝ) : EReal) :=
  rowMean_apply (X := fun r c => (X r c - Mu r) * (X r c - Mu r)) _
    (fun r c => by rw [mulf_apply, centered_apply x hx mu hmu, Cert.CoeOps.mul_coe]) r

include hx in

theorem lnTail_apply (mu va : FVec Ideal S512x1 .f32) (g b : FVec Ideal S1x1024 .f32)
    {Mu Va : Fin 512 → ℝ} {G B : Fin 1024 → ℝ}
    (hmu : ∀ r, mu (ix2 r (0 : Fin 1)) = ((Mu r : ℝ) : EReal))
    (hva : ∀ r, va (ix2 r (0 : Fin 1)) = ((Va r : ℝ) : EReal)) (hVa : ∀ r, 0 ≤ Va r)
    (hg : ∀ c, g (ix2 (0 : Fin 1) c) = ((G c : ℝ) : EReal)) (hb : ∀ c, b (ix2 (0 : Fin 1) c) = ((B c : ℝ) : EReal))
    (r : Fin 512) (c : Fin 1024) :
    addf (mulf (mulf (subf x (broadcastTo S512x1024 mu broadcasts_S512x1_S512x1024))
          (broadcastTo S512x1024 (rsqrt (addf va (broadcast S512x1 (Scalar.ofBits .f32 0x3727C5AC#32))))
            broadcasts_S512x1_S512x1024))
        (broadcastTo S512x1024 g broadcasts_S1x1024_S512x1024))
      (broadcastTo S512x1024 b broadcasts_S1x1024_S512x1024) (ix2 r c)
      = (((X r c - Mu r) * (Real.sqrt (Va r + Cert.Consts.epsR))⁻¹ * G c + B c : ℝ) : EReal) := by
  rw [addf_apply, mulf_apply, mulf_apply, centered_apply x hx mu hmu, broadcastTo_a1_ab_apply, broadcastTo_1b_ab_apply,
    broadcastTo_1b_ab_apply, rsqrt_apply, addf_apply, broadcast_apply, hva, hg, hb]
  show _ * Ideal.rsqrt (_ + Ideal.ofBits .f32 _) * _ + _ = _
  rw [Cert.Consts.ofBits_eps, Cert.CoeOps.add_coe,
    Cert.CoeOps.rsqrt_coe (add_pos_of_nonneg_of_pos (hVa r) Cert.Consts.epsR_pos),
    Cert.CoeOps.mul_coe, Cert.CoeOps.mul_coe, Cert.CoeOps.add_coe]

end LayerNorm

theorem pay8_apply (memvB : Vec Ideal S1x512x1024 .f32) (gB bB : Vec Ideal S1x1024 .f32)
    {Vv : Fin 512 → Fin 1024 → ℝ} {G B : Fin 1024 → ℝ}
    (hv : ∀ r c, memvB (ix3 (0 : Fin 1) r c) = ((Vv r c : ℝ) : EReal))
    (hg : ∀ c, gB (ix2 (0 : Fin 1) c) = ((G c : ℝ) : EReal)) (hb : ∀ c, bB (ix2 (0 : Fin 1) c) = ((B c : ℝ) : EReal))
    (r : Fin 512) (c : Fin 1024) :
    k1_pay8 memvB gB bB (ix2 r c) = ((Cert.Spec.ln Cert.Consts.epsR (Vv r) G B c : ℝ) : EReal) := by
  unfold k1_pay8
  rw [shapeCast_self, shapeCast_self]
  have hx : ∀ r c, shapeCast S512x1024 memvB shapeCasts_S1x512x1024_S512x1024 (ix2 r c) = ((Vv r c : ℝ) : EReal) :=
    fun r c => by rw [shapeCast_1ab_ab_apply, hv]
  have hmu := rowMean_apply _ hx
  have hva := rowVar_apply _ hx _ hmu
  refine (lnTail_apply _ hx _ _ gB bB hmu hva
    (fun r => div_nonneg (Finset.sum_nonneg fun c _ => mul_self_nonneg _) (by norm_num)) hg hb r c).trans ?_
  unfold Cert.Spec.ln Cert.Spec.var Cert.Spec.mean
  simp only [div_eq_mul_inv]

end Cert.KernelIdeal.Pay1

end
-- ==== Proof.KI.R0PayLN.lean ====
import proofs.«404741_j62388694941903_3_alg».proof.Proof.Gen.KernelIdeal.Skeleton
import proofs.«404741_j62388694941903_3_alg».proof.Proof.Spec
import proofs.«404741_j62388694941903_3_alg».proof.Proof.CoeOps
import proofs.«404741_j62388694941903_3_alg».proof.Proof.Consts
import proofs.«404741_j62388694941903_3_alg».proof.Proof.KI.R1Pay
import Idealize.ShloMosaic.Lib.ValueIdx
import Idealize.ShloMosaic.Lib.ValueLayout
import Idealize.ShloMosaic.PureOps.Ideal.Laws

set_option maxRecDepth 16384

noncomputable section

namespace Cert.KernelIdeal.Pay0LN

open Idealize.ShloMosaic Idealize.ShloMosaic.ValueIdx
open Cert.KernelIdeal Cert.KernelIdeal.Gen
open Cert.KernelIdeal.Pay1 (shapeCast_a_a1_apply broadcastTo_a1_ab_apply rowSum_apply rsqrt_apply)
open scoped BigOperators

section LayerNorm
variable {n : ℕ} (x : FVec Ideal ⟨2, ![n, 1024]⟩ .f32) {X : Fin n → Fin 1024 → ℝ}
  (hx : ∀ r c, x (ix2 r c) = ((X r c : ℝ) : EReal))
  (hred : (⟨2, ![n, 1024]⟩ : Shape).Reduces [1] ⟨1, ![n]⟩)
  (hcol : (⟨1, ![n]⟩ : Shape).ShapeCasts ⟨2, ![n, 1]⟩)
  (hbc : (⟨2, ![n, 1]⟩ : Shape).Broadcasts ⟨2, ![n, 1024]⟩)
  (hbr : (⟨2, ![1, 1024]⟩ : Shape).Broadcasts ⟨2, ![n, 1024]⟩)

include hx in

theorem rowMean_apply (r : Fin n) :
    divf (shapeCast ⟨2, ![n, 1]⟩ (multiReduction (F := Ideal) .add [1] ⟨1, ![n]⟩ x 0x00000000#32 hred (.inl rfl) rfl) hcol)
        (broadcast ⟨2, ![n, 1]⟩ (Scalar.ofBits .f32 0x44800000#32)) (ix2 r (0 : Fin 1))
      = (((∑ c, X r c) / 1024 : ℝ) : EReal) := by
  rw [divf_apply, shapeCast_a_a1_apply, broadcast_apply]
  refine (congrArg (fun z => Ideal.div z _) ((rowSum_apply x _ _ _ r).trans
    ((Finset.sum_congr rfl fun c _ => hx r c).trans (Cert.CoeOps.sum_coe _ _)))).trans ?_
  show Ideal.div _ (Ideal.ofBits .f32 _) = _
  rw [Cert.Consts.ofBits_1024, Cert.CoeOps.div_coe _ (by norm_num)]

include hx in

theorem centered_apply (mu : FVec Ideal ⟨2, ![n, 1]⟩ .f32) {Mu : Fin n → ℝ}
    (hmu : ∀ r, mu (ix2 r (0 : Fin 1)) = ((Mu r : ℝ) : EReal)) (r : Fin n) (c : Fin 1024) :
    subf x (broadcastTo ⟨2, ![n, 1024]⟩ mu hbc) (ix2 r c) = ((X r c - Mu r : ℝ) : EReal) := by
  rw [subf_apply, broadcastTo_a1_ab_apply, hx, hmu, Cert.CoeOps.sub_coe]

include hx in

theorem rowVar_apply (mu : FVec Ideal ⟨2, ![n, 1]⟩ .f32) {Mu : Fin n → ℝ}
    (hmu : ∀ r, mu (ix2 r (0 : Fin 1)) = ((Mu r : ℝ) : EReal)) (r : Fin n) :
    divf (shapeCast ⟨2, ![n, 1]⟩ (multiReduction (F := Ideal) .add [1] ⟨1, ![n]⟩
          (mulf (subf x (broadcastTo ⟨2, ![n, 1024]⟩ mu hbc)) (subf x (broadcastTo ⟨2, ![n, 1024]⟩ mu hbc)))
          0x00000000#32 hred (.inl rfl) rfl) hcol)
        (broadcast ⟨2, ![n, 1]⟩ (Scalar.ofBits .f32 0x44800000#32)) (ix2 r (0 : Fin 1))
      = (((∑ c, (X r c - Mu r) * (X r c - Mu r)) / 1024 : ℝ) : EReal) :=
  rowMean_apply (X := fun r c => (X r c - Mu r) * (X r c - Mu r)) _
    (fun r c => by rw [mulf_apply, centered_apply x hx hbc mu hmu, Cert.CoeOps.mul_coe]) hred hcol r

include hx in

theorem lnTail_apply (mu va : FVec Ideal ⟨2, ![n, 1]⟩ .f32) (g b : FVec Ideal ⟨2, ![1, 1024]⟩ .f32)
    {Mu Va : Fin n → ℝ} {G B : Fin 1024 → ℝ}
    (hmu : ∀ r, mu (ix2 r (0 : Fin 1)) = ((Mu r : ℝ) : EReal))
    (hva : ∀ r, va (ix2 r (0 : Fin 1)) = ((Va r : ℝ) : EReal)) (hVa : ∀ r, 0 ≤ Va r)
    (hg : ∀ c, g (ix2 (0 : Fin 1) c) = ((G c : ℝ) : EReal)) (hb : ∀ c, b (ix2 (0 : Fin 1) c) = ((B c : ℝ) : EReal))
    (r : Fin n) (c : Fin 1024) :
    addf (mulf (mulf (subf x (broadcastTo ⟨2, ![n, 1024]⟩ mu hbc))
          (broadcastTo ⟨2, ![n, 1024]⟩ (rsqrt (addf va (broadcast ⟨2, ![n, 1]⟩ (Scalar.ofBits .f32 0x3727C5AC#32)))) hbc))
        (broadcastTo ⟨2, ![n, 1024]⟩ g hbr))
      (broadcastTo ⟨2, ![n, 1024]⟩ b hbr) (ix2 r c)
      = (((X r c - Mu r) * (Real.sqrt (Va r + Cert.Consts.epsR))⁻¹ * G c + B c : ℝ) : EReal) := by
  rw [addf_apply, mulf_apply, mulf_apply, centered_apply x hx hbc mu hmu, broadcastTo_a1_ab_apply, broadcastTo_1b_ab_apply,
    broadcastTo_1b_ab_apply, rsqrt_apply, addf_apply, broadcast_apply, hva, hg, hb]
  show _ * Ideal.rsqrt (_ + Ideal.ofBits .f32 _) * _ + _ = _
  rw [Cert.Consts.ofBits_eps, Cert.CoeOps.add_coe,
    Cert.CoeOps.rsqrt_coe (add_pos_of_nonneg_of_pos (hVa r) Cert.Consts.epsR_pos),
    Cert.CoeOps.mul_coe, Cert.CoeOps.mul_coe, Cert.CoeOps.add_coe]

include hx in

theorem ln_apply (g b : FVec Ideal ⟨2, ![1, 1024]⟩ .f32) {G B : Fin 1024 → ℝ}
    (hg : ∀ c, g (ix2 (0 : Fin 1) c) = ((G c : ℝ) : EReal)) (hb : ∀ c, b (ix2 (0 : Fin 1) c) = ((B c : ℝ) : EReal))
    (r : Fin n) (c : Fin 1024) :
    addf (mulf (mulf
          (subf x (broadcastTo ⟨2, ![n, 1024]⟩
            (divf (shapeCast ⟨2, ![n, 1]⟩ (multiReduction (F := Ideal) .add [1] ⟨1, ![n]⟩ x 0x00000000#32 hred (.inl rfl) rfl) hcol)
              (broadcast ⟨2, ![n, 1]⟩ (Scalar.ofBits .f32 0x44800000#32))) hbc))
          (broadcastTo ⟨2, ![n, 1024]⟩ (rsqrt (addf
            (divf (shapeCast ⟨2, ![n, 1]⟩ (multiReduction (F := Ideal) .add [1] ⟨1, ![n]⟩
                (mulf
                  (subf x (broadcastTo ⟨2, ![n, 1024]⟩
                    (divf (shapeCast ⟨2, ![n, 1]⟩ (multiReduction (F := Ideal) .add [1] ⟨1, ![n]⟩ x 0x00000000#32 hred (.inl rfl) rfl) hcol)
                      (broadcast ⟨2, ![n, 1]⟩ (Scalar.ofBits .f32 0x44800000#32))) hbc))
                  (subf x (broadcastTo ⟨2, ![n, 1024]⟩
                    (divf (shapeCast ⟨2, ![n, 1]⟩ (multiReduction (F := Ideal) .add [1] ⟨1, ![n]⟩ x 0x00000000#32 hred (.inl rfl) rfl) hcol)
                      (broadcast ⟨2, ![n, 1]⟩ (Scalar.ofBits .f32 0x44800000#32))) hbc)))
                0x00000000#32 hred (.inl rfl) rfl) hcol)
              (broadcast ⟨2, ![n, 1]⟩ (Scalar.ofBits .f32 0x44800000#32)))
            (broadcast ⟨2, ![n, 1]⟩ (Scalar.ofBits .f32 0x3727C5AC#32)))) hbc))
        (broadcastTo ⟨2, ![n, 1024]⟩ g hbr))
      (broadcastTo ⟨2, ![n, 1024]⟩ b hbr) (ix2 r c)
      = ((Cert.Spec.ln Cert.Consts.epsR (X r) G B c : ℝ) : EReal) := by
  have hmu := rowMean_apply x hx hred hcol
  have hva := rowVar_apply x hx hred hcol hbc _ hmu
  refine (lnTail_apply x hx hbc hbr _ _ g b hmu hva
    (fun r => div_nonneg (Finset.sum_nonneg fun c _ => mul_self_nonneg _) (by norm_num)) hg hb r c).trans ?_
  unfold Cert.Spec.ln Cert.Spec.var Cert.Spec.mean
  simp only [div_eq_mul_inv]

end LayerNorm

theorem pay12_apply (memkB : Vec Ideal S1x512x1024 .f32) (gB bB : Vec Ideal S1x1024 .f32) (memcB : Vec Ideal S1x512x1 .f32)
    {K : Fin 512 → Fin 1024 → ℝ} {G B : Fin 1024 → ℝ} {C : Fin 512 → ℝ}
    (hk : ∀ r c, memkB (ix3 (0 : Fin 1) r c) = ((K r c : ℝ) : EReal))
    (hg : ∀ c, gB (ix2 (0 : Fin 1) c) = ((G c : ℝ) : EReal)) (hb : ∀ c, bB (ix2 (0 : Fin 1) c) = ((B c : ℝ) : EReal))
    (hc : ∀ r, memcB (ix3 (0 : Fin 1) r (0 : Fin 1)) = ((C r : ℝ) : EReal))
    (r : Fin 512) (c : Fin 1024) :
    k0_pay12 memkB gB bB memcB (ix2 r c) = ((Cert.Spec.ln Cert.Consts.epsR (K r) G B c * C r : ℝ) : EReal) := by
  unfold k0_pay12
  rw [shapeCast_self, shapeCast_self, truncf_apply, mulf_apply, broadcastTo_a1_ab_apply, shapeCast_1ab_ab_apply, hc]
  have hx : ∀ r c, shapeCast S512x1024 memkB shapeCasts_S1x512x1024_S512x1024 (ix2 r c) = ((K r c : ℝ) : EReal) :=
    fun r c => by rw [shapeCast_1ab_ab_apply, hk]
  refine (congrArg (· * ((C r : ℝ) : EReal)) (ln_apply _ hx reduces_S512x1024_S512 shapeCasts_S512_S512x1
    broadcasts_S512x1_S512x1024 broadcasts_S1x1024_S512x1024 gB bB hg hb r c)).trans ?_
  rw [Cert.CoeOps.mul_coe]

theorem pay8_apply (featB : Vec Ideal S1x1024x1024 .f32) (gB bB : Vec Ideal S1x1024 .f32)
    {X : Fin 1024 → Fin 1024 → ℝ} {G B : Fin 1024 → ℝ}
    (hf : ∀ p c, featB (ix3 (0 : Fin 1) p c) = ((X p c : ℝ) : EReal))
    (hg : ∀ c, gB (ix2 (0 : Fin 1) c) = ((G c : ℝ) : EReal)) (hb : ∀ c, bB (ix2 (0 : Fin 1) c) = ((B c : ℝ) : EReal))
    (p c : Fin 1024) :
    k0_pay8 featB gB bB (ix2 p c) = ((Cert.Spec.ln Cert.Consts.epsR (X p) G B c * (1 / 32) : ℝ) : EReal) := by
  unfold k0_pay8
  rw [shapeCast_self, shapeCast_self, shapeCast_self, truncf_apply, mulf_apply, broadcast_apply]
  have hx : ∀ p c, shapeCast S1024x1024 featB shapeCasts_S1x1024x1024_S1024x1024 (ix2 p c) = ((X p c : ℝ) : EReal) :=
    fun p c => by rw [shapeCast_1ab_ab_apply, hf]
  refine (congrArg (· * _) (ln_apply _ hx reduces_S1024x1024_S1024 shapeCasts_S1024_S1024x1
    broadcasts_S1024x1_S1024x1024 broadcasts_S1x1024_S1024x1024 gB bB hg hb p c)).trans ?_
  show _ * Ideal.ofBits .f32 _ = _
  rw [Cert.Consts.ofBits_inv32, Cert.CoeOps.mul_coe]

end Cert.KernelIdeal.Pay0LN

end
-- ==== Proof.KI.R0ValueStep.lean ====
import proofs.«404741_j62388694941903_3_alg».proof.Proof.KI.R0Pay
import proofs.«404741_j62388694941903_3_alg».proof.Proof.KI.R0PayLN
import proofs.«404741_j62388694941903_3_alg».proof.Proof.Bridge
import proofs.«404741_j62388694941903_3_alg».proof.Proof.Online

set_option maxRecDepth 16384

noncomputable section

namespace Cert.KernelIdeal.Gen

open Idealize.ShloMosaic Idealize.ShloMosaic.ValueIdx
open scoped BigOperators

theorem tile_real (a : Cert.Bridge.Args) (b : Fin 4) (j : Fin 16)
    (qs : Vec Ideal S1024x1024 .bf16) (x1 : Vec Ideal S1x512x1024 .f32) (x5 x6 : Vec Ideal S1x1024 .f32) (x2 : Vec Ideal S1x512x1 .f32)
    (hq : ∀ p cc : Fin 1024, qs (ix2 p cc) = ((Cert.Spec.q Cert.Consts.epsR a.inputs b p cc * (1 / 32) : ℝ) : EReal))
    (hx1 : ∀ (r : Fin 512) (cc : Fin 1024), x1 (ix3 (0 : Fin 1) r cc) = ((a.inputs.memk b (Cert.Online.slot j r) cc : ℝ) : EReal))
    (hx5 : ∀ cc : Fin 1024, x5 (ix2 (0 : Fin 1) cc) = ((a.inputs.gk cc : ℝ) : EReal))
    (hx6 : ∀ cc : Fin 1024, x6 (ix2 (0 : Fin 1) cc) = ((a.inputs.bk cc : ℝ) : EReal))
    (hx2 : ∀ r : Fin 512, x2 (ix3 (0 : Fin 1) r (0 : Fin 1)) = ((a.inputs.memc b (Cert.Online.slot j r) : ℝ) : EReal))
    (p : Fin 1024) (r : Fin 512) :
    k0_pay1 qs (k0_pay12 x1 x5 x6 x2) (constant (F := Ideal) S1024x512 .f32 0x00000000#32) (ix2 p r)
      = ((Cert.Spec.aff Cert.Consts.epsR a.inputs b p (Cert.Online.slot j r) : ℝ) : EReal) := by
  refine (Cert.KernelIdeal.Pay0.pay1_apply qs _
    (fun p cc => Cert.Spec.q Cert.Consts.epsR a.inputs b p cc * (1 / 32))
    (fun r cc => Cert.Spec.ln Cert.Consts.epsR (a.inputs.memk b (Cert.Online.slot j r)) a.inputs.gk a.inputs.bk cc
      * a.inputs.memc b (Cert.Online.slot j r))
    hq (fun r cc => Cert.KernelIdeal.Pay0LN.pay12_apply x1 x5 x6 x2
      (K := fun r cc => a.inputs.memk b (Cert.Online.slot j r) cc) hx1 hx5 hx6 hx2 r cc) p r).trans ?_
  refine congrArg (fun z : ℝ => (z : EReal)) ?_
  unfold Cert.KernelIdeal.Pay0.affT
  exact Cert.Online.aff_scaled (Cert.Spec.q Cert.Consts.epsR a.inputs b p)
    (Cert.Spec.k Cert.Consts.epsR a.inputs b (Cert.Online.slot j r)) (a.inputs.memc b (Cert.Online.slot j r))

theorem q_real (a : Cert.Bridge.Args) (b : Fin 4)
    (x0 : Vec Ideal S1x1024x1024 .f32) (x3 x4 : Vec Ideal S1x1024 .f32)
    (hx0 : ∀ p cc : Fin 1024, x0 (ix3 (0 : Fin 1) p cc) = ((a.inputs.feat b p cc : ℝ) : EReal))
    (hx3 : ∀ cc : Fin 1024, x3 (ix2 (0 : Fin 1) cc) = ((a.inputs.gq cc : ℝ) : EReal))
    (hx4 : ∀ cc : Fin 1024, x4 (ix2 (0 : Fin 1) cc) = ((a.inputs.bq cc : ℝ) : EReal))
    (p cc : Fin 1024) :
    k0_pay8 x0 x3 x4 (ix2 p cc) = ((Cert.Spec.q Cert.Consts.epsR a.inputs b p cc * (1 / 32) : ℝ) : EReal) :=
  Cert.KernelIdeal.Pay0LN.pay8_apply x0 x3 x4 (X := fun p cc => a.inputs.feat b p cc) hx0 hx3 hx4 p cc

end Cert.KernelIdeal.Gen

end
-- ==== Proof.KI.R0ValueStepML.lean ====
import proofs.«404741_j62388694941903_3_alg».proof.Proof.KI.R0Pay
import proofs.«404741_j62388694941903_3_alg».proof.Proof.KI.R0PayLN
import proofs.«404741_j62388694941903_3_alg».proof.Proof.Bridge
import proofs.«404741_j62388694941903_3_alg».proof.Proof.Online

noncomputable section

namespace Cert.KernelIdeal.Gen

open Idealize.ShloMosaic Idealize.ShloMosaic.ValueIdx
open Cert.KernelIdeal
open scoped BigOperators

def stepMLQ (a : Cert.Bridge.Args) (b : Fin 4) : Fin 1024 → Fin 1024 → ℝ :=
  fun p cc => Cert.Spec.q Cert.Consts.epsR a.inputs b p cc * (1 / 32)

def stepMLK (a : Cert.Bridge.Args) (b : Fin 4) (j : Fin 16) : Fin 512 → Fin 1024 → ℝ :=
  fun r cc => Cert.Spec.ln Cert.Consts.epsR (a.inputs.memk b (Cert.Online.slot j r)) a.inputs.gk a.inputs.bk cc
    * a.inputs.memc b (Cert.Online.slot j r)

theorem stepML_aff (a : Cert.Bridge.Args) (b : Fin 4) (j : Fin 16) (p : Fin 1024) (r : Fin 512) :
    Pay0.affT (stepMLQ a b) (stepMLK a b j) p r = Cert.Spec.aff Cert.Consts.epsR a.inputs b p (Cert.Online.slot j r) :=
  Cert.Online.aff_scaled (Cert.Spec.q Cert.Consts.epsR a.inputs b p) (Cert.Spec.k Cert.Consts.epsR a.inputs b (Cert.Online.slot j r))
    (a.inputs.memc b (Cert.Online.slot j r))

theorem stepML_max (a : Cert.Bridge.Args) (b : Fin 4) (j : Fin 16) (p : Fin 1024) :
    Pay0.rowMaxT (stepMLQ a b) (stepMLK a b j) p = Cert.Online.tileMax (Cert.Spec.aff Cert.Consts.epsR a.inputs b p) j := by
  unfold Pay0.rowMaxT Cert.Online.tileMax
  exact congrArg (Finset.univ.sup' _) (funext fun r => stepML_aff a b j p r)

theorem stepML_keys (a : Cert.Bridge.Args) (b : Fin 4) (j : Fin 16) (x1 : Vec Ideal S1x512x1024 .f32)
    (x5 x6 : Vec Ideal S1x1024 .f32) (x2 : Vec Ideal S1x512x1 .f32)
    (hx1 : ∀ (r : Fin 512) (cc : Fin 1024), x1 (ix3 (0 : Fin 1) r cc) = ((a.inputs.memk b (Cert.Online.slot j r) cc : ℝ) : EReal))
    (hx5 : ∀ cc : Fin 1024, x5 (ix2 (0 : Fin 1) cc) = ((a.inputs.gk cc : ℝ) : EReal))
    (hx6 : ∀ cc : Fin 1024, x6 (ix2 (0 : Fin 1) cc) = ((a.inputs.bk cc : ℝ) : EReal))
    (hx2 : ∀ r : Fin 512, x2 (ix3 (0 : Fin 1) r (0 : Fin 1)) = ((a.inputs.memc b (Cert.Online.slot j r) : ℝ) : EReal))
    (r : Fin 512) (cc : Fin 1024) : k0_pay12 x1 x5 x6 x2 (ix2 r cc) = ((stepMLK a b j r cc : ℝ) : EReal) :=
  Pay0LN.pay12_apply x1 x5 x6 x2 hx1 hx5 hx6 hx2 r cc

section
variable (a : Cert.Bridge.Args) (b : Fin 4) (j : Fin 16) (qs : Vec Ideal S1024x1024 .bf16) (x1 : Vec Ideal S1x512x1024 .f32) (x5 x6 : Vec Ideal S1x1024 .f32) (x2 : Vec Ideal S1x512x1 .f32) (hq : ∀ p cc : Fin 1024, qs (ix2 p cc) = ((Cert.Spec.q Cert.Consts.epsR a.inputs b p cc * (1 / 32) : ℝ) : EReal)) (hx1 : ∀ (r : Fin 512) (cc : Fin 1024), x1 (ix3 (0 : Fin 1) r cc) = ((a.inputs.memk b (Cert.Online.slot j r) cc : ℝ) : EReal)) (hx5 : ∀ cc : Fin 1024, x5 (ix2 (0 : Fin 1) cc) = ((a.inputs.gk cc : ℝ) : EReal)) (hx6 : ∀ cc : Fin 1024, x6 (ix2 (0 : Fin 1) cc) = ((a.inputs.bk cc : ℝ) : EReal)) (hx2 : ∀ r : Fin 512, x2 (ix3 (0 : Fin 1) r (0 : Fin 1)) = ((a.inputs.memc b (Cert.Online.slot j r) : ℝ) : EReal))
include a b j qs x1 x5 x6 x2 hq hx1 hx5 hx6 hx2

theorem max_first_real
    (mv : Vec Ideal S1024x1 .f32) (hm : ∀ p : Fin 1024, mv (ix2 p (0 : Fin 1)) = (⊥ : EReal)) (p : Fin 1024) :
    k0_pay3 qs (k0_pay12 x1 x5 x6 x2) (constant (F := Ideal) S1024x512 .f32 0x00000000#32) mv (ix2 p (0 : Fin 1))
      = ((Cert.Online.tileMax (Cert.Spec.aff Cert.Consts.epsR a.inputs b p) j : ℝ) : EReal) := by
  rw [Pay0.pay3_first qs (k0_pay12 x1 x5 x6 x2) mv (stepMLQ a b) (stepMLK a b j) hq (stepML_keys a b j x1 x5 x6 x2 hx1 hx5 hx6 hx2) hm p,
    stepML_max]

theorem max_next_real
    (mv : Vec Ideal S1024x1 .f32) (M : Fin 1024 → ℝ) (hm : ∀ p : Fin 1024, mv (ix2 p (0 : Fin 1)) = ((M p : ℝ) : EReal)) (p : Fin 1024) :
    k0_pay3 qs (k0_pay12 x1 x5 x6 x2) (constant (F := Ideal) S1024x512 .f32 0x00000000#32) mv (ix2 p (0 : Fin 1))
      = ((max (M p) (Cert.Online.tileMax (Cert.Spec.aff Cert.Consts.epsR a.inputs b p) j) : ℝ) : EReal) := by
  rw [Pay0.pay3_next qs (k0_pay12 x1 x5 x6 x2) mv (stepMLQ a b) (stepMLK a b j) M hq (stepML_keys a b j x1 x5 x6 x2 hx1 hx5 hx6 hx2) hm p,
    stepML_max]

theorem sum_first_real
    (mv1 mv2 lv : Vec Ideal S1024x1 .f32) (hm1 : ∀ p : Fin 1024, mv1 (ix2 p (0 : Fin 1)) = (⊥ : EReal))
    (hm2 : ∀ p : Fin 1024, mv2 (ix2 p (0 : Fin 1)) = (⊥ : EReal)) (hl : ∀ p : Fin 1024, lv (ix2 p (0 : Fin 1)) = ((0 : ℝ) : EReal))
    (p : Fin 1024) :
    k0_pay4 qs (k0_pay12 x1 x5 x6 x2) (constant (F := Ideal) S1024x512 .f32 0x00000000#32) mv1 mv2 lv (ix2 p (0 : Fin 1))
      = ((∑ r : Fin 512, Real.exp (Cert.Spec.aff Cert.Consts.epsR a.inputs b p (Cert.Online.slot j r)
          - Cert.Online.tileMax (Cert.Spec.aff Cert.Consts.epsR a.inputs b p) j) : ℝ) : EReal) := by
  rw [Pay0.pay4_first qs (k0_pay12 x1 x5 x6 x2) mv1 mv2 lv (stepMLQ a b) (stepMLK a b j) hq
    (stepML_keys a b j x1 x5 x6 x2 hx1 hx5 hx6 hx2) hm1 hm2 hl p, stepML_max]
  exact congrArg _ (Finset.sum_congr rfl fun r _ => by rw [stepML_aff])

theorem sum_next_real
    (mv1 mv2 lv : Vec Ideal S1024x1 .f32) (M L : Fin 1024 → ℝ) (hm1 : ∀ p : Fin 1024, mv1 (ix2 p (0 : Fin 1)) = ((M p : ℝ) : EReal))
    (hm2 : ∀ p : Fin 1024, mv2 (ix2 p (0 : Fin 1)) = ((M p : ℝ) : EReal)) (hl : ∀ p : Fin 1024, lv (ix2 p (0 : Fin 1)) = ((L p : ℝ) : EReal))
    (p : Fin 1024) :
    k0_pay4 qs (k0_pay12 x1 x5 x6 x2) (constant (F := Ideal) S1024x512 .f32 0x00000000#32) mv1 mv2 lv (ix2 p (0 : Fin 1))
      = ((Real.exp (M p - max (M p) (Cert.Online.tileMax (Cert.Spec.aff Cert.Consts.epsR a.inputs b p) j)) * L p
          + ∑ r : Fin 512, Real.exp (Cert.Spec.aff Cert.Consts.epsR a.inputs b p (Cert.Online.slot j r)
            - max (M p) (Cert.Online.tileMax (Cert.Spec.aff Cert.Consts.epsR a.inputs b p) j)) : ℝ) : EReal) := by
  rw [Pay0.pay4_next qs (k0_pay12 x1 x5 x6 x2) mv1 mv2 lv (stepMLQ a b) (stepMLK a b j) M L hq
    (stepML_keys a b j x1 x5 x6 x2 hx1 hx5 hx6 hx2) hm1 hm2 hl p, stepML_max]
  exact congrArg _ (congrArg (_ + ·) (Finset.sum_congr rfl fun r _ => by rw [stepML_aff]))

end

end Cert.KernelIdeal.Gen

end
-- ==== Proof.KI.R0ValueAlg.lean ====
import proofs.«404741_j62388694941903_3_alg».proof.Proof.Online

noncomputable section

namespace Cert.Online

open scoped BigOperators

theorem runMax_first (A : Fin 8192 → ℝ) (n : ℕ) (j : Fin 16) (h0 : n % 16 = 0) (hj : j.val = n % 16) :
    tileMax A j = runMax A (n % 16) := by
  have e : j = 0 := Fin.ext (by rw [hj, h0]; rfl)
  rw [h0, e]
  rfl

theorem runSum_first (A : Fin 8192 → ℝ) (n : ℕ) (j : Fin 16) (h0 : n % 16 = 0) (hj : j.val = n % 16) :
    ∑ r : Fin 512, Real.exp (A (slot j r) - tileMax A j) = runSum A (n % 16) := by
  have e : j = 0 := Fin.ext (by rw [hj, h0]; rfl)
  rw [h0, e]
  rfl

theorem runMax_step (A : Fin 8192 → ℝ) (n : ℕ) (j : Fin 16) (h0 : ¬n % 16 = 0) (hj : j.val = n % 16) :
    max (runMax A ((n - 1) % 16)) (tileMax A j) = runMax A (n % 16) := by
  have hk : n % 16 = (n - 1) % 16 + 1 := by omega
  have e : j = ⟨((n - 1) % 16 + 1) % 16, by omega⟩ := Fin.ext (by rw [hj]; show n % 16 = ((n - 1) % 16 + 1) % 16; omega)
  rw [hk, e]
  rfl

theorem runSum_step (A : Fin 8192 → ℝ) (n : ℕ) (j : Fin 16) (h0 : ¬n % 16 = 0) (hj : j.val = n % 16) :
    Real.exp (runMax A ((n - 1) % 16) - max (runMax A ((n - 1) % 16)) (tileMax A j)) * runSum A ((n - 1) % 16)
      + ∑ r : Fin 512, Real.exp (A (slot j r) - max (runMax A ((n - 1) % 16)) (tileMax A j)) = runSum A (n % 16) := by
  have hk : n % 16 = (n - 1) % 16 + 1 := by omega
  have e : j = ⟨((n - 1) % 16 + 1) % 16, by omega⟩ := Fin.ext (by rw [hj]; show n % 16 = ((n - 1) % 16 + 1) % 16; omega)
  rw [hk, e]
  rfl

end Cert.Online

end
-- ==== Proof.KI.R0ValueInvA.lean ====
import proofs.«404741_j62388694941903_3_alg».proof.Proof.KI.R0ValueInvDef
import proofs.«404741_j62388694941903_3_alg».proof.Proof.KI.R0PiecesA
import proofs.«404741_j62388694941903_3_alg».proof.Proof.KI.R0ValueStep
import proofs.«404741_j62388694941903_3_alg».proof.Proof.KI.R0ValueStepML
import proofs.«404741_j62388694941903_3_alg».proof.Proof.KI.R0ValueAlg

set_option maxRecDepth 16384

noncomputable section

namespace Cert.KernelIdeal.Gen

open Idealize.ShloMosaic Idealize.ShloMosaic.TcCoe Idealize.ShloMosaic.ValueIdx
open Idealize.SL Idealize.SL.Sem
open Cert.Online (slot runMax runSum)

section
variable (V : (c : Dev nD) → (b : Ref sig .tc) → Buf (Elt Ideal) ((c : Thread nD τ).loc b)) (c : Dev nD)
variable (a : Cert.Bridge.Args) (hr : a.IsReal)
variable (hfeat : (V c (Pipeline.arrRef spec0 0) : S4x1024x1024.Idx → EReal) = a.feat)
  (hmemk : (V c (Pipeline.arrRef spec0 1) : S4x8192x1024.Idx → EReal) = a.memk)
  (hmemc : (V c (Pipeline.arrRef spec0 2) : S4x8192x1.Idx → EReal) = a.memc)
  (hgq : ∀ j : Fin 1024, (V c (Pipeline.arrRef spec0 3) : S1x1024.Idx → EReal) (ix2 (0 : Fin 1) j) = a.gq (ix1 j))
  (hbq : ∀ j : Fin 1024, (V c (Pipeline.arrRef spec0 4) : S1x1024.Idx → EReal) (ix2 (0 : Fin 1) j) = a.bq (ix1 j))
  (hgk : ∀ j : Fin 1024, (V c (Pipeline.arrRef spec0 5) : S1x1024.Idx → EReal) (ix2 (0 : Fin 1) j) = a.gk (ix1 j))
  (hbk : ∀ j : Fin 1024, (V c (Pipeline.arrRef spec0 6) : S1x1024.Idx → EReal) (ix2 (0 : Fin 1) j) = a.bk (ix1 j))
include hr hfeat hmemk hmemc hgq hbq hgk hbk

theorem inv0_A (n : ℕ) (hn : n < cfg0.N) (h0 : n % 16 = 0) : Inv0 V c a n hn := by
  have h1 : ¬n % 16 = 15 := by omega
  have hx0 := feat_blk0 V c a hr hfeat ⟨n, hn⟩
  have hx1 := memk_blk0 V c a hr hmemk ⟨n, hn⟩
  have hx2 := memc_blk0 V c a hr hmemc ⟨n, hn⟩
  have hx3 := gq_blk0 V c a hr hgq ⟨n, hn⟩
  have hx4 := bq_blk0 V c a hr hbq ⟨n, hn⟩
  have hx5 := gk_blk0 V c a hr hgk ⟨n, hn⟩
  have hx6 := bk_blk0 V c a hr hbk ⟨n, hn⟩
  have hq : ∀ p cc : Fin 1024, (k0_pay8 (iblk0 V c 0 ⟨n, hn⟩) (iblk0 V c 3 ⟨n, hn⟩) (iblk0 V c 4 ⟨n, hn⟩)) (ix2 p cc)
      = ((Cert.Spec.q Cert.Consts.epsR a.inputs (bOf0 ⟨n, hn⟩) p cc * (1 / 32) : ℝ) : EReal) :=
    q_real a (bOf0 ⟨n, hn⟩) (iblk0 V c 0 ⟨n, hn⟩) (iblk0 V c 3 ⟨n, hn⟩) (iblk0 V c 4 ⟨n, hn⟩) hx0 hx3 hx4
  have hout := outsAt0_A V c ⟨n, hn⟩ h0 h1
  refine ⟨?_, ?_, ?_, ?_, fun h => absurd h h1, fun h => absurd h h1⟩
  · intro p r
    rw [hout]
    dsimp only [outs0_A]
    rw [out0_A_7_eq]
    exact (Cert.KernelIdeal.Pay0.pay2_apply _ _ _ p r).trans (tile_real a (bOf0 ⟨n, hn⟩) (jOf0 ⟨n, hn⟩) (k0_pay8 (iblk0 V c 0 ⟨n, hn⟩) (iblk0 V c 3 ⟨n, hn⟩) (iblk0 V c 4 ⟨n, hn⟩)) (iblk0 V c 1 ⟨n, hn⟩) (iblk0 V c 5 ⟨n, hn⟩) (iblk0 V c 6 ⟨n, hn⟩) (iblk0 V c 2 ⟨n, hn⟩) hq hx1 hx5 hx6 hx2 p r)
  · intro p cc
    rw [hout]
    dsimp only [outs0_A]
    rw [sout0_A_0_eq]
    exact hq p cc
  · intro p
    rw [hout]
    dsimp only [outs0_A]
    rw [sout0_A_1_eq, Cert.KernelIdeal.Pay0.pay5_apply,
      max_first_real a (bOf0 ⟨n, hn⟩) (jOf0 ⟨n, hn⟩) (k0_pay8 (iblk0 V c 0 ⟨n, hn⟩) (iblk0 V c 3 ⟨n, hn⟩) (iblk0 V c 4 ⟨n, hn⟩)) (iblk0 V c 1 ⟨n, hn⟩) (iblk0 V c 5 ⟨n, hn⟩) (iblk0 V c 6 ⟨n, hn⟩) (iblk0 V c 2 ⟨n, hn⟩) hq hx1 hx5 hx6 hx2 (k0_pay9 (F := Ideal)) (fun p => Cert.KernelIdeal.Pay0.pay9_apply p 0) p,
      Cert.Online.runMax_first (affR0 a (bOf0 ⟨n, hn⟩) p) n (jOf0 ⟨n, hn⟩) h0 rfl]
  · intro p
    rw [hout]
    dsimp only [outs0_A]
    rw [sout0_A_2_eq,
      sum_first_real a (bOf0 ⟨n, hn⟩) (jOf0 ⟨n, hn⟩) (k0_pay8 (iblk0 V c 0 ⟨n, hn⟩) (iblk0 V c 3 ⟨n, hn⟩) (iblk0 V c 4 ⟨n, hn⟩)) (iblk0 V c 1 ⟨n, hn⟩) (iblk0 V c 5 ⟨n, hn⟩) (iblk0 V c 6 ⟨n, hn⟩) (iblk0 V c 2 ⟨n, hn⟩) hq hx1 hx5 hx6 hx2 (k0_pay9 (F := Ideal)) (k0_pay9 (F := Ideal)) (k0_pay11 (k0_pay10 (F := Ideal)))
        (fun p => Cert.KernelIdeal.Pay0.pay9_apply p 0) (fun p => Cert.KernelIdeal.Pay0.pay9_apply p 0)
        (fun p => Cert.KernelIdeal.Pay0.pay11_apply p 0) p,
      Cert.Online.runSum_first (affR0 a (bOf0 ⟨n, hn⟩) p) n (jOf0 ⟨n, hn⟩) h0 rfl]

end

end Cert.KernelIdeal.Gen

end
-- ==== Proof.KI.R0PiecesB.lean ====
import proofs.«404741_j62388694941903_3_alg».proof.Proof.KI.R0Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl
private theorem hz3 : (![0, 0, 0] : Fin 3 → Nat) = fun _ => 0 := funext fun a => by fin_cases a <;> rfl

section
variable (c : Dev nD) (i : grid0.Coords) (arg2 : Memref sig .tc .vmem S1x1024x1024 .f32) (harg2 : arg2.IsWhole) (arg3 : Memref sig .tc .vmem S1x512x1024 .f32) (harg3 : arg3.IsWhole) (arg4 : Memref sig .tc .vmem S1x512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x512 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i) (x0 : Vec F S1x1024x1024 .f32) (x1 : Vec F S1x512x1024 .f32) (x2 : Vec F S1x512x1 .f32) (x3 : Vec F S1x1024 .f32) (x4 : Vec F S1x1024 .f32) (x5 : Vec F S1x1024 .f32) (x6 : Vec F S1x1024 .f32) (xs0 : Vec F S1024x1024 .bf16) (xs1 : Vec F S1024x1 .f32) (xs2 : Vec F S1024x1 .f32)
include c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2

theorem out0_B_7_eq :
    out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay2 xs0 (k0_pay12 x1 x5 x6 x2) (constant S1024x512 .f32 0x00000000#32) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

theorem sout0_B_1_eq :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay5 xs0 (k0_pay12 x1 x5 x6 x2) (constant S1024x512 .f32 0x00000000#32) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

theorem sout0_B_2_eq :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay4 xs0 (k0_pay12 x1 x5 x6 x2) (constant S1024x512 .f32 0x00000000#32) xs1 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

end

end Cert.KernelIdeal.Gen

end
-- ==== Proof.KI.R0ValueInvB.lean ====
import proofs.«404741_j62388694941903_3_alg».proof.Proof.KI.R0ValueInvDef
import proofs.«404741_j62388694941903_3_alg».proof.Proof.KI.R0PiecesB
import proofs.«404741_j62388694941903_3_alg».proof.Proof.KI.R0ValueStep
import proofs.«404741_j62388694941903_3_alg».proof.Proof.KI.R0ValueStepML
import proofs.«404741_j62388694941903_3_alg».proof.Proof.KI.R0ValueAlg

set_option maxRecDepth 16384

noncomputable section

namespace Cert.KernelIdeal.Gen

open Idealize.ShloMosaic Idealize.ShloMosaic.TcCoe Idealize.ShloMosaic.ValueIdx
open Idealize.SL Idealize.SL.Sem
open Cert.Online (slot runMax runSum)

section CaseB
variable (V : (c : Dev nD) → (b : Ref sig .tc) → Buf (Elt Ideal) ((c : Thread nD τ).loc b)) (c : Dev nD)
variable (a : Cert.Bridge.Args) (hr : a.IsReal)
variable (hfeat : (V c (Pipeline.arrRef spec0 0) : S4x1024x1024.Idx → EReal) = a.feat)
  (hmemk : (V c (Pipeline.arrRef spec0 1) : S4x8192x1024.Idx → EReal) = a.memk)
  (hmemc : (V c (Pipeline.arrRef spec0 2) : S4x8192x1.Idx → EReal) = a.memc)
  (hgq : ∀ j : Fin 1024, (V c (Pipeline.arrRef spec0 3) : S1x1024.Idx → EReal) (ix2 (0 : Fin 1) j) = a.gq (ix1 j))
  (hbq : ∀ j : Fin 1024, (V c (Pipeline.arrRef spec0 4) : S1x1024.Idx → EReal) (ix2 (0 : Fin 1) j) = a.bq (ix1 j))
  (hgk : ∀ j : Fin 1024, (V c (Pipeline.arrRef spec0 5) : S1x1024.Idx → EReal) (ix2 (0 : Fin 1) j) = a.gk (ix1 j))
  (hbk : ∀ j : Fin 1024, (V c (Pipeline.arrRef spec0 6) : S1x1024.Idx → EReal) (ix2 (0 : Fin 1) j) = a.bk (ix1 j))
include hr hfeat hmemk hmemc hgq hbq hgk hbk

theorem inv0_B (n : ℕ) (hn : n < cfg0.N) (h0 : ¬n % 16 = 0) (h1 : ¬n % 16 = 15) (hlt : n - 1 < cfg0.N)
    (ih : Inv0 V c a (n - 1) hlt) : Inv0 V c a n hn := by
  have hb : bOf0 ⟨n - 1, hlt⟩ = bOf0 ⟨n, hn⟩ := Fin.ext (by show (n - 1) / 16 = n / 16; omega)
  have hq : ∀ p cc : Fin 1024, (outsAt0 V c (n - 1) hlt).2.2.2.1 (ix2 p cc)
      = ((Cert.Spec.q Cert.Consts.epsR a.inputs (bOf0 ⟨n, hn⟩) p cc * (1 / 32) : ℝ) : EReal) := fun p cc => by
    rw [← hb]; exact ih.q p cc
  have hm : ∀ p : Fin 1024, (outsAt0 V c (n - 1) hlt).2.2.2.2.1 (ix2 p (0 : Fin 1))
      = ((runMax (affR0 a (bOf0 ⟨n, hn⟩) p) ((n - 1) % 16) : ℝ) : EReal) := fun p => by
    rw [← hb]; exact ih.m p
  have hl : ∀ p : Fin 1024, (outsAt0 V c (n - 1) hlt).2.2.2.2.2 (ix2 p (0 : Fin 1))
      = ((runSum (affR0 a (bOf0 ⟨n, hn⟩) p) ((n - 1) % 16) : ℝ) : EReal) := fun p => by
    rw [← hb]; exact ih.l p
  have hx1 := memk_blk0 V c a hr hmemk ⟨n, hn⟩
  have hx2 := memc_blk0 V c a hr hmemc ⟨n, hn⟩
  have hx5 := gk_blk0 V c a hr hgk ⟨n, hn⟩
  have hx6 := bk_blk0 V c a hr hbk ⟨n, hn⟩
  refine ⟨?_, ?_, ?_, ?_, fun h => absurd h h1, fun h => absurd h h1⟩
  · intro p r
    rw [outsAt0_B V c ⟨n, hn⟩ h0 h1]
    dsimp only [outs0_B]
    rw [out0_B_7_eq]
    refine (Cert.KernelIdeal.Pay0.pay2_apply (outsAt0 V c (n - 1) hlt).2.2.2.1 (k0_pay12 (iblk0 V c 1 ⟨n, hn⟩) (iblk0 V c 5 ⟨n, hn⟩) (iblk0 V c 6 ⟨n, hn⟩) (iblk0 V c 2 ⟨n, hn⟩)) (constant (F := Ideal) S1024x512 .f32 0x00000000#32) p r).trans ?_
    exact tile_real a (bOf0 ⟨n, hn⟩) (jOf0 ⟨n, hn⟩) (outsAt0 V c (n - 1) hlt).2.2.2.1 (iblk0 V c 1 ⟨n, hn⟩) (iblk0 V c 5 ⟨n, hn⟩) (iblk0 V c 6 ⟨n, hn⟩) (iblk0 V c 2 ⟨n, hn⟩) hq hx1 hx5 hx6 hx2 p r
  · intro p cc
    rw [outsAt0_B V c ⟨n, hn⟩ h0 h1]
    dsimp only [outs0_B]
    exact hq p cc
  · intro p
    rw [outsAt0_B V c ⟨n, hn⟩ h0 h1]
    dsimp only [outs0_B]
    rw [sout0_B_1_eq]
    refine (Cert.KernelIdeal.Pay0.pay5_apply (outsAt0 V c (n - 1) hlt).2.2.2.1 (k0_pay12 (iblk0 V c 1 ⟨n, hn⟩) (iblk0 V c 5 ⟨n, hn⟩) (iblk0 V c 6 ⟨n, hn⟩) (iblk0 V c 2 ⟨n, hn⟩)) (constant (F := Ideal) S1024x512 .f32 0x00000000#32) (outsAt0 V c (n - 1) hlt).2.2.2.2.1 p (0 : Fin 1)).trans ?_
    refine (max_next_real a (bOf0 ⟨n, hn⟩) (jOf0 ⟨n, hn⟩) (outsAt0 V c (n - 1) hlt).2.2.2.1 (iblk0 V c 1 ⟨n, hn⟩) (iblk0 V c 5 ⟨n, hn⟩) (iblk0 V c 6 ⟨n, hn⟩) (iblk0 V c 2 ⟨n, hn⟩) hq hx1 hx5 hx6 hx2 (outsAt0 V c (n - 1) hlt).2.2.2.2.1 (fun p => runMax (affR0 a (bOf0 ⟨n, hn⟩) p) ((n - 1) % 16)) hm p).trans ?_
    exact congrArg _ (Cert.Online.runMax_step (affR0 a (bOf0 ⟨n, hn⟩) p) n (jOf0 ⟨n, hn⟩) h0 rfl)
  · intro p
    rw [outsAt0_B V c ⟨n, hn⟩ h0 h1]
    dsimp only [outs0_B]
    rw [sout0_B_2_eq]
    refine (sum_next_real a (bOf0 ⟨n, hn⟩) (jOf0 ⟨n, hn⟩) (outsAt0 V c (n - 1) hlt).2.2.2.1 (iblk0 V c 1 ⟨n, hn⟩) (iblk0 V c 5 ⟨n, hn⟩) (iblk0 V c 6 ⟨n, hn⟩) (iblk0 V c 2 ⟨n, hn⟩) hq hx1 hx5 hx6 hx2 (outsAt0 V c (n - 1) hlt).2.2.2.2.1 (outsAt0 V c (n - 1) hlt).2.2.2.2.1 (outsAt0 V c (n - 1) hlt).2.2.2.2.2 (fun p => runMax (affR0 a (bOf0 ⟨n, hn⟩) p) ((n - 1) % 16)) (fun p => runSum (affR0 a (bOf0 ⟨n, hn⟩) p) ((n - 1) % 16)) hm hm hl p).trans ?_
    exact congrArg _ (Cert.Online.runSum_step (affR0 a (bOf0 ⟨n, hn⟩) p) n (jOf0 ⟨n, hn⟩) h0 rfl)

end CaseB

end Cert.KernelIdeal.Gen

end
-- ==== Proof.KI.R0PiecesC.lean ====
import proofs.«404741_j62388694941903_3_alg».proof.Proof.KI.R0Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl
private theorem hz3 : (![0, 0, 0] : Fin 3 → Nat) = fun _ => 0 := funext fun a => by fin_cases a <;> rfl

section
variable (c : Dev nD) (i : grid0.Coords) (arg2 : Memref sig .tc .vmem S1x1024x1024 .f32) (harg2 : arg2.IsWhole) (arg3 : Memref sig .tc .vmem S1x512x1024 .f32) (harg3 : arg3.IsWhole) (arg4 : Memref sig .tc .vmem S1x512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x512 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1024x1024 .bf16) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i) (x0 : Vec F S1x1024x1024 .f32) (x1 : Vec F S1x512x1024 .f32) (x2 : Vec F S1x512x1 .f32) (x3 : Vec F S1x1024 .f32) (x4 : Vec F S1x1024 .f32) (x5 : Vec F S1x1024 .f32) (x6 : Vec F S1x1024 .f32) (xs0 : Vec F S1024x1024 .bf16) (xs1 : Vec F S1024x1 .f32) (xs2 : Vec F S1024x1 .f32)
include c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2

theorem out0_C_7_eq :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay2 xs0 (k0_pay12 x1 x5 x6 x2) (constant S1024x512 .f32 0x00000000#32) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

theorem sout0_C_1_eq :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay5 xs0 (k0_pay12 x1 x5 x6 x2) (constant S1024x512 .f32 0x00000000#32) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

theorem sout0_C_2_eq :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay4 xs0 (k0_pay12 x1 x5 x6 x2) (constant S1024x512 .f32 0x00000000#32) xs1 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

theorem out0_C_8_eq :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay6 (k0_pay5 xs0 (k0_pay12 x1 x5 x6 x2) (constant S1024x512 .f32 0x00000000#32) xs1) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

theorem out0_C_9_eq :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2 = k0_pay7 (k0_pay4 xs0 (k0_pay12 x1 x5 x6 x2) (constant S1024x512 .f32 0x00000000#32) xs1 xs1 xs2) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x512x1024) hz3, View.ld_unit_zero (S := S1x512x1) hz3, View.ld_unit_zero (S := S1x1024) hz2, View.ld_unit_zero (S := S1x1024x512) hz3, View.ld_unit_zero (S := S1x1024x1) hz3, View.ld_unit_zero (S := S1024x1024) hz2, View.ld_unit_zero (S := S1024x1) hz2, View.readCov_unit_zero (S := S1024x1024) _ hz2, View.readCov_unit_zero (S := S1024x1) _ hz2]

end

end Cert.KernelIdeal.Gen

end
-- ==== Proof.KI.R0ValueInvC.lean ====
import proofs.«404741_j62388694941903_3_alg».proof.Proof.KI.R0ValueInvDef
import proofs.«404741_j62388694941903_3_alg».proof.Proof.KI.R0PiecesC
import proofs.«404741_j62388694941903_3_alg».proof.Proof.KI.R0ValueStep
import proofs.«404741_j62388694941903_3_alg».proof.Proof.KI.R0ValueStepML
import proofs.«404741_j62388694941903_3_alg».proof.Proof.KI.R0ValueAlg

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)
open Cert.Online (slot runMax runSum)

section CaseC
variable (V : (c : Dev nD) → (b : Ref sig .tc) → Buf (Elt Ideal) ((c : Thread nD τ).loc b)) (c : Dev nD)
variable (a : Cert.Bridge.Args) (hr : a.IsReal)
variable (hfeat : (V c (Pipeline.arrRef spec0 0) : S4x1024x1024.Idx → EReal) = a.feat)
  (hmemk : (V c (Pipeline.arrRef spec0 1) : S4x8192x1024.Idx → EReal) = a.memk)
  (hmemc : (V c (Pipeline.arrRef spec0 2) : S4x8192x1.Idx → EReal) = a.memc)
  (hgq : ∀ j : Fin 1024, (V c (Pipeline.arrRef spec0 3) : S1x1024.Idx → EReal) (ix2 (0 : Fin 1) j) = a.gq (ix1 j))
  (hbq : ∀ j : Fin 1024, (V c (Pipeline.arrRef spec0 4) : S1x1024.Idx → EReal) (ix2 (0 : Fin 1) j) = a.bq (ix1 j))
  (hgk : ∀ j : Fin 1024, (V c (Pipeline.arrRef spec0 5) : S1x1024.Idx → EReal) (ix2 (0 : Fin 1) j) = a.gk (ix1 j))
  (hbk : ∀ j : Fin 1024, (V c (Pipeline.arrRef spec0 6) : S1x1024.Idx → EReal) (ix2 (0 : Fin 1) j) = a.bk (ix1 j))
include hr hfeat hmemk hmemc hgq hbq hgk hbk

theorem inv0_C (n : ℕ) (hn : n < cfg0.N) (h0 : ¬n % 16 = 0) (h1 : n % 16 = 15) (hlt : n - 1 < cfg0.N)
    (ih : Inv0 V c a (n - 1) hlt) : Inv0 V c a n hn := by

  have hb : bOf0 ⟨n - 1, hlt⟩ = bOf0 ⟨n, hn⟩ := Fin.ext (by show (n - 1) / 16 = n / 16; omega)

  have hq : ∀ p cc : Fin 1024, (outsAt0 V c (n - 1) hlt).2.2.2.1 (ix2 p cc)
      = ((Cert.Spec.q Cert.Consts.epsR a.inputs (bOf0 (⟨n, hn⟩ : Fin cfg0.N)) p cc * (1 / 32) : ℝ) : EReal) :=
    fun p cc => by rw [← hb]; exact ih.q p cc
  have hm : ∀ p : Fin 1024, (outsAt0 V c (n - 1) hlt).2.2.2.2.1 (ix2 p (0 : Fin 1))
      = (((fun p => runMax (affR0 a (bOf0 (⟨n, hn⟩ : Fin cfg0.N)) p) ((n - 1) % 16)) p : ℝ) : EReal) :=
    fun p => by rw [← hb]; exact ih.m p
  have hl : ∀ p : Fin 1024, (outsAt0 V c (n - 1) hlt).2.2.2.2.2 (ix2 p (0 : Fin 1))
      = (((fun p => runSum (affR0 a (bOf0 (⟨n, hn⟩ : Fin cfg0.N)) p) ((n - 1) % 16)) p : ℝ) : EReal) :=
    fun p => by rw [← hb]; exact ih.l p

  have hx1 := memk_blk0 V c a hr hmemk (⟨n, hn⟩ : Fin cfg0.N)
  have hx2 := memc_blk0 V c a hr hmemc (⟨n, hn⟩ : Fin cfg0.N)
  have hx5 := gk_blk0 V c a hr hgk (⟨n, hn⟩ : Fin cfg0.N)
  have hx6 := bk_blk0 V c a hr hbk (⟨n, hn⟩ : Fin cfg0.N)

  have hmax : ∀ p : Fin 1024, k0_pay3 (outsAt0 V c (n - 1) hlt).2.2.2.1 (k0_pay12 (iblk0 V c 1 (⟨n, hn⟩ : Fin cfg0.N)) (iblk0 V c 5 (⟨n, hn⟩ : Fin cfg0.N)) (iblk0 V c 6 (⟨n, hn⟩ : Fin cfg0.N)) (iblk0 V c 2 (⟨n, hn⟩ : Fin cfg0.N))) (constant (F := Ideal) S1024x512 .f32 0x00000000#32) (outsAt0 V c (n - 1) hlt).2.2.2.2.1 (ix2 p (0 : Fin 1))
      = ((runMax (affR0 a (bOf0 (⟨n, hn⟩ : Fin cfg0.N)) p) (n % 16) : ℝ) : EReal) := fun p =>
    (max_next_real a (bOf0 (⟨n, hn⟩ : Fin cfg0.N)) (jOf0 (⟨n, hn⟩ : Fin cfg0.N)) (outsAt0 V c (n - 1) hlt).2.2.2.1 (iblk0 V c 1 (⟨n, hn⟩ : Fin cfg0.N)) (iblk0 V c 5 (⟨n, hn⟩ : Fin cfg0.N)) (iblk0 V c 6 (⟨n, hn⟩ : Fin cfg0.N)) (iblk0 V c 2 (⟨n, hn⟩ : Fin cfg0.N)) hq hx1 hx5 hx6 hx2 (outsAt0 V c (n - 1) hlt).2.2.2.2.1 (fun p => runMax (affR0 a (bOf0 (⟨n, hn⟩ : Fin cfg0.N)) p) ((n - 1) % 16)) hm p).trans
      (congrArg (fun z : ℝ => (z : EReal)) (Cert.Online.runMax_step (affR0 a (bOf0 (⟨n, hn⟩ : Fin cfg0.N)) p) n (jOf0 (⟨n, hn⟩ : Fin cfg0.N)) h0 rfl))
  have hsum : ∀ p : Fin 1024, k0_pay4 (outsAt0 V c (n - 1) hlt).2.2.2.1 (k0_pay12 (iblk0 V c 1 (⟨n, hn⟩ : Fin cfg0.N)) (iblk0 V c 5 (⟨n, hn⟩ : Fin cfg0.N)) (iblk0 V c 6 (⟨n, hn⟩ : Fin cfg0.N)) (iblk0 V c 2 (⟨n, hn⟩ : Fin cfg0.N))) (constant (F := Ideal) S1024x512 .f32 0x00000000#32) (outsAt0 V c (n - 1) hlt).2.2.2.2.1 (outsAt0 V c (n - 1) hlt).2.2.2.2.1 (outsAt0 V c (n - 1) hlt).2.2.2.2.2 (ix2 p (0 : Fin 1))
      = ((runSum (affR0 a (bOf0 (⟨n, hn⟩ : Fin cfg0.N)) p) (n % 16) : ℝ) : EReal) := fun p =>
    (sum_next_real a (bOf0 (⟨n, hn⟩ : Fin cfg0.N)) (jOf0 (⟨n, hn⟩ : Fin cfg0.N)) (outsAt0 V c (n - 1) hlt).2.2.2.1 (iblk0 V c 1 (⟨n, hn⟩ : Fin cfg0.N)) (iblk0 V c 5 (⟨n, hn⟩ : Fin cfg0.N)) (iblk0 V c 6 (⟨n, hn⟩ : Fin cfg0.N)) (iblk0 V c 2 (⟨n, hn⟩ : Fin cfg0.N)) hq hx1 hx5 hx6 hx2 (outsAt0 V c (n - 1) hlt).2.2.2.2.1 (outsAt0 V c (n - 1) hlt).2.2.2.2.1 (outsAt0 V c (n - 1) hlt).2.2.2.2.2 (fun p => runMax (affR0 a (bOf0 (⟨n, hn⟩ : Fin cfg0.N)) p) ((n - 1) % 16)) (fun p => runSum (affR0 a (bOf0 (⟨n, hn⟩ : Fin cfg0.N)) p) ((n - 1) % 16)) hm hm hl p).trans
      (congrArg (fun z : ℝ => (z : EReal)) (Cert.Online.runSum_step (affR0 a (bOf0 (⟨n, hn⟩ : Fin cfg0.N)) p) n (jOf0 (⟨n, hn⟩ : Fin cfg0.N)) h0 rfl))
  refine ⟨?_, ?_, ?_, ?_, ?_, ?_⟩
  ·
    intro p r
    rw [outsAt0_C V c (⟨n, hn⟩ : Fin cfg0.N) h0 h1]
    dsimp only [outs0_C]
    rw [out0_C_7_eq]
    exact (Pay0.pay2_apply _ _ _ p r).trans (tile_real a (bOf0 (⟨n, hn⟩ : Fin cfg0.N)) (jOf0 (⟨n, hn⟩ : Fin cfg0.N)) (outsAt0 V c (n - 1) hlt).2.2.2.1 (iblk0 V c 1 (⟨n, hn⟩ : Fin cfg0.N)) (iblk0 V c 5 (⟨n, hn⟩ : Fin cfg0.N)) (iblk0 V c 6 (⟨n, hn⟩ : Fin cfg0.N)) (iblk0 V c 2 (⟨n, hn⟩ : Fin cfg0.N)) hq hx1 hx5 hx6 hx2 p r)
  ·
    intro p cc
    rw [outsAt0_C V c (⟨n, hn⟩ : Fin cfg0.N) h0 h1]
    dsimp only [outs0_C]
    exact hq p cc
  ·
    intro p
    rw [outsAt0_C V c (⟨n, hn⟩ : Fin cfg0.N) h0 h1]
    dsimp only [outs0_C]
    rw [sout0_C_1_eq]
    exact (Pay0.pay5_apply _ _ _ _ p 0).trans (hmax p)
  ·
    intro p
    rw [outsAt0_C V c (⟨n, hn⟩ : Fin cfg0.N) h0 h1]
    dsimp only [outs0_C]
    rw [sout0_C_2_eq]
    exact hsum p
  ·
    intro _ p
    rw [outsAt0_C V c (⟨n, hn⟩ : Fin cfg0.N) h0 h1]
    dsimp only [outs0_C]
    rw [out0_C_8_eq]
    refine (Pay0.pay6_apply _ p 0).trans ?_
    refine (Pay0.pay5_apply _ _ _ _ p 0).trans ?_
    have e := hmax p
    rw [h1] at e
    exact e
  ·
    intro _ p
    rw [outsAt0_C V c (⟨n, hn⟩ : Fin cfg0.N) h0 h1]
    dsimp only [outs0_C]
    rw [out0_C_9_eq]
    refine (Pay0.pay7_apply _ p 0).trans ?_
    have e := hsum p
    rw [h1] at e
    exact e

end CaseC

end Cert.KernelIdeal.Gen

end
-- ==== Proof.KI.R0ValueArr.lean ====
import proofs.«404741_j62388694941903_3_alg».proof.Proof.KI.R0ValueInvDef

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)
open Cert.Online (slot runMax runSum)

section Arr
variable (V : (c : Dev nD) → (b : Ref sig .tc) → Buf (Elt Ideal) ((c : Thread nD τ).loc b)) (c : Dev nD)
variable (a : Cert.Bridge.Args)

theorem aff_arr_of_inv (inv : ∀ n hn, Inv0 V c a n hn) :
    (dat0 V c).arrAt 7 cfg0.N = fun i : S4x1024x8192.Idx => ((Cert.Spec.aff Cert.Consts.epsR a.inputs (i 0) (i 1) (i 2) : ℝ) : EReal) := by
  refine (dat0 V c).arrAt_eq_of_cover 7 _ (fun t _ => ?_) cover0_7
  funext j
  obtain ⟨u, p, r, rfl⟩ : ∃ (u : Fin 1) (p : Fin 1024) (r : Fin 512), j = ix3 u p r := ⟨j 0, j 1, j 2, eq_ix3 j⟩
  obtain rfl : u = 0 := Subsingleton.elim _ _
  show (dat0 V c).after 7 t (ix3 (0 : Fin 1) p r) = (fun i : S4x1024x8192.Idx => ((Cert.Spec.aff Cert.Consts.epsR a.inputs (i 0) (i 1) (i 2) : ℝ) : EReal)) (((cfg0.win 7).blk t).view.emb (ix3 (0 : Fin 1) p r))
  rw [after0_7, emb0_7 t (ix3 (0 : Fin 1) p r) (ix3 (bOf0 t) p (slot (jOf0 t) r)) rfl rfl rfl]
  exact (inv t.val t.isLt).aff p r

theorem max_arr_of_inv (inv : ∀ n hn, Inv0 V c a n hn) :
    (dat0 V c).arrAt 8 cfg0.N = fun i : S4x1024x1.Idx => ((Cert.Spec.rowMax (Cert.Spec.aff Cert.Consts.epsR a.inputs (i 0) (i 1)) : ℝ) : EReal) := by
  refine (dat0 V c).arrAt_eq_of_cover 8 _ (fun t hf => ?_) cover0_8
  have h15 : t.val % 16 = 15 := (flush0_8 t).mp hf
  funext j
  obtain ⟨u, p, w, rfl⟩ : ∃ (u : Fin 1) (p : Fin 1024) (w : Fin 1), j = ix3 u p w := ⟨j 0, j 1, j 2, eq_ix3 j⟩
  obtain rfl : u = 0 := Subsingleton.elim _ _
  obtain rfl : w = 0 := Subsingleton.elim _ _
  show (dat0 V c).after 8 t (ix3 (0 : Fin 1) p (0 : Fin 1)) = (fun i : S4x1024x1.Idx => ((Cert.Spec.rowMax (Cert.Spec.aff Cert.Consts.epsR a.inputs (i 0) (i 1)) : ℝ) : EReal)) (((cfg0.win 8).blk t).view.emb (ix3 (0 : Fin 1) p (0 : Fin 1)))
  rw [after0_8, emb0_8 t (ix3 (0 : Fin 1) p (0 : Fin 1)) (ix3 (bOf0 t) p (0 : Fin 1)) rfl rfl rfl, (inv t.val t.isLt).om h15 p, Cert.Online.runMax_last]

theorem sum_arr_of_inv (inv : ∀ n hn, Inv0 V c a n hn) :
    (dat0 V c).arrAt 9 cfg0.N = fun i : S4x1024x1.Idx => ((Cert.Spec.denom (Cert.Spec.aff Cert.Consts.epsR a.inputs (i 0) (i 1)) : ℝ) : EReal) := by
  refine (dat0 V c).arrAt_eq_of_cover 9 _ (fun t hf => ?_) cover0_9
  have h15 : t.val % 16 = 15 := (flush0_9 t).mp hf
  funext j
  obtain ⟨u, p, w, rfl⟩ : ∃ (u : Fin 1) (p : Fin 1024) (w : Fin 1), j = ix3 u p w := ⟨j 0, j 1, j 2, eq_ix3 j⟩
  obtain rfl : u = 0 := Subsingleton.elim _ _
  obtain rfl : w = 0 := Subsingleton.elim _ _
  show (dat0 V c).after 9 t (ix3 (0 : Fin 1) p (0 : Fin 1)) = (fun i : S4x1024x1.Idx => ((Cert.Spec.denom (Cert.Spec.aff Cert.Consts.epsR a.inputs (i 0) (i 1)) : ℝ) : EReal)) (((cfg0.win 9).blk t).view.emb (ix3 (0 : Fin 1) p (0 : Fin 1)))
  rw [after0_9, emb0_9 t (ix3 (0 : Fin 1) p (0 : Fin 1)) (ix3 (bOf0 t) p (0 : Fin 1)) rfl rfl rfl, (inv t.val t.isLt).ol h15 p, Cert.Online.runSum_last]

end Arr

end Cert.KernelIdeal.Gen

end
-- ==== Proof.KI.R0ValueInv.lean ====
import proofs.«404741_j62388694941903_3_alg».proof.Proof.KI.R0ValueInvA
import proofs.«404741_j62388694941903_3_alg».proof.Proof.KI.R0ValueInvB
import proofs.«404741_j62388694941903_3_alg».proof.Proof.KI.R0ValueInvC
import proofs.«404741_j62388694941903_3_alg».proof.Proof.KI.R0ValueArr

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)

section Value
variable (V : (c : Dev nD) → (b : Ref sig .tc) → Buf (Elt Ideal) ((c : Thread nD τ).loc b)) (c : Dev nD)
variable (a : Cert.Bridge.Args) (hr : a.IsReal)
variable (hfeat : (V c (Pipeline.arrRef spec0 0) : S4x1024x1024.Idx → EReal) = a.feat)
  (hmemk : (V c (Pipeline.arrRef spec0 1) : S4x8192x1024.Idx → EReal) = a.memk)
  (hmemc : (V c (Pipeline.arrRef spec0 2) : S4x8192x1.Idx → EReal) = a.memc)
  (hgq : ∀ j : Fin 1024, (V c (Pipeline.arrRef spec0 3) : S1x1024.Idx → EReal) (ix2 (0 : Fin 1) j) = a.gq (ix1 j))
  (hbq : ∀ j : Fin 1024, (V c (Pipeline.arrRef spec0 4) : S1x1024.Idx → EReal) (ix2 (0 : Fin 1) j) = a.bq (ix1 j))
  (hgk : ∀ j : Fin 1024, (V c (Pipeline.arrRef spec0 5) : S1x1024.Idx → EReal) (ix2 (0 : Fin 1) j) = a.gk (ix1 j))
  (hbk : ∀ j : Fin 1024, (V c (Pipeline.arrRef spec0 6) : S1x1024.Idx → EReal) (ix2 (0 : Fin 1) j) = a.bk (ix1 j))
include hr hfeat hmemk hmemc hgq hbq hgk hbk

theorem inv0 : ∀ (n : ℕ) (hn : n < cfg0.N), Inv0 V c a n hn := by
  intro n
  induction n with
  | zero =>
    intro hn
    exact inv0_A V c a hr hfeat hmemk hmemc hgq hbq hgk hbk 0 hn (Nat.zero_mod _)
  | succ n ih =>
    intro hn
    by_cases h0 : (n + 1) % 16 = 0
    · exact inv0_A V c a hr hfeat hmemk hmemc hgq hbq hgk hbk (n + 1) hn h0
    · have hlt : n + 1 - 1 < cfg0.N := by omega
      have key : ∀ (k : ℕ) (hk : k < cfg0.N), k = n → Inv0 V c a k hk := by
        rintro k hk rfl
        exact ih hk
      have ih' : Inv0 V c a (n + 1 - 1) hlt := key (n + 1 - 1) hlt (Nat.add_sub_cancel n 1)
      by_cases h1 : (n + 1) % 16 = 15
      · exact inv0_C V c a hr hfeat hmemk hmemc hgq hbq hgk hbk (n + 1) hn h0 h1 hlt ih'
      · exact inv0_B V c a hr hfeat hmemk hmemc hgq hbq hgk hbk (n + 1) hn h0 h1 hlt ih'

theorem aff_arr : (dat0 V c).arrAt 7 cfg0.N
    = fun i : S4x1024x8192.Idx => ((Cert.Spec.aff Cert.Consts.epsR a.inputs (i 0) (i 1) (i 2) : ℝ) : EReal) :=
  aff_arr_of_inv V c a (inv0 V c a hr hfeat hmemk hmemc hgq hbq hgk hbk)

theorem max_arr : (dat0 V c).arrAt 8 cfg0.N
    = fun i : S4x1024x1.Idx => ((Cert.Spec.rowMax (Cert.Spec.aff Cert.Consts.epsR a.inputs (i 0) (i 1)) : ℝ) : EReal) :=
  max_arr_of_inv V c a (inv0 V c a hr hfeat hmemk hmemc hgq hbq hgk hbk)

theorem sum_arr : (dat0 V c).arrAt 9 cfg0.N
    = fun i : S4x1024x1.Idx => ((Cert.Spec.denom (Cert.Spec.aff Cert.Consts.epsR a.inputs (i 0) (i 1)) : ℝ) : EReal) :=
  sum_arr_of_inv V c a (inv0 V c a hr hfeat hmemk hmemc hgq hbq hgk hbk)

end Value

end Cert.KernelIdeal.Gen

end
-- ==== Proof.KI.R1Pieces.lean ====
import proofs.«404741_j62388694941903_3_alg».proof.Proof.KI.R1Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl
private theorem hz3 : (![0, 0, 0] : Fin 3 → Nat) = fun _ => 0 := funext fun a => by fin_cases a <;> rfl

section
variable (c : Dev nD) (i : grid1.Coords) (arg2 : Memref sig .tc .vmem S1x1024x512 .f32) (harg2 : arg2.IsWhole) (arg3 : Memref sig .tc .vmem S1x512x1024 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1x1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole)
include c i arg2 harg2 arg3 harg3 arg4 harg4 arg5 harg5 arg6 harg6 arg7 harg7 arg8 harg8 arg9 harg9 arg10 harg10 arg11 harg11

section
variable (hc0 : cond1_0 i) (hc1 : ¬cond1_1 i) (x0 : Vec F S1x1024x512 .f32) (x1 : Vec F S1x512x1024 .f32) (x2 : Vec F S1x1024x1 .f32) (x3 : Vec F S1x1024x1 .f32) (x4 : Vec F S1x1024x1024 .f32) (x5 : Vec F S1x1024 .f32) (x6 : Vec F S1x1024 .f32)
include hc0 hc1 x0 x1 x2 x3 x4 x5 x6

theorem sout1_A_0_eq :
    sout1_A_0 c i arg2 harg2 arg3 harg3 arg4 harg4 arg5 harg5 arg6 harg6 arg7 harg7 arg8 harg8 arg9 harg9 arg10 harg10 arg11 harg11 hc0 hc1 x0 x1 x2 x3 x4 x5 x6 = k1_pay3 (k1_pay7 x0) (k1_pay8 x1 x5 x6) (k1_pay9 x3) (k1_pay10 (F := F)) x2 (k1_pay5 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_words
  rw [View.canon_cons_unit_zero (S := S1024x1024) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x512) hz3, View.ld_unit_zero (S := S1x512x1024) hz3, View.ld_unit_zero (S := S1x1024x1) hz3, View.ld_unit_zero (S := S1x1024x1024) hz3, View.ld_unit_zero (S := S1x1024) hz2, View.ld_unit_zero (S := S1024x1024) hz2, View.ld_unit_zero (S := S1024x1) hz2, View.readCov_unit_zero (S := S1024x1024) _ hz2, View.readCov_unit_zero (S := S1024x1) _ hz2]

theorem sout1_A_1_eq :
    sout1_A_1 c i arg2 harg2 arg3 harg3 arg4 harg4 arg5 harg5 arg6 harg6 arg7 harg7 arg8 harg8 arg9 harg9 arg10 harg10 arg11 harg11 hc0 hc1 x0 x1 x2 x3 x4 x5 x6 = k1_pay2 (k1_pay7 x0) (k1_pay9 x3) (k1_pay10 (F := F)) x2 (k1_pay6 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x512) hz3, View.ld_unit_zero (S := S1x512x1024) hz3, View.ld_unit_zero (S := S1x1024x1) hz3, View.ld_unit_zero (S := S1x1024x1024) hz3, View.ld_unit_zero (S := S1x1024) hz2, View.ld_unit_zero (S := S1024x1024) hz2, View.ld_unit_zero (S := S1024x1) hz2, View.readCov_unit_zero (S := S1024x1024) _ hz2, View.readCov_unit_zero (S := S1024x1) _ hz2]

end

section
variable (hc0 : ¬cond1_0 i) (hc1 : ¬cond1_1 i) (x0 : Vec F S1x1024x512 .f32) (x1 : Vec F S1x512x1024 .f32) (x2 : Vec F S1x1024x1 .f32) (x3 : Vec F S1x1024x1 .f32) (x4 : Vec F S1x1024x1024 .f32) (x5 : Vec F S1x1024 .f32) (x6 : Vec F S1x1024 .f32) (xs0 : Vec F S1024x1024 .f32) (xs1 : Vec F S1024x1 .f32)
include hc0 hc1 x0 x1 x2 x3 x4 x5 x6 xs0 xs1

theorem sout1_B_0_eq :
    sout1_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay3 (k1_pay7 x0) (k1_pay8 x1 x5 x6) (k1_pay9 x3) (k1_pay10 (F := F)) x2 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x512) hz3, View.ld_unit_zero (S := S1x512x1024) hz3, View.ld_unit_zero (S := S1x1024x1) hz3, View.ld_unit_zero (S := S1x1024x1024) hz3, View.ld_unit_zero (S := S1x1024) hz2, View.ld_unit_zero (S := S1024x1024) hz2, View.ld_unit_zero (S := S1024x1) hz2, View.readCov_unit_zero (S := S1024x1024) _ hz2, View.readCov_unit_zero (S := S1024x1) _ hz2]

theorem sout1_B_1_eq :
    sout1_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay2 (k1_pay7 x0) (k1_pay9 x3) (k1_pay10 (F := F)) x2 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x512) hz3, View.ld_unit_zero (S := S1x512x1024) hz3, View.ld_unit_zero (S := S1x1024x1) hz3, View.ld_unit_zero (S := S1x1024x1024) hz3, View.ld_unit_zero (S := S1x1024) hz2, View.ld_unit_zero (S := S1024x1024) hz2, View.ld_unit_zero (S := S1024x1) hz2, View.readCov_unit_zero (S := S1024x1024) _ hz2, View.readCov_unit_zero (S := S1024x1) _ hz2]

end

section
variable (hc0 : ¬cond1_0 i) (hc1 : cond1_1 i) (x0 : Vec F S1x1024x512 .f32) (x1 : Vec F S1x512x1024 .f32) (x2 : Vec F S1x1024x1 .f32) (x3 : Vec F S1x1024x1 .f32) (x4 : Vec F S1x1024x1024 .f32) (x5 : Vec F S1x1024 .f32) (x6 : Vec F S1x1024 .f32) (xs0 : Vec F S1024x1024 .f32) (xs1 : Vec F S1024x1 .f32)
include hc0 hc1 x0 x1 x2 x3 x4 x5 x6 xs0 xs1

theorem sout1_C_0_eq :
    sout1_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay3 (k1_pay7 x0) (k1_pay8 x1 x5 x6) (k1_pay9 x3) (k1_pay10 (F := F)) x2 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x512) hz3, View.ld_unit_zero (S := S1x512x1024) hz3, View.ld_unit_zero (S := S1x1024x1) hz3, View.ld_unit_zero (S := S1x1024x1024) hz3, View.ld_unit_zero (S := S1x1024) hz2, View.ld_unit_zero (S := S1024x1024) hz2, View.ld_unit_zero (S := S1024x1) hz2, View.readCov_unit_zero (S := S1024x1024) _ hz2, View.readCov_unit_zero (S := S1024x1) _ hz2]

theorem sout1_C_1_eq :
    sout1_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay2 (k1_pay7 x0) (k1_pay9 x3) (k1_pay10 (F := F)) x2 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x512) hz3, View.ld_unit_zero (S := S1x512x1024) hz3, View.ld_unit_zero (S := S1x1024x1) hz3, View.ld_unit_zero (S := S1x1024x1024) hz3, View.ld_unit_zero (S := S1x1024) hz2, View.ld_unit_zero (S := S1024x1024) hz2, View.ld_unit_zero (S := S1024x1) hz2, View.readCov_unit_zero (S := S1024x1024) _ hz2, View.readCov_unit_zero (S := S1024x1) _ hz2]

theorem out1_C_7_eq :
    out1_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay4 (k1_pay2 (k1_pay7 x0) (k1_pay9 x3) (k1_pay10 (F := F)) x2 xs1) (k1_pay3 (k1_pay7 x0) (k1_pay8 x1 x5 x6) (k1_pay9 x3) (k1_pay10 (F := F)) x2 xs0) x4 := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1024x512) hz3, View.ld_unit_zero (S := S1x512x1024) hz3, View.ld_unit_zero (S := S1x1024x1) hz3, View.ld_unit_zero (S := S1x1024x1024) hz3, View.ld_unit_zero (S := S1x1024) hz2, View.ld_unit_zero (S := S1024x1024) hz2, View.ld_unit_zero (S := S1024x1) hz2, View.readCov_unit_zero (S := S1024x1024) _ hz2, View.readCov_unit_zero (S := S1024x1) _ hz2]

end

end

end Cert.KernelIdeal.Gen

end
-- ==== Proof.KI.R1ValuePoint.lean ====
import proofs.«404741_j62388694941903_3_alg».proof.Proof.KI.R1Pieces

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scr1_first (c : Dev nD) (t : Fin cfg1.N) (h0 : t.val % 16 = 0) :
    (outsAt1 V c t.val t.isLt).2.2 = k1_pay2 (k1_pay7 (iblk1 V c 0 t)) (k1_pay9 (iblk1 V c 3 t)) (k1_pay10 (F := F)) (iblk1 V c 2 t) (k1_pay6 (F := F))
      ∧ (outsAt1 V c t.val t.isLt).2.1 = k1_pay3 (k1_pay7 (iblk1 V c 0 t)) (k1_pay8 (iblk1 V c 1 t) (iblk1 V c 5 t) (iblk1 V c 6 t)) (k1_pay9 (iblk1 V c 3 t)) (k1_pay10 (F := F)) (iblk1 V c 2 t) (k1_pay5 (F := F)) := by
  have h1 : ¬t.val % 16 = 15 := by omega
  rw [outsAt1_A V c t h0 h1]; dsimp only [outs1_A]
  exact ⟨sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
    sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)⟩

theorem scr1_next (c : Dev nD) (t : Fin cfg1.N) (h0 : ¬t.val % 16 = 0) :
    (outsAt1 V c t.val t.isLt).2.2 = k1_pay2 (k1_pay7 (iblk1 V c 0 t)) (k1_pay9 (iblk1 V c 3 t)) (k1_pay10 (F := F)) (iblk1 V c 2 t) (outsAt1 V c (t.val - 1) (Nat.lt_of_le_of_lt (Nat.sub_le _ _) t.isLt)).2.2
      ∧ (outsAt1 V c t.val t.isLt).2.1 = k1_pay3 (k1_pay7 (iblk1 V c 0 t)) (k1_pay8 (iblk1 V c 1 t) (iblk1 V c 5 t) (iblk1 V c 6 t)) (k1_pay9 (iblk1 V c 3 t)) (k1_pay10 (F := F)) (iblk1 V c 2 t) (outsAt1 V c (t.val - 1) (Nat.lt_of_le_of_lt (Nat.sub_le _ _) t.isLt)).2.1 := by
  by_cases h1 : t.val % 16 = 15
  · rw [outsAt1_C V c t h0 h1]; dsimp only [outs1_C]
    exact ⟨sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2⟩
  · rw [outsAt1_B V c t h0 h1]; dsimp only [outs1_B]
    exact ⟨sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2⟩

theorem out1_last (c : Dev nD) (t : Fin cfg1.N) (h15 : t.val % 16 = 15) :
    (outsAt1 V c t.val t.isLt).1 = k1_pay4 (k1_pay2 (k1_pay7 (iblk1 V c 0 t)) (k1_pay9 (iblk1 V c 3 t)) (k1_pay10 (F := F)) (iblk1 V c 2 t) (outsAt1 V c (t.val - 1) (Nat.lt_of_le_of_lt (Nat.sub_le _ _) t.isLt)).2.2) (k1_pay3 (k1_pay7 (iblk1 V c 0 t)) (k1_pay8 (iblk1 V c 1 t) (iblk1 V c 5 t) (iblk1 V c 6 t)) (k1_pay9 (iblk1 V c 3 t)) (k1_pay10 (F := F)) (iblk1 V c 2 t) (outsAt1 V c (t.val - 1) (Nat.lt_of_le_of_lt (Nat.sub_le _ _) t.isLt)).2.1) (iblk1 V c 4 t) := by
  have h0 : ¬t.val % 16 = 0 := by omega
  have h1 : t.val % 16 = 15 := h15
  rw [outsAt1_C V c t h0 h1]; dsimp only [outs1_C]
  exact out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

end Cert.KernelIdeal.Gen

end
-- ==== Proof.KI.R1ValueBlocks.lean ====
import proofs.«404741_j62388694941903_3_alg».proof.Proof.KI.R1Defs
import proofs.«404741_j62388694941903_3_alg».proof.Proof.Online
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

def bOf (t : Fin cfg1.N) : Fin 4 := ⟨t.val / 16, by have := t.isLt; have : cfg1.N = 64 := N_1; omega⟩

def jOf (t : Fin cfg1.N) : Fin 16 := ⟨t.val % 16, by omega⟩

theorem bOf_val (t : Fin cfg1.N) : (bOf t).val = t.val / 16 := rfl
theorem jOf_val (t : Fin cfg1.N) : (jOf t).val = t.val % 16 := rfl

theorem index1_0 : ∀ t : Fin cfg1.N, win1_0.index t 0 = t.val / 16 ∧ win1_0.index t 1 = 0 ∧ win1_0.index t 2 = t.val % 16 :=
  (by decide +kernel : ∀ t : Fin grid1.N, win1_0.index t 0 = t.val / 16 ∧ win1_0.index t 1 = 0 ∧ win1_0.index t 2 = t.val % 16)
theorem index1_1 : ∀ t : Fin cfg1.N, win1_1.index t 0 = t.val / 16 ∧ win1_1.index t 1 = t.val % 16 ∧ win1_1.index t 2 = 0 :=
  (by decide +kernel : ∀ t : Fin grid1.N, win1_1.index t 0 = t.val / 16 ∧ win1_1.index t 1 = t.val % 16 ∧ win1_1.index t 2 = 0)
theorem index1_2 : ∀ t : Fin cfg1.N, win1_2.index t 0 = t.val / 16 ∧ win1_2.index t 1 = 0 ∧ win1_2.index t 2 = 0 :=
  (by decide +kernel : ∀ t : Fin grid1.N, win1_2.index t 0 = t.val / 16 ∧ win1_2.index t 1 = 0 ∧ win1_2.index t 2 = 0)
theorem index1_3 : ∀ t : Fin cfg1.N, win1_3.index t 0 = t.val / 16 ∧ win1_3.index t 1 = 0 ∧ win1_3.index t 2 = 0 :=
  (by decide +kernel : ∀ t : Fin grid1.N, win1_3.index t 0 = t.val / 16 ∧ win1_3.index t 1 = 0 ∧ win1_3.index t 2 = 0)
theorem index1_4 : ∀ t : Fin cfg1.N, win1_4.index t 0 = t.val / 16 ∧ win1_4.index t 1 = 0 ∧ win1_4.index t 2 = 0 :=
  (by decide +kernel : ∀ t : Fin grid1.N, win1_4.index t 0 = t.val / 16 ∧ win1_4.index t 1 = 0 ∧ win1_4.index t 2 = 0)
theorem index1_5 : ∀ t : Fin cfg1.N, win1_5.index t 0 = 0 ∧ win1_5.index t 1 = 0 :=
  (by decide +kernel : ∀ t : Fin grid1.N, win1_5.index t 0 = 0 ∧ win1_5.index t 1 = 0)
theorem index1_6 : ∀ t : Fin cfg1.N, win1_6.index t 0 = 0 ∧ win1_6.index t 1 = 0 :=
  (by decide +kernel : ∀ t : Fin grid1.N, win1_6.index t 0 = 0 ∧ win1_6.index t 1 = 0)
theorem index1_7 : ∀ t : Fin cfg1.N, win1_7.index t 0 = t.val / 16 ∧ win1_7.index t 1 = 0 ∧ win1_7.index t 2 = 0 :=
  (by decide +kernel : ∀ t : Fin grid1.N, win1_7.index t 0 = t.val / 16 ∧ win1_7.index t 1 = 0 ∧ win1_7.index t 2 = 0)

theorem iblk1_0_apply (c : Dev nD) (t : Fin cfg1.N) (y : S1x1024x512.Idx) :
    (iblk1 V c 0 t : Vec F S1x1024x512 .f32) y
      = (V c (Pipeline.arrRef spec1 0) : Vec F S4x1024x8192 .f32) (ix3 (bOf t) (y 1) (Cert.Online.slot (jOf t) (y 2))) := by
  obtain ⟨h0, h1, h2⟩ := index1_0 t
  unfold iblk1
  rw [View.read_apply]
  show V c (Pipeline.arrRef spec1 0) _ = _
  congr 1
  funext a
  apply Fin.ext
  match a with
  | ⟨0, _⟩ => show win1_0.index t 0 * 1 + 1 * (y 0).val = t.val / 16; rw [h0]; have : ((y 0) : Nat) < 1 := (y 0).isLt; omega
  | ⟨1, _⟩ => show win1_0.index t 1 * 1024 + 1 * (y 1).val = (y 1).val; rw [h1]; omega
  | ⟨2, _⟩ => show win1_0.index t 2 * 512 + 1 * (y 2).val = 512 * (t.val % 16) + (y 2).val; rw [h2]; omega

theorem iblk1_1_apply (c : Dev nD) (t : Fin cfg1.N) (y : S1x512x1024.Idx) :
    (iblk1 V c 1 t : Vec F S1x512x1024 .f32) y
      = (V c (Pipeline.arrRef spec1 1) : Vec F S4x8192x1024 .f32) (ix3 (bOf t) (Cert.Online.slot (jOf t) (y 1)) (y 2)) := by
  obtain ⟨h0, h1, h2⟩ := index1_1 t
  unfold iblk1
  rw [View.read_apply]
  show V c (Pipeline.arrRef spec1 1) _ = _
  congr 1
  funext a
  apply Fin.ext
  match a with
  | ⟨0, _⟩ => show win1_1.index t 0 * 1 + 1 * (y 0).val = t.val / 16; rw [h0]; have : ((y 0) : Nat) < 1 := (y 0).isLt; omega
  | ⟨1, _⟩ => show win1_1.index t 1 * 512 + 1 * (y 1).val = 512 * (t.val % 16) + (y 1).val; rw [h1]; omega
  | ⟨2, _⟩ => show win1_1.index t 2 * 1024 + 1 * (y 2).val = (y 2).val; rw [h2]; omega

theorem iblk1_2_apply (c : Dev nD) (t : Fin cfg1.N) (y : S1x1024x1.Idx) :
    (iblk1 V c 2 t : Vec F S1x1024x1 .f32) y
      = (V c (Pipeline.arrRef spec1 2) : Vec F S4x1024x1 .f32) (ix3 (bOf t) (y 1) (y 2)) := by
  obtain ⟨h0, h1, h2⟩ := index1_2 t
  unfold iblk1
  rw [View.read_apply]
  show V c (Pipeline.arrRef spec1 2) _ = _
  congr 1
  funext a
  apply Fin.ext
  match a with
  | ⟨0, _⟩ => show win1_2.index t 0 * 1 + 1 * (y 0).val = t.val / 16; rw [h0]; have : ((y 0) : Nat) < 1 := (y 0).isLt; omega
  | ⟨1, _⟩ => show win1_2.index t 1 * 1024 + 1 * (y 1).val = (y 1).val; rw [h1]; omega
  | ⟨2, _⟩ => show win1_2.index t 2 * 1 + 1 * (y 2).val = (y 2).val; rw [h2]; omega

theorem iblk1_3_apply (c : Dev nD) (t : Fin cfg1.N) (y : S1x1024x1.Idx) :
    (iblk1 V c 3 t : Vec F S1x1024x1 .f32) y
      = (V c (Pipeline.arrRef spec1 3) : Vec F S4x1024x1 .f32) (ix3 (bOf t) (y 1) (y 2)) := by
  obtain ⟨h0, h1, h2⟩ := index1_3 t
  unfold iblk1
  rw [View.read_apply]
  show V c (Pipeline.arrRef spec1 3) _ = _
  congr 1
  funext a
  apply Fin.ext
  match a with
  | ⟨0, _⟩ => show win1_3.index t 0 * 1 + 1 * (y 0).val = t.val / 16; rw [h0]; have : ((y 0) : Nat) < 1 := (y 0).isLt; omega
  | ⟨1, _⟩ => show win1_3.index t 1 * 1024 + 1 * (y 1).val = (y 1).val; rw [h1]; omega
  | ⟨2, _⟩ => show win1_3.index t 2 * 1 + 1 * (y 2).val = (y 2).val; rw [h2]; omega

theorem iblk1_4_apply (c : Dev nD) (t : Fin cfg1.N) (y : S1x1024x1024.Idx) :
    (iblk1 V c 4 t : Vec F S1x1024x1024 .f32) y
      = (V c (Pipeline.arrRef spec1 4) : Vec F S4x1024x1024 .f32) (ix3 (bOf t) (y 1) (y 2)) := by
  obtain ⟨h0, h1, h2⟩ := index1_4 t
  unfold iblk1
  rw [View.read_apply]
  show V c (Pipeline.arrRef spec1 4) _ = _
  congr 1
  funext a
  apply Fin.ext
  match a with
  | ⟨0, _⟩ => show win1_4.index t 0 * 1 + 1 * (y 0).val = t.val / 16; rw [h0]; have : ((y 0) : Nat) < 1 := (y 0).isLt; omega
  | ⟨1, _⟩ => show win1_4.index t 1 * 1024 + 1 * (y 1).val = (y 1).val; rw [h1]; omega
  | ⟨2, _⟩ => show win1_4.index t 2 * 1024 + 1 * (y 2).val = (y 2).val; rw [h2]; omega

theorem iblk1_5_apply (c : Dev nD) (t : Fin cfg1.N) (y : S1x1024.Idx) :
    (iblk1 V c 5 t : Vec F S1x1024 .f32) y = (V c (Pipeline.arrRef spec1 5) : Vec F S1x1024 .f32) (ix2 (y 0) (y 1)) := by
  obtain ⟨h0, h1⟩ := index1_5 t
  unfold iblk1
  rw [View.read_apply]
  show V c (Pipeline.arrRef spec1 5) _ = _
  congr 1
  funext a
  apply Fin.ext
  match a with
  | ⟨0, _⟩ => show win1_5.index t 0 * 1 + 1 * (y 0).val = (y 0).val; rw [h0]; omega
  | ⟨1, _⟩ => show win1_5.index t 1 * 1024 + 1 * (y 1).val = (y 1).val; rw [h1]; omega

theorem iblk1_6_apply (c : Dev nD) (t : Fin cfg1.N) (y : S1x1024.Idx) :
    (iblk1 V c 6 t : Vec F S1x1024 .f32) y = (V c (Pipeline.arrRef spec1 6) : Vec F S1x1024 .f32) (ix2 (y 0) (y 1)) := by
  obtain ⟨h0, h1⟩ := index1_6 t
  unfold iblk1
  rw [View.read_apply]
  show V c (Pipeline.arrRef spec1 6) _ = _
  congr 1
  funext a
  apply Fin.ext
  match a with
  | ⟨0, _⟩ => show win1_6.index t 0 * 1 + 1 * (y 0).val = (y 0).val; rw [h0]; omega
  | ⟨1, _⟩ => show win1_6.index t 1 * 1024 + 1 * (y 1).val = (y 1).val; rw [h1]; omega

end Cert.KernelIdeal.Gen

end
-- ==== Proof.KI.R1ValueReal.lean ====
import proofs.«404741_j62388694941903_3_alg».proof.Proof.Online

noncomputable section

namespace Cert.R1Real

open scoped BigOperators
open Cert

theorem weight_eq_kept (thr : ℝ) (a : Fin 8192 → ℝ) (x : Fin 8192) :
    (if Real.exp (a x - Spec.rowMax a) * (1 / Spec.denom a) < thr then 0
      else Real.exp (a x - Spec.rowMax a) * (1 / Spec.denom a)) = Spec.kept thr a x := by
  have h : Real.exp (a x - Spec.rowMax a) * (1 / Spec.denom a) = Spec.prob a x := Online.prob_mul a x
  rw [h]
  rfl

theorem runTiles_first (f : Fin 8192 → ℝ) (j : Fin 16) (hj : j.val = 0) :
    (0 : ℝ) + ∑ r : Fin 512, f (Online.slot j r) = Online.runTiles f j.val := by
  obtain rfl : j = 0 := Fin.ext hj
  rw [zero_add]
  rfl

theorem runTiles_next (f : Fin 8192 → ℝ) (m : ℕ) (j : Fin 16) (hj : j.val = m + 1) :
    Online.runTiles f m + ∑ r : Fin 512, f (Online.slot j r) = Online.runTiles f j.val := by
  have hm : (m + 1) % 16 = m + 1 := by have := j.isLt; omega
  have e : (⟨(m + 1) % 16, by omega⟩ : Fin 16) = j := Fin.ext (by rw [hj]; exact hm)
  rw [hj, Online.runTiles, e]

theorem out_eq (eps thr : ℝ) (I : Spec.Inputs) (b : Fin 4) (p c : Fin 1024) (hm : Spec.keptMass eps thr I b p ≠ 0) :
    Online.runTiles (fun x => Spec.kept thr (Spec.aff eps I b p) x * Spec.v eps I b x c) 15
        * (1 / Online.runTiles (Spec.kept thr (Spec.aff eps I b p)) 15) + I.feat b p c
      = Spec.out eps thr I b p c := by
  rw [Online.runTiles_last, Online.runTiles_last]
  exact Online.renorm (Spec.kept thr (Spec.aff eps I b p)) (fun x => Spec.v eps I b x c) (Spec.keptMass eps thr I b p)
    (I.feat b p c) hm

end Cert.R1Real

end
-- ==== Proof.KI.R1ValueSteps.lean ====
import proofs.«404741_j62388694941903_3_alg».proof.Proof.KI.R1ValueBlocks
import proofs.«404741_j62388694941903_3_alg».proof.Proof.KI.R1ValueReal
import proofs.«404741_j62388694941903_3_alg».proof.Proof.KI.R1Pay
import proofs.«404741_j62388694941903_3_alg».proof.Proof.Bridge

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert
open scoped BigOperators

theorem l2_val (x0 : Vec Ideal S1x1024x512 .f32) (x2 x3 : Vec Ideal S1x1024x1 .f32) (xs1 : Vec Ideal S1024x1 .f32)
    (af : Fin 1024 → Fin 8192 → ℝ) (j : Fin 16) (L2 : Fin 1024 → ℝ)
    (hx0 : ∀ p r, x0 (ix3 (0 : Fin 1) p r) = ((af p (Online.slot j r) : ℝ) : EReal))
    (hx2 : ∀ p, x2 (ix3 (0 : Fin 1) p (0 : Fin 1)) = ((Spec.rowMax (af p) : ℝ) : EReal))
    (hx3 : ∀ p, x3 (ix3 (0 : Fin 1) p (0 : Fin 1)) = ((Spec.denom (af p) : ℝ) : EReal))
    (hxs1 : ∀ p, xs1 (ix2 p (0 : Fin 1)) = ((L2 p : ℝ) : EReal)) (p : Fin 1024) :
    k1_pay2 (k1_pay7 x0) (k1_pay9 x3) (k1_pay10 (F := Ideal)) x2 xs1 (ix2 p (0 : Fin 1))
      = ((L2 p + ∑ r : Fin 512, Spec.kept Consts.thrR (af p) (Online.slot j r) : ℝ) : EReal) := by
  refine (Pay1.pay2_apply (k1_pay7 x0) (k1_pay9 x3) (k1_pay10 (F := Ideal)) x2
    (A := fun p r => af p (Online.slot j r)) (M := fun p => Spec.rowMax (af p)) (L := fun p => Spec.denom (af p))
    (fun p r => (Pay1.pay7_apply x0 p r).trans (hx0 p r))
    (fun p => (Pay1.pay9_apply x3 p 0).trans (hx3 p))
    (fun p => (Online.denom_pos (af p)).ne')
    (fun p => Pay1.pay10_apply p 0)
    hx2 xs1 hxs1 p).trans ?_
  congr 2
  exact Finset.sum_congr rfl fun r _ => R1Real.weight_eq_kept Consts.thrR (af p) (Online.slot j r)

theorem acc_val (x0 : Vec Ideal S1x1024x512 .f32) (x2 x3 : Vec Ideal S1x1024x1 .f32) (vv : FVec Ideal S512x1024 .f32)
    (xs0 : Vec Ideal S1024x1024 .f32)
    (af : Fin 1024 → Fin 8192 → ℝ) (vf : Fin 8192 → Fin 1024 → ℝ) (j : Fin 16) (Acc : Fin 1024 → Fin 1024 → ℝ)
    (hx0 : ∀ p r, x0 (ix3 (0 : Fin 1) p r) = ((af p (Online.slot j r) : ℝ) : EReal))
    (hx2 : ∀ p, x2 (ix3 (0 : Fin 1) p (0 : Fin 1)) = ((Spec.rowMax (af p) : ℝ) : EReal))
    (hx3 : ∀ p, x3 (ix3 (0 : Fin 1) p (0 : Fin 1)) = ((Spec.denom (af p) : ℝ) : EReal))
    (hvv : ∀ r ch, vv (ix2 r ch) = ((vf (Online.slot j r) ch : ℝ) : EReal))
    (hxs0 : ∀ p ch, xs0 (ix2 p ch) = ((Acc p ch : ℝ) : EReal)) (p ch : Fin 1024) :
    k1_pay3 (k1_pay7 x0) vv (k1_pay9 x3) (k1_pay10 (F := Ideal)) x2 xs0 (ix2 p ch)
      = ((Acc p ch + ∑ r : Fin 512, Spec.kept Consts.thrR (af p) (Online.slot j r) * vf (Online.slot j r) ch : ℝ) : EReal) := by
  refine (Pay1.pay3_apply (k1_pay7 x0) (k1_pay9 x3) (k1_pay10 (F := Ideal)) x2
    (A := fun p r => af p (Online.slot j r)) (M := fun p => Spec.rowMax (af p)) (L := fun p => Spec.denom (af p))
    (fun p r => (Pay1.pay7_apply x0 p r).trans (hx0 p r))
    (fun p => (Pay1.pay9_apply x3 p 0).trans (hx3 p))
    (fun p => (Online.denom_pos (af p)).ne')
    (fun p => Pay1.pay10_apply p 0)
    hx2 vv xs0 (Vv' := fun r ch => vf (Online.slot j r) ch) hvv hxs0 p ch).trans ?_
  congr 2
  exact Finset.sum_congr rfl fun r _ =>
    congrArg (· * vf (Online.slot j r) ch) (R1Real.weight_eq_kept Consts.thrR (af p) (Online.slot j r))

section Blocks

variable (V : (c : Dev nD) → (b : Ref sig .tc) → Buf (Elt Ideal) ((c : Thread nD τ).loc b)) (c : Dev nD)
variable (a : Bridge.Args) (hr : a.IsReal)

include hr in

theorem memv_coe (b : Fin 4) (x : Fin 8192) (ch : Fin 1024) : a.memv (ix3 b x ch) = ((a.inputs.memv b x ch : ℝ) : EReal) :=
  hr.memv (ix3 b x ch)
include hr in
theorem feat_coe (b : Fin 4) (p ch : Fin 1024) : a.feat (ix3 b p ch) = ((a.inputs.feat b p ch : ℝ) : EReal) :=
  hr.feat (ix3 b p ch)
include hr in
theorem gv_coe (ch : Fin 1024) : a.gv (ix1 ch) = ((a.inputs.gv ch : ℝ) : EReal) := hr.gv (ix1 ch)
include hr in
theorem bv_coe (ch : Fin 1024) : a.bv (ix1 ch) = ((a.inputs.bv ch : ℝ) : EReal) := hr.bv (ix1 ch)

variable (haff : (V c (Pipeline.arrRef spec1 0) : Vec Ideal S4x1024x8192 .f32)
      = fun i => ((Spec.aff Consts.epsR a.inputs (i 0) (i 1) (i 2) : ℝ) : EReal))
  (hmemv : (V c (Pipeline.arrRef spec1 1) : Vec Ideal S4x8192x1024 .f32) = a.memv)
  (hmax : (V c (Pipeline.arrRef spec1 2) : Vec Ideal S4x1024x1 .f32)
      = fun i => ((Spec.rowMax (Spec.aff Consts.epsR a.inputs (i 0) (i 1)) : ℝ) : EReal))
  (hsum : (V c (Pipeline.arrRef spec1 3) : Vec Ideal S4x1024x1 .f32)
      = fun i => ((Spec.denom (Spec.aff Consts.epsR a.inputs (i 0) (i 1)) : ℝ) : EReal))
  (hfeat : (V c (Pipeline.arrRef spec1 4) : Vec Ideal S4x1024x1024 .f32) = a.feat)
  (hgv : ∀ ch : Fin 1024, (V c (Pipeline.arrRef spec1 5) : Vec Ideal S1x1024 .f32) (ix2 (0 : Fin 1) ch) = a.gv (ix1 ch))
  (hbv : ∀ ch : Fin 1024, (V c (Pipeline.arrRef spec1 6) : Vec Ideal S1x1024 .f32) (ix2 (0 : Fin 1) ch) = a.bv (ix1 ch))

include haff in
theorem x0_val (t : Fin cfg1.N) (p : Fin 1024) (r : Fin 512) :
    (iblk1 V c 0 t : Vec Ideal S1x1024x512 .f32) (ix3 (0 : Fin 1) p r)
      = ((Spec.aff Consts.epsR a.inputs (bOf t) p (Online.slot (jOf t) r) : ℝ) : EReal) := by
  rw [iblk1_0_apply, haff]
  rfl

include hmemv hr in
theorem x1_val (t : Fin cfg1.N) (r : Fin 512) (ch : Fin 1024) :
    (iblk1 V c 1 t : Vec Ideal S1x512x1024 .f32) (ix3 (0 : Fin 1) r ch)
      = ((a.inputs.memv (bOf t) (Online.slot (jOf t) r) ch : ℝ) : EReal) := by
  rw [iblk1_1_apply, hmemv]
  exact memv_coe a hr _ _ _

include hmax in
theorem x2_val (t : Fin cfg1.N) (p : Fin 1024) :
    (iblk1 V c 2 t : Vec Ideal S1x1024x1 .f32) (ix3 (0 : Fin 1) p (0 : Fin 1))
      = ((Spec.rowMax (Spec.aff Consts.epsR a.inputs (bOf t) p) : ℝ) : EReal) := by
  rw [iblk1_2_apply, hmax]
  rfl

include hsum in
theorem x3_val (t : Fin cfg1.N) (p : Fin 1024) :
    (iblk1 V c 3 t : Vec Ideal S1x1024x1 .f32) (ix3 (0 : Fin 1) p (0 : Fin 1))
      = ((Spec.denom (Spec.aff Consts.epsR a.inputs (bOf t) p) : ℝ) : EReal) := by
  rw [iblk1_3_apply, hsum]
  rfl

include hfeat hr in
theorem x4_val (t : Fin cfg1.N) (p ch : Fin 1024) :
    (iblk1 V c 4 t : Vec Ideal S1x1024x1024 .f32) (ix3 (0 : Fin 1) p ch) = ((a.inputs.feat (bOf t) p ch : ℝ) : EReal) := by
  rw [iblk1_4_apply, hfeat]
  exact feat_coe a hr _ _ _

include hgv hr in
theorem x5_val (t : Fin cfg1.N) (ch : Fin 1024) :
    (iblk1 V c 5 t : Vec Ideal S1x1024 .f32) (ix2 (0 : Fin 1) ch) = ((a.inputs.gv ch : ℝ) : EReal) := by
  rw [iblk1_5_apply]
  exact (hgv ch).trans (gv_coe a hr ch)

include hbv hr in
theorem x6_val (t : Fin cfg1.N) (ch : Fin 1024) :
    (iblk1 V c 6 t : Vec Ideal S1x1024 .f32) (ix2 (0 : Fin 1) ch) = ((a.inputs.bv ch : ℝ) : EReal) := by
  rw [iblk1_6_apply]
  exact (hbv ch).trans (bv_coe a hr ch)

include hmemv hgv hbv hr in

theorem v_val (t : Fin cfg1.N) (r : Fin 512) (ch : Fin 1024) :
    k1_pay8 (iblk1 V c 1 t : Vec Ideal S1x512x1024 .f32) (iblk1 V c 5 t : Vec Ideal S1x1024 .f32) (iblk1 V c 6 t : Vec Ideal S1x1024 .f32) (ix2 r ch)
      = ((Spec.v Consts.epsR a.inputs (bOf t) (Online.slot (jOf t) r) ch : ℝ) : EReal) :=
  Pay1.pay8_apply _ _ _ (Vv := fun r ch => a.inputs.memv (bOf t) (Online.slot (jOf t) r) ch) (G := a.inputs.gv) (B := a.inputs.bv)
    (fun r ch => x1_val V c a hr hmemv t r ch) (fun ch => x5_val V c a hr hgv t ch) (fun ch => x6_val V c a hr hbv t ch) r ch

abbrev keptF (b : Fin 4) (p : Fin 1024) : Fin 8192 → ℝ := Spec.kept Consts.thrR (Spec.aff Consts.epsR a.inputs b p)

abbrev wvF (b : Fin 4) (p ch : Fin 1024) : Fin 8192 → ℝ :=
  fun x => Spec.kept Consts.thrR (Spec.aff Consts.epsR a.inputs b p) x * Spec.v Consts.epsR a.inputs b x ch

include haff hmax hsum in

theorem l2_point (t : Fin cfg1.N) (xs1 : Vec Ideal S1024x1 .f32) (L2 : Fin 1024 → ℝ)
    (hxs1 : ∀ p, xs1 (ix2 p (0 : Fin 1)) = ((L2 p : ℝ) : EReal)) (p : Fin 1024) :
    k1_pay2 (k1_pay7 (iblk1 V c 0 t : Vec Ideal S1x1024x512 .f32)) (k1_pay9 (iblk1 V c 3 t : Vec Ideal S1x1024x1 .f32))
        (k1_pay10 (F := Ideal)) (iblk1 V c 2 t : Vec Ideal S1x1024x1 .f32) xs1 (ix2 p (0 : Fin 1))
      = ((L2 p + ∑ r : Fin 512, keptF a (bOf t) p (Online.slot (jOf t) r) : ℝ) : EReal) :=
  l2_val _ _ _ xs1 (fun p => Spec.aff Consts.epsR a.inputs (bOf t) p) (jOf t) L2
    (fun p r => x0_val V c a haff t p r) (fun p => x2_val V c a hmax t p) (fun p => x3_val V c a hsum t p) hxs1 p

include haff hmax hsum hmemv hgv hbv hr in

theorem acc_point (t : Fin cfg1.N) (xs0 : Vec Ideal S1024x1024 .f32) (Acc : Fin 1024 → Fin 1024 → ℝ)
    (hxs0 : ∀ p ch, xs0 (ix2 p ch) = ((Acc p ch : ℝ) : EReal)) (p ch : Fin 1024) :
    k1_pay3 (k1_pay7 (iblk1 V c 0 t : Vec Ideal S1x1024x512 .f32))
        (k1_pay8 (iblk1 V c 1 t : Vec Ideal S1x512x1024 .f32) (iblk1 V c 5 t : Vec Ideal S1x1024 .f32) (iblk1 V c 6 t : Vec Ideal S1x1024 .f32))
        (k1_pay9 (iblk1 V c 3 t : Vec Ideal S1x1024x1 .f32)) (k1_pay10 (F := Ideal)) (iblk1 V c 2 t : Vec Ideal S1x1024x1 .f32) xs0 (ix2 p ch)
      = ((Acc p ch + ∑ r : Fin 512, wvF a (bOf t) p ch (Online.slot (jOf t) r) : ℝ) : EReal) :=
  acc_val _ _ _ _ xs0 (fun p => Spec.aff Consts.epsR a.inputs (bOf t) p) (fun x ch => Spec.v Consts.epsR a.inputs (bOf t) x ch) (jOf t) Acc
    (fun p r => x0_val V c a haff t p r) (fun p => x2_val V c a hmax t p) (fun p => x3_val V c a hsum t p)
    (fun r ch => v_val V c a hr hmemv hgv hbv t r ch) hxs0 p ch

include haff hmax hsum in

theorem l2_first (t : Fin cfg1.N) (h0 : t.val % 16 = 0) (p : Fin 1024) :
    k1_pay2 (k1_pay7 (iblk1 V c 0 t : Vec Ideal S1x1024x512 .f32)) (k1_pay9 (iblk1 V c 3 t : Vec Ideal S1x1024x1 .f32))
        (k1_pay10 (F := Ideal)) (iblk1 V c 2 t : Vec Ideal S1x1024x1 .f32) (k1_pay6 (F := Ideal)) (ix2 p (0 : Fin 1))
      = ((Online.runTiles (keptF a (bOf t) p) (t.val % 16) : ℝ) : EReal) := by
  refine (l2_point V c a haff hmax hsum t (k1_pay6 (F := Ideal)) (fun _ => 0) (fun p => Pay1.pay6_apply p 0) p).trans ?_
  exact congrArg _ (R1Real.runTiles_first (keptF a (bOf t) p) (jOf t) h0)

include haff hmax hsum hmemv hgv hbv hr in

theorem acc_first (t : Fin cfg1.N) (h0 : t.val % 16 = 0) (p ch : Fin 1024) :
    k1_pay3 (k1_pay7 (iblk1 V c 0 t : Vec Ideal S1x1024x512 .f32))
        (k1_pay8 (iblk1 V c 1 t : Vec Ideal S1x512x1024 .f32) (iblk1 V c 5 t : Vec Ideal S1x1024 .f32) (iblk1 V c 6 t : Vec Ideal S1x1024 .f32))
        (k1_pay9 (iblk1 V c 3 t : Vec Ideal S1x1024x1 .f32)) (k1_pay10 (F := Ideal)) (iblk1 V c 2 t : Vec Ideal S1x1024x1 .f32)
        (k1_pay5 (F := Ideal)) (ix2 p ch)
      = ((Online.runTiles (wvF a (bOf t) p ch) (t.val % 16) : ℝ) : EReal) := by
  refine (acc_point V c a hr haff hmemv hmax hsum hgv hbv t (k1_pay5 (F := Ideal)) (fun _ _ => 0) (fun p ch => Pay1.pay5_apply p ch) p ch).trans ?_
  exact congrArg _ (R1Real.runTiles_first (wvF a (bOf t) p ch) (jOf t) h0)

include haff hmax hsum in

theorem l2_next (t : Fin cfg1.N) (h0 : ¬t.val % 16 = 0) (xs1 : Vec Ideal S1024x1 .f32)
    (hxs1 : ∀ p, xs1 (ix2 p (0 : Fin 1)) = ((Online.runTiles (keptF a (bOf t) p) ((t.val - 1) % 16) : ℝ) : EReal)) (p : Fin 1024) :
    k1_pay2 (k1_pay7 (iblk1 V c 0 t : Vec Ideal S1x1024x512 .f32)) (k1_pay9 (iblk1 V c 3 t : Vec Ideal S1x1024x1 .f32))
        (k1_pay10 (F := Ideal)) (iblk1 V c 2 t : Vec Ideal S1x1024x1 .f32) xs1 (ix2 p (0 : Fin 1))
      = ((Online.runTiles (keptF a (bOf t) p) (t.val % 16) : ℝ) : EReal) := by
  refine (l2_point V c a haff hmax hsum t xs1 _ hxs1 p).trans ?_
  exact congrArg _ (R1Real.runTiles_next (keptF a (bOf t) p) ((t.val - 1) % 16) (jOf t) (by show t.val % 16 = _; omega))

include haff hmax hsum hmemv hgv hbv hr in

theorem acc_next (t : Fin cfg1.N) (h0 : ¬t.val % 16 = 0) (xs0 : Vec Ideal S1024x1024 .f32)
    (hxs0 : ∀ p ch, xs0 (ix2 p ch) = ((Online.runTiles (wvF a (bOf t) p ch) ((t.val - 1) % 16) : ℝ) : EReal)) (p ch : Fin 1024) :
    k1_pay3 (k1_pay7 (iblk1 V c 0 t : Vec Ideal S1x1024x512 .f32))
        (k1_pay8 (iblk1 V c 1 t : Vec Ideal S1x512x1024 .f32) (iblk1 V c 5 t : Vec Ideal S1x1024 .f32) (iblk1 V c 6 t : Vec Ideal S1x1024 .f32))
        (k1_pay9 (iblk1 V c 3 t : Vec Ideal S1x1024x1 .f32)) (k1_pay10 (F := Ideal)) (iblk1 V c 2 t : Vec Ideal S1x1024x1 .f32) xs0 (ix2 p ch)
      = ((Online.runTiles (wvF a (bOf t) p ch) (t.val % 16) : ℝ) : EReal) := by
  refine (acc_point V c a hr haff hmemv hmax hsum hgv hbv t xs0 _ hxs0 p ch).trans ?_
  exact congrArg _ (R1Real.runTiles_next (wvF a (bOf t) p ch) ((t.val - 1) % 16) (jOf t) (by show t.val % 16 = _; omega))

include haff hmax hsum hmemv hgv hbv hfeat hr in

theorem out_point (hm : ∀ b p, Spec.keptMass Consts.epsR Consts.thrR a.inputs b p ≠ 0)
    (t : Fin cfg1.N) (h15 : t.val % 16 = 15) (xs0 : Vec Ideal S1024x1024 .f32) (xs1 : Vec Ideal S1024x1 .f32)
    (hxs1 : ∀ p, xs1 (ix2 p (0 : Fin 1)) = ((Online.runTiles (keptF a (bOf t) p) ((t.val - 1) % 16) : ℝ) : EReal))
    (hxs0 : ∀ p ch, xs0 (ix2 p ch) = ((Online.runTiles (wvF a (bOf t) p ch) ((t.val - 1) % 16) : ℝ) : EReal)) (p ch : Fin 1024) :
    k1_pay4
        (k1_pay2 (k1_pay7 (iblk1 V c 0 t : Vec Ideal S1x1024x512 .f32)) (k1_pay9 (iblk1 V c 3 t : Vec Ideal S1x1024x1 .f32))
          (k1_pay10 (F := Ideal)) (iblk1 V c 2 t : Vec Ideal S1x1024x1 .f32) xs1)
        (k1_pay3 (k1_pay7 (iblk1 V c 0 t : Vec Ideal S1x1024x512 .f32))
          (k1_pay8 (iblk1 V c 1 t : Vec Ideal S1x512x1024 .f32) (iblk1 V c 5 t : Vec Ideal S1x1024 .f32) (iblk1 V c 6 t : Vec Ideal S1x1024 .f32))
          (k1_pay9 (iblk1 V c 3 t : Vec Ideal S1x1024x1 .f32)) (k1_pay10 (F := Ideal)) (iblk1 V c 2 t : Vec Ideal S1x1024x1 .f32) xs0)
        (iblk1 V c 4 t : Vec Ideal S1x1024x1024 .f32) (ix3 (0 : Fin 1) p ch)
      = ((Spec.out Consts.epsR Consts.thrR a.inputs (bOf t) p ch : ℝ) : EReal) := by
  have h0 : ¬t.val % 16 = 0 := by omega
  have hL2 : ∀ p, Online.runTiles (keptF a (bOf t) p) 15 ≠ 0 := fun p => by
    rw [Online.runTiles_last]; exact hm (bOf t) p
  refine (Pay1.pay4_apply _ _ _ (L2 := fun p => Online.runTiles (keptF a (bOf t) p) 15)
    (Acc := fun p ch => Online.runTiles (wvF a (bOf t) p ch) 15) (X := fun p ch => a.inputs.feat (bOf t) p ch)
    (fun p => by have := l2_next V c a haff hmax hsum t h0 xs1 hxs1 p; rwa [h15] at this) hL2
    (fun p ch => by have := acc_next V c a hr haff hmemv hmax hsum hgv hbv t h0 xs0 hxs0 p ch; rwa [h15] at this)
    (fun p ch => x4_val V c a hr hfeat t p ch) p ch).trans ?_
  exact congrArg _ (R1Real.out_eq Consts.epsR Consts.thrR a.inputs (bOf t) p ch (hm (bOf t) p))

end Blocks

end Cert.KernelIdeal.Gen

end
-- ==== Proof.KI.R1ValueInv.lean ====
import proofs.«404741_j62388694941903_3_alg».proof.Proof.KI.R1ValuePoint
import proofs.«404741_j62388694941903_3_alg».proof.Proof.KI.R1ValueSteps

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert
open scoped BigOperators

variable (V : (c : Dev nD) → (b : Ref sig .tc) → Buf (Elt Ideal) ((c : Thread nD τ).loc b)) (c : Dev nD)
variable (a : Bridge.Args) (hr : a.IsReal)

def Inv1 (n : ℕ) (hn : n < cfg1.N) : Prop :=
  (∀ p : Fin 1024, ((outsAt1 V c n hn).2.2 : Vec Ideal S1024x1 .f32) (ix2 p (0 : Fin 1))
      = ((Online.runTiles (keptF a (bOf ⟨n, hn⟩) p) (n % 16) : ℝ) : EReal))
  ∧ (∀ p ch : Fin 1024, ((outsAt1 V c n hn).2.1 : Vec Ideal S1024x1024 .f32) (ix2 p ch)
      = ((Online.runTiles (wvF a (bOf ⟨n, hn⟩) p ch) (n % 16) : ℝ) : EReal))

variable (haff : (V c (Pipeline.arrRef spec1 0) : Vec Ideal S4x1024x8192 .f32)
      = fun i => ((Spec.aff Consts.epsR a.inputs (i 0) (i 1) (i 2) : ℝ) : EReal))
  (hmemv : (V c (Pipeline.arrRef spec1 1) : Vec Ideal S4x8192x1024 .f32) = a.memv)
  (hmax : (V c (Pipeline.arrRef spec1 2) : Vec Ideal S4x1024x1 .f32)
      = fun i => ((Spec.rowMax (Spec.aff Consts.epsR a.inputs (i 0) (i 1)) : ℝ) : EReal))
  (hsum : (V c (Pipeline.arrRef spec1 3) : Vec Ideal S4x1024x1 .f32)
      = fun i => ((Spec.denom (Spec.aff Consts.epsR a.inputs (i 0) (i 1)) : ℝ) : EReal))
  (hfeat : (V c (Pipeline.arrRef spec1 4) : Vec Ideal S4x1024x1024 .f32) = a.feat)
  (hgv : ∀ ch : Fin 1024, (V c (Pipeline.arrRef spec1 5) : Vec Ideal S1x1024 .f32) (ix2 (0 : Fin 1) ch) = a.gv (ix1 ch))
  (hbv : ∀ ch : Fin 1024, (V c (Pipeline.arrRef spec1 6) : Vec Ideal S1x1024 .f32) (ix2 (0 : Fin 1) ch) = a.bv (ix1 ch))

include hr haff hmemv hmax hsum hgv hbv in

theorem inv1 : ∀ (n : ℕ) (hn : n < cfg1.N), Inv1 V c a n hn := by
  intro n
  induction n with
  | zero =>
    intro hn
    obtain ⟨e1, e0⟩ := scr1_first V c ⟨0, hn⟩ rfl
    exact ⟨fun p => (congrFun e1 _).trans (l2_first V c a haff hmax hsum ⟨0, hn⟩ rfl p),
      fun p ch => (congrFun e0 _).trans (acc_first V c a hr haff hmemv hmax hsum hgv hbv ⟨0, hn⟩ rfl p ch)⟩
  | succ n ih =>
    intro hn
    by_cases h0 : (n + 1) % 16 = 0
    · obtain ⟨e1, e0⟩ := scr1_first V c ⟨n + 1, hn⟩ h0
      exact ⟨fun p => (congrFun e1 _).trans (l2_first V c a haff hmax hsum ⟨n + 1, hn⟩ h0 p),
        fun p ch => (congrFun e0 _).trans (acc_first V c a hr haff hmemv hmax hsum hgv hbv ⟨n + 1, hn⟩ h0 p ch)⟩
    · obtain ⟨e1, e0⟩ := scr1_next V c ⟨n + 1, hn⟩ h0
      have ihn := ih (Nat.lt_of_succ_lt hn)
      have hb : bOf ⟨n, Nat.lt_of_succ_lt hn⟩ = bOf ⟨n + 1, hn⟩ := Fin.ext (by show n / 16 = (n + 1) / 16; omega)
      have i1 : ∀ p : Fin 1024, ((outsAt1 V c n (Nat.lt_of_succ_lt hn)).2.2 : Vec Ideal S1024x1 .f32) (ix2 p (0 : Fin 1))
          = ((Online.runTiles (keptF a (bOf ⟨n + 1, hn⟩) p) (n % 16) : ℝ) : EReal) := fun p => by
        have := ihn.1 p; rw [hb] at this; exact this
      have i0 : ∀ p ch : Fin 1024, ((outsAt1 V c n (Nat.lt_of_succ_lt hn)).2.1 : Vec Ideal S1024x1024 .f32) (ix2 p ch)
          = ((Online.runTiles (wvF a (bOf ⟨n + 1, hn⟩) p ch) (n % 16) : ℝ) : EReal) := fun p ch => by
        have := ihn.2 p ch; rw [hb] at this; exact this
      exact ⟨fun p => (congrFun e1 _).trans (l2_next V c a haff hmax hsum ⟨n + 1, hn⟩ h0 _ i1 p),
        fun p ch => (congrFun e0 _).trans (acc_next V c a hr haff hmemv hmax hsum hgv hbv ⟨n + 1, hn⟩ h0 _ i0 p ch)⟩

include hr haff hmemv hmax hsum hfeat hgv hbv in

theorem out1_val (hm : ∀ b p, Spec.keptMass Consts.epsR Consts.thrR a.inputs b p ≠ 0)
    (t : Fin cfg1.N) (h15 : t.val % 16 = 15) (p ch : Fin 1024) :
    ((outsAt1 V c t.val t.isLt).1 : Vec Ideal S1x1024x1024 .f32) (ix3 (0 : Fin 1) p ch)
      = ((Spec.out Consts.epsR Consts.thrR a.inputs (bOf t) p ch : ℝ) : EReal) := by
  have e := out1_last V c t h15
  have hlt : t.val - 1 < cfg1.N := Nat.lt_of_le_of_lt (Nat.sub_le _ _) t.isLt
  have ihn := inv1 V c a hr haff hmemv hmax hsum hgv hbv (t.val - 1) hlt
  have hb : bOf ⟨t.val - 1, hlt⟩ = bOf t := Fin.ext (by show (t.val - 1) / 16 = t.val / 16; omega)
  exact (congrFun e _).trans (out_point V c a hr haff hmemv hmax hsum hfeat hgv hbv hm t h15 _ _
    (fun p => by have := ihn.1 p; rw [hb] at this; exact this)
    (fun p ch => by have := ihn.2 p ch; rw [hb] at this; exact this) p ch)

end Cert.KernelIdeal.Gen

end
-- ==== Proof.KI.R1ValueOut.lean ====
import proofs.«404741_j62388694941903_3_alg».proof.Proof.KI.R1Frame
import proofs.«404741_j62388694941903_3_alg».proof.Proof.KI.R1ValueBlocks
import proofs.«404741_j62388694941903_3_alg».proof.Proof.Bridge
import proofs.«404741_j62388694941903_3_alg».proof.Proof.Consts
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert

section AnyInstance
variable {F : FTy → Type} [FloatOps F]

theorem xsize1_7 : ∀ t : Fin cfg1.N, win1_7.xsize (grid1.coords t) 0 = 1 ∧ win1_7.xsize (grid1.coords t) 1 = 1024 ∧ win1_7.xsize (grid1.coords t) 2 = 1024 :=
  (by decide +kernel : ∀ t : Fin grid1.N, win1_7.xsize (grid1.coords t) 0 = 1 ∧ win1_7.xsize (grid1.coords t) 1 = 1024 ∧ win1_7.xsize (grid1.coords t) 2 = 1024)

theorem blk1_7_read (c : Dev nD) (G : Buf (Elt F) ((cfg1.win 7).arr.view.loc (c.tc : Thread nD τ))) (t : Fin cfg1.N) (y : S1x1024x1024.Idx) :
    (((cfg1.win 7).blk t).view.read (Elt F) G : Vec F S1x1024x1024 .f32) y = (G : Vec F S4x1024x1024 .f32) (ix3 (bOf t) (y 1) (y 2)) := by
  obtain ⟨h0, h1, h2⟩ := index1_7 t
  rw [View.read_apply]
  show G _ = _
  congr 1
  funext a
  apply Fin.ext
  match a with
  | ⟨0, _⟩ => show win1_7.index t 0 * 1 + 1 * (y 0).val = t.val / 16; rw [h0]; have : ((y 0) : Nat) < 1 := (y 0).isLt; omega
  | ⟨1, _⟩ => show win1_7.index t 1 * 1024 + 1 * (y 1).val = (y 1).val; rw [h1]; omega
  | ⟨2, _⟩ => show win1_7.index t 2 * 1024 + 1 * (y 2).val = (y 2).val; rw [h2]; omega

theorem cover1_7 (c : Dev nD) (i : ((cfg1.win 7).arr.view.loc (c.tc : Thread nD τ)).2.ty.Idx) :
    ∃ t : Fin cfg1.N, (cfg1.win 7).flush t = true ∧ i ∈ ((cfg1.win 7).blk t).view.set := by
  have hN : cfg1.N = 64 := N_1
  have hi0 : ((i 0 : Fin _) : Nat) < 4 := (i 0).isLt
  have hi1 : ((i 1 : Fin _) : Nat) < 1024 := (i 1).isLt
  have hi2 : ((i 2 : Fin _) : Nat) < 1024 := (i 2).isLt
  refine ⟨⟨16 * (i 0 : Nat) + 15, by omega⟩, (flush1_7 _).mpr (by show (16 * (i 0 : Nat) + 15) % 16 = 15; omega), ?_⟩
  generalize ht : (⟨16 * (i 0 : Nat) + 15, by omega⟩ : Fin cfg1.N) = t
  have htv : t.val = 16 * (i 0 : Nat) + 15 := by rw [← ht]
  obtain ⟨h0, h1, h2⟩ := index1_7 t
  obtain ⟨x0, x1, x2⟩ := xsize1_7 t
  show i ∈ ((View.whole main_v7).slice (win1_7.rect t)).set
  rw [View.set_slice_whole, Rect.mem_set_unit]
  intro a
  match a with
  | ⟨0, _⟩ =>
    show win1_7.index t 0 * win1_7.size 0 ≤ (i 0 : Nat) ∧ (i 0 : Nat) < win1_7.index t 0 * win1_7.size 0 + win1_7.xsize (grid1.coords t) 0
    rw [h0, x0, show win1_7.size 0 = 1 from rfl]; omega
  | ⟨1, _⟩ =>
    show win1_7.index t 1 * win1_7.size 1 ≤ (i 1 : Nat) ∧ (i 1 : Nat) < win1_7.index t 1 * win1_7.size 1 + win1_7.xsize (grid1.coords t) 1
    rw [h1, x1]; omega
  | ⟨2, _⟩ =>
    show win1_7.index t 2 * win1_7.size 2 ≤ (i 2 : Nat) ∧ (i 2 : Nat) < win1_7.index t 2 * win1_7.size 2 + win1_7.xsize (grid1.coords t) 2
    rw [h2, x2]; omega

end AnyInstance

theorem result_ix3 (a : Bridge.Args) (eps thr : ℝ) (b : Fin 4) (p ch : Fin 1024) :
    a.result eps thr (ix3 b p ch) = ((Spec.out eps thr a.inputs b p ch : ℝ) : EReal) := rfl

theorem out_arr_of (V : (c : Dev nD) → (b : Ref sig .tc) → Buf (Elt Ideal) ((c : Thread nD τ).loc b)) (c : Dev nD) (a : Bridge.Args)
    (hout : ∀ t : Fin cfg1.N, t.val % 16 = 15 → ∀ p ch : Fin 1024,
      ((outsAt1 V c t.val t.isLt).1 : Vec Ideal S1x1024x1024 .f32) (ix3 (0 : Fin 1) p ch)
        = ((Spec.out Consts.epsR Consts.thrR a.inputs (bOf t) p ch : ℝ) : EReal)) :
    (dat1 V c).arrAt 7 cfg1.N = a.result Consts.epsR Consts.thrR := by
  refine (dat1 V c).arrAt_eq_of_cover 7 (a.result Consts.epsR Consts.thrR) (fun t hf => ?_) (cover1_7 c)
  funext y
  rw [blk1_7_read c]
  show (cfg1.win 7).cut (grid1.coords t) ((dat1 V c).after 7 t) y = _
  rw [after1_7]
  have hy : y = ix3 (0 : Fin 1) (y 1) (y 2) := by
    funext d
    match d with
    | ⟨0, _⟩ => exact Subsingleton.elim (α := Fin 1) _ _
    | ⟨1, _⟩ => rfl
    | ⟨2, _⟩ => rfl
  show ((outsAt1 V c t.val t.isLt).1 : Vec Ideal S1x1024x1024 .f32) y = _
  rw [hy]
  exact hout t ((flush1_7 t).mp hf) (y 1) (y 2)

end Cert.KernelIdeal.Gen

end
-- ==== Proof.KI.R1Value.lean ====
import proofs.«404741_j62388694941903_3_alg».proof.Proof.KI.R1ValueInv
import proofs.«404741_j62388694941903_3_alg».proof.Proof.KI.R1ValueOut

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert

theorem out_arr (V : (c : Dev nD) → (b : Ref sig .tc) → Buf (Elt Ideal) ((c : Thread nD τ).loc b)) (c : Dev nD)
    (a : Bridge.Args) (hr : a.IsReal)
    (haff : (V c (Pipeline.arrRef spec1 0) : Vec Ideal S4x1024x8192 .f32)
      = fun i => ((Spec.aff Consts.epsR a.inputs (i 0) (i 1) (i 2) : ℝ) : EReal))
    (hmemv : (V c (Pipeline.arrRef spec1 1) : Vec Ideal S4x8192x1024 .f32) = a.memv)
    (hmax : (V c (Pipeline.arrRef spec1 2) : Vec Ideal S4x1024x1 .f32)
      = fun i => ((Spec.rowMax (Spec.aff Consts.epsR a.inputs (i 0) (i 1)) : ℝ) : EReal))
    (hsum : (V c (Pipeline.arrRef spec1 3) : Vec Ideal S4x1024x1 .f32)
      = fun i => ((Spec.denom (Spec.aff Consts.epsR a.inputs (i 0) (i 1)) : ℝ) : EReal))
    (hfeat : (V c (Pipeline.arrRef spec1 4) : Vec Ideal S4x1024x1024 .f32) = a.feat)
    (hgv : ∀ j : Fin 1024, (V c (Pipeline.arrRef spec1 5) : Vec Ideal S1x1024 .f32) (ix2 (0 : Fin 1) j) = a.gv (ix1 j))
    (hbv : ∀ j : Fin 1024, (V c (Pipeline.arrRef spec1 6) : Vec Ideal S1x1024 .f32) (ix2 (0 : Fin 1) j) = a.bv (ix1 j))
    (hm : ∀ b p, Spec.keptMass Consts.epsR Consts.thrR a.inputs b p ≠ 0) :
    (dat1 V c).arrAt 7 cfg1.N = a.result Consts.epsR Consts.thrR :=
  out_arr_of V c a fun t h15 p ch => out1_val V c a hr haff hmemv hmax hsum hfeat hgv hbv hm t h15 p ch

end Cert.KernelIdeal.Gen

end
-- ==== Proof.KI.Result.lean ====
import proofs.«404741_j62388694941903_3_alg».proof.Proof.KI.Entry
import proofs.«404741_j62388694941903_3_alg».proof.Proof.KI.R0ValueInv
import proofs.«404741_j62388694941903_3_alg».proof.Proof.KI.R1Value

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem result_eq (c : Dev nD) (hr : (argsOf m c).IsReal)
    (hm : ∀ b p, Cert.Spec.keptMass Cert.Consts.epsR Cert.Consts.thrR (argsOf m c).inputs b p ≠ 0) :
    (dat1 (V2 m ρ) c).arrAt 7 cfg1.N = (argsOf m c).result Cert.Consts.epsR Cert.Consts.thrR :=
  out_arr (V2 m ρ) c (argsOf m c) hr
    (e1_aff m ρ c (aff_arr (V1 m ρ) c (argsOf m c) hr (e0_feat m ρ c) (e0_memk m ρ c) (e0_memc m ρ c)
      (e0_gq m ρ c) (e0_bq m ρ c) (e0_gk m ρ c) (e0_bk m ρ c)))
    (e1_memv m ρ c)
    (e1_max m ρ c (max_arr (V1 m ρ) c (argsOf m c) hr (e0_feat m ρ c) (e0_memk m ρ c) (e0_memc m ρ c)
      (e0_gq m ρ c) (e0_bq m ρ c) (e0_gk m ρ c) (e0_bk m ρ c)))
    (e1_sum m ρ c (sum_arr (V1 m ρ) c (argsOf m c) hr (e0_feat m ρ c) (e0_memk m ρ c) (e0_memc m ρ c)
      (e0_gq m ρ c) (e0_bq m ρ c) (e0_gk m ρ c) (e0_bk m ρ c)))
    (e1_feat m ρ c) (e1_gv m ρ c) (e1_bv m ρ c) hm

end Cert.KernelIdeal.Hand

end
-- ==== Proof.RefRun.lean ====
import proofs.«404741_j62388694941903_3_alg».proof.Proof.Gen.ReferenceIdeal.Run
import proofs.«404741_j62388694941903_3_alg».proof.Proof.Gen.ReferenceIdeal.Read
-- ==== Proof.RefLNq.lean ====
import proofs.«404741_j62388694941903_3_alg».proof.Proof.RefRun
import proofs.«404741_j62388694941903_3_alg».proof.Proof.Bridge
import proofs.«404741_j62388694941903_3_alg».proof.Proof.CoeOps
import proofs.«404741_j62388694941903_3_alg».proof.Proof.Consts

noncomputable section

namespace Cert.RefValue

open Idealize.ShloMosaic Idealize.ShloMosaic.ValueIdx Cert.ReferenceIdeal Cert.ReferenceIdeal.Read
open scoped BigOperators

theorem feat_at (a : Cert.Bridge.Args) (hr : a.IsReal) (b : Fin 4) (x : Fin 1024) (c : Fin 1024) :
    a.feat (ix3 b x c) = ((a.inputs.feat b x c : ℝ) : EReal) := hr.feat _
theorem gq_at (a : Cert.Bridge.Args) (hr : a.IsReal) (c : Fin 1024) :
    a.gq (ix1 c) = ((a.inputs.gq c : ℝ) : EReal) := hr.gq _
theorem bq_at (a : Cert.Bridge.Args) (hr : a.IsReal) (c : Fin 1024) :
    a.bq (ix1 c) = ((a.inputs.bq c : ℝ) : EReal) := hr.bq _

theorem q_idx_sum (b : Fin 4) (x : Fin 1024) (k : Fin 1024) : idx_main_v0 (ix2 b x) k = ix3 b x k := by
  funext d; match d with | ⟨0, _⟩ => rfl | ⟨1, _⟩ => rfl | ⟨2, _⟩ => rfl
theorem q_idx_row (b : Fin 4) (x : Fin 1024) (z : Fin 1) : idx_main_v1 (ix3 b x z) = ix2 b x := by
  funext d; match d with | ⟨0, _⟩ => rfl | ⟨1, _⟩ => rfl
theorem q_idx_col (b : Fin 4) (x : Fin 1024) (c : Fin 1024) : idx_main_v4 (ix3 b x c) = ix3 b x ⟨0, Nat.one_pos⟩ := by
  funext d; match d with | ⟨0, _⟩ => rfl | ⟨1, _⟩ => rfl | ⟨2, _⟩ => rfl
theorem q_idx_sqsum (b : Fin 4) (x : Fin 1024) (k : Fin 1024) : idx_main_v7 (ix2 b x) k = ix3 b x k := by
  funext d; match d with | ⟨0, _⟩ => rfl | ⟨1, _⟩ => rfl | ⟨2, _⟩ => rfl
theorem q_idx_row' (b : Fin 4) (x : Fin 1024) (z : Fin 1) : idx_main_v8 (ix3 b x z) = ix2 b x := by
  funext d; match d with | ⟨0, _⟩ => rfl | ⟨1, _⟩ => rfl
theorem q_idx_col' (b : Fin 4) (x : Fin 1024) (c : Fin 1024) : idx_main_v11 (ix3 b x c) = ix3 b x ⟨0, Nat.one_pos⟩ := by
  funext d; match d with | ⟨0, _⟩ => rfl | ⟨1, _⟩ => rfl | ⟨2, _⟩ => rfl
theorem q_idx_col'' (b : Fin 4) (x : Fin 1024) (c : Fin 1024) : idx_main_v16 (ix3 b x c) = ix3 b x ⟨0, Nat.one_pos⟩ := by
  funext d; match d with | ⟨0, _⟩ => rfl | ⟨1, _⟩ => rfl | ⟨2, _⟩ => rfl
theorem q_idx_gain (b : Fin 4) (x : Fin 1024) (c : Fin 1024) : idx_main_v18 (idx_main_v19 (ix3 b x c)) = ix1 c := by
  funext d; match d with | ⟨0, _⟩ => rfl
theorem q_idx_bias (b : Fin 4) (x : Fin 1024) (c : Fin 1024) : idx_main_v21 (idx_main_v22 (ix3 b x c)) = ix1 c := by
  funext d; match d with | ⟨0, _⟩ => rfl

theorem q_sum (a : Cert.Bridge.Args) (hr : a.IsReal) (b : Fin 4) (x : Fin 1024) :
    val_main_v0 (F := Ideal) a.feat (ix2 b x) = ((∑ c, a.inputs.feat b x c : ℝ) : EReal) := by
  have h : (∑ k : Fin 1024, a.feat (idx_main_v0 (ix2 b x) k)) = ∑ k : Fin 1024, ((a.inputs.feat b x k : ℝ) : EReal) :=
    Finset.sum_congr rfl (fun k _ => by rw [q_idx_sum b x k, feat_at a hr b x k])
  rw [val_main_v0_apply, val_main_cst_apply, Ideal.ofBits_def, Cert.Consts.ofBits_zero, h, Cert.CoeOps.sum_coe, Cert.CoeOps.add_coe, zero_add]

theorem q_mean (a : Cert.Bridge.Args) (hr : a.IsReal) (b : Fin 4) (x : Fin 1024) (z : Fin 1) :
    val_main_v3 (F := Ideal) a.feat (ix3 b x z) = ((Cert.Spec.mean (a.inputs.feat b x) : ℝ) : EReal) := by
  rw [val_main_v3_apply, val_main_v1_apply, val_main_v2_apply, val_main_cst_0_apply, Ideal.hostDivf_def, Ideal.ofBits_def,
    Cert.Consts.ofBits_1024, q_idx_row b x z, q_sum a hr b x, Cert.CoeOps.div_coe _ (by norm_num)]
  rfl

theorem q_cen (a : Cert.Bridge.Args) (hr : a.IsReal) (b : Fin 4) (x : Fin 1024) (c : Fin 1024) :
    val_main_v5 (F := Ideal) a.feat (ix3 b x c) = ((a.inputs.feat b x c - Cert.Spec.mean (a.inputs.feat b x) : ℝ) : EReal) := by
  rw [val_main_v5_apply, val_main_v4_apply, q_idx_col b x c, q_mean a hr b x _, Ideal.subf_def, feat_at a hr b x c,
    Cert.CoeOps.sub_coe]

theorem q_sqsum (a : Cert.Bridge.Args) (hr : a.IsReal) (b : Fin 4) (x : Fin 1024) :
    val_main_v7 (F := Ideal) a.feat (ix2 b x) =
      ((∑ c, (a.inputs.feat b x c - Cert.Spec.mean (a.inputs.feat b x)) * (a.inputs.feat b x c - Cert.Spec.mean (a.inputs.feat b x)) : ℝ) : EReal) := by
  have h : (∑ k : Fin 1024, val_main_v6 (F := Ideal) a.feat (idx_main_v7 (ix2 b x) k)) =
      ∑ k : Fin 1024, (((a.inputs.feat b x k - Cert.Spec.mean (a.inputs.feat b x)) * (a.inputs.feat b x k - Cert.Spec.mean (a.inputs.feat b x)) : ℝ) : EReal) :=
    Finset.sum_congr rfl (fun k _ => by
      rw [q_idx_sqsum b x k, val_main_v6_apply, q_cen a hr b x k, Ideal.mulf_def, Cert.CoeOps.mul_coe])
  rw [val_main_v7_apply, val_main_cst_1_apply, Ideal.ofBits_def, Cert.Consts.ofBits_zero, h, Cert.CoeOps.sum_coe, Cert.CoeOps.add_coe, zero_add]

theorem q_var (a : Cert.Bridge.Args) (hr : a.IsReal) (b : Fin 4) (x : Fin 1024) (z : Fin 1) :
    val_main_v10 (F := Ideal) a.feat (ix3 b x z) = ((Cert.Spec.var (a.inputs.feat b x) : ℝ) : EReal) := by
  rw [val_main_v10_apply, val_main_v8_apply, val_main_v9_apply, val_main_cst_2_apply, Ideal.hostDivf_def, Ideal.ofBits_def,
    Cert.Consts.ofBits_1024, q_idx_row' b x z, q_sqsum a hr b x, Cert.CoeOps.div_coe _ (by norm_num)]
  rfl

theorem q_var_eps_pos (a : Cert.Bridge.Args) (b : Fin 4) (x : Fin 1024) :
    0 < Cert.Spec.var (a.inputs.feat b x) + Cert.Consts.epsR :=
  add_pos_of_nonneg_of_pos (Cert.Spec.var_nonneg _) Cert.Consts.epsR_pos

theorem q_std (a : Cert.Bridge.Args) (hr : a.IsReal) (b : Fin 4) (x : Fin 1024) (z : Fin 1) :
    val_main_v15 (F := Ideal) a.feat (ix3 b x z) = ((Real.sqrt (Cert.Spec.var (a.inputs.feat b x) + Cert.Consts.epsR) : ℝ) : EReal) := by
  rw [val_main_v15_apply, val_main_v14_apply, val_main_v13_apply, val_main_cst_3_apply, Ideal.hostUnary_sqrt_def, Ideal.addf_def, Ideal.ofBits_def,
    Cert.Consts.ofBits_eps, q_var a hr b x z, Cert.CoeOps.add_coe, Cert.CoeOps.sqrt_coe (q_var_eps_pos a b x).le]

theorem q_nrm (a : Cert.Bridge.Args) (hr : a.IsReal) (b : Fin 4) (x : Fin 1024) (c : Fin 1024) :
    val_main_v17 (F := Ideal) a.feat (ix3 b x c) =
      (((a.inputs.feat b x c - Cert.Spec.mean (a.inputs.feat b x)) / Real.sqrt (Cert.Spec.var (a.inputs.feat b x) + Cert.Consts.epsR) : ℝ) : EReal) := by
  rw [val_main_v17_apply, val_main_v12_apply, val_main_v11_apply, val_main_v16_apply, q_idx_col' b x c, q_idx_col'' b x c,
    q_mean a hr b x _, q_std a hr b x _, Ideal.subf_def, Ideal.hostDivf_def, feat_at a hr b x c, Cert.CoeOps.sub_coe,
    Cert.CoeOps.div_coe _ (Real.sqrt_pos.mpr (q_var_eps_pos a b x)).ne']

theorem q_apply (a : Cert.Bridge.Args) (hr : a.IsReal) (b : Fin 4) (x : Fin 1024) (c : Fin 1024) :
    val_main_v23 (F := Ideal) a.feat a.gq a.bq (ix3 b x c) = ((Cert.Spec.q Cert.Consts.epsR a.inputs b x c : ℝ) : EReal) := by
  rw [val_main_v23_apply, val_main_v20_apply, val_main_v22_apply, val_main_v21_apply, val_main_v19_apply, val_main_v18_apply, q_idx_gain b x c,
    q_idx_bias b x c, q_nrm a hr b x c, gq_at a hr c, bq_at a hr c, Ideal.mulf_def, Ideal.addf_def,
    Cert.CoeOps.mul_coe, Cert.CoeOps.add_coe]
  rfl

end Cert.RefValue

end
-- ==== Proof.RefLNk.lean ====
import proofs.«404741_j62388694941903_3_alg».proof.Proof.RefRun
import proofs.«404741_j62388694941903_3_alg».proof.Proof.Bridge
import proofs.«404741_j62388694941903_3_alg».proof.Proof.CoeOps
import proofs.«404741_j62388694941903_3_alg».proof.Proof.Consts

noncomputable section

namespace Cert.RefValue

open Idealize.ShloMosaic Idealize.ShloMosaic.ValueIdx Cert.ReferenceIdeal Cert.ReferenceIdeal.Read
open scoped BigOperators

theorem memk_at (a : Cert.Bridge.Args) (hr : a.IsReal) (b : Fin 4) (x : Fin 8192) (c : Fin 1024) :
    a.memk (ix3 b x c) = ((a.inputs.memk b x c : ℝ) : EReal) := hr.memk _
theorem gk_at (a : Cert.Bridge.Args) (hr : a.IsReal) (c : Fin 1024) :
    a.gk (ix1 c) = ((a.inputs.gk c : ℝ) : EReal) := hr.gk _
theorem bk_at (a : Cert.Bridge.Args) (hr : a.IsReal) (c : Fin 1024) :
    a.bk (ix1 c) = ((a.inputs.bk c : ℝ) : EReal) := hr.bk _

theorem k_idx_sum (b : Fin 4) (x : Fin 8192) (k : Fin 1024) : idx_main_v24 (ix2 b x) k = ix3 b x k := by
  funext d; match d with | ⟨0, _⟩ => rfl | ⟨1, _⟩ => rfl | ⟨2, _⟩ => rfl
theorem k_idx_row (b : Fin 4) (x : Fin 8192) (z : Fin 1) : idx_main_v25 (ix3 b x z) = ix2 b x := by
  funext d; match d with | ⟨0, _⟩ => rfl | ⟨1, _⟩ => rfl
theorem k_idx_col (b : Fin 4) (x : Fin 8192) (c : Fin 1024) : idx_main_v28 (ix3 b x c) = ix3 b x ⟨0, Nat.one_pos⟩ := by
  funext d; match d with | ⟨0, _⟩ => rfl | ⟨1, _⟩ => rfl | ⟨2, _⟩ => rfl
theorem k_idx_sqsum (b : Fin 4) (x : Fin 8192) (k : Fin 1024) : idx_main_v31 (ix2 b x) k = ix3 b x k := by
  funext d; match d with | ⟨0, _⟩ => rfl | ⟨1, _⟩ => rfl | ⟨2, _⟩ => rfl
theorem k_idx_row' (b : Fin 4) (x : Fin 8192) (z : Fin 1) : idx_main_v32 (ix3 b x z) = ix2 b x := by
  funext d; match d with | ⟨0, _⟩ => rfl | ⟨1, _⟩ => rfl
theorem k_idx_col' (b : Fin 4) (x : Fin 8192) (c : Fin 1024) : idx_main_v35 (ix3 b x c) = ix3 b x ⟨0, Nat.one_pos⟩ := by
  funext d; match d with | ⟨0, _⟩ => rfl | ⟨1, _⟩ => rfl | ⟨2, _⟩ => rfl
theorem k_idx_col'' (b : Fin 4) (x : Fin 8192) (c : Fin 1024) : idx_main_v40 (ix3 b x c) = ix3 b x ⟨0, Nat.one_pos⟩ := by
  funext d; match d with | ⟨0, _⟩ => rfl | ⟨1, _⟩ => rfl | ⟨2, _⟩ => rfl
theorem k_idx_gain (b : Fin 4) (x : Fin 8192) (c : Fin 1024) : idx_main_v42 (idx_main_v43 (ix3 b x c)) = ix1 c := by
  funext d; match d with | ⟨0, _⟩ => rfl
theorem k_idx_bias (b : Fin 4) (x : Fin 8192) (c : Fin 1024) : idx_main_v45 (idx_main_v46 (ix3 b x c)) = ix1 c := by
  funext d; match d with | ⟨0, _⟩ => rfl

theorem k_sum (a : Cert.Bridge.Args) (hr : a.IsReal) (b : Fin 4) (x : Fin 8192) :
    val_main_v24 (F := Ideal) a.memk (ix2 b x) = ((∑ c, a.inputs.memk b x c : ℝ) : EReal) := by
  have h : (∑ k : Fin 1024, a.memk (idx_main_v24 (ix2 b x) k)) = ∑ k : Fin 1024, ((a.inputs.memk b x k : ℝ) : EReal) :=
    Finset.sum_congr rfl (fun k _ => by rw [k_idx_sum b x k, memk_at a hr b x k])
  rw [val_main_v24_apply, val_main_cst_4_apply, Ideal.ofBits_def, Cert.Consts.ofBits_zero, h, Cert.CoeOps.sum_coe, Cert.CoeOps.add_coe, zero_add]

theorem k_mean (a : Cert.Bridge.Args) (hr : a.IsReal) (b : Fin 4) (x : Fin 8192) (z : Fin 1) :
    val_main_v27 (F := Ideal) a.memk (ix3 b x z) = ((Cert.Spec.mean (a.inputs.memk b x) : ℝ) : EReal) := by
  rw [val_main_v27_apply, val_main_v25_apply, val_main_v26_apply, val_main_cst_5_apply, Ideal.hostDivf_def, Ideal.ofBits_def,
    Cert.Consts.ofBits_1024, k_idx_row b x z, k_sum a hr b x, Cert.CoeOps.div_coe _ (by norm_num)]
  rfl

theorem k_cen (a : Cert.Bridge.Args) (hr : a.IsReal) (b : Fin 4) (x : Fin 8192) (c : Fin 1024) :
    val_main_v29 (F := Ideal) a.memk (ix3 b x c) = ((a.inputs.memk b x c - Cert.Spec.mean (a.inputs.memk b x) : ℝ) : EReal) := by
  rw [val_main_v29_apply, val_main_v28_apply, k_idx_col b x c, k_mean a hr b x _, Ideal.subf_def, memk_at a hr b x c,
    Cert.CoeOps.sub_coe]

theorem k_sqsum (a : Cert.Bridge.Args) (hr : a.IsReal) (b : Fin 4) (x : Fin 8192) :
    val_main_v31 (F := Ideal) a.memk (ix2 b x) =
      ((∑ c, (a.inputs.memk b x c - Cert.Spec.mean (a.inputs.memk b x)) * (a.inputs.memk b x c - Cert.Spec.mean (a.inputs.memk b x)) : ℝ) : EReal) := by
  have h : (∑ k : Fin 1024, val_main_v30 (F := Ideal) a.memk (idx_main_v31 (ix2 b x) k)) =
      ∑ k : Fin 1024, (((a.inputs.memk b x k - Cert.Spec.mean (a.inputs.memk b x)) * (a.inputs.memk b x k - Cert.Spec.mean (a.inputs.memk b x)) : ℝ) : EReal) :=
    Finset.sum_congr rfl (fun k _ => by
      rw [k_idx_sqsum b x k, val_main_v30_apply, k_cen a hr b x k, Ideal.mulf_def, Cert.CoeOps.mul_coe])
  rw [val_main_v31_apply, val_main_cst_6_apply, Ideal.ofBits_def, Cert.Consts.ofBits_zero, h, Cert.CoeOps.sum_coe, Cert.CoeOps.add_coe, zero_add]

theorem k_var (a : Cert.Bridge.Args) (hr : a.IsReal) (b : Fin 4) (x : Fin 8192) (z : Fin 1) :
    val_main_v34 (F := Ideal) a.memk (ix3 b x z) = ((Cert.Spec.var (a.inputs.memk b x) : ℝ) : EReal) := by
  rw [val_main_v34_apply, val_main_v32_apply, val_main_v33_apply, val_main_cst_7_apply, Ideal.hostDivf_def, Ideal.ofBits_def,
    Cert.Consts.ofBits_1024, k_idx_row' b x z, k_sqsum a hr b x, Cert.CoeOps.div_coe _ (by norm_num)]
  rfl

theorem k_var_eps_pos (a : Cert.Bridge.Args) (b : Fin 4) (x : Fin 8192) :
    0 < Cert.Spec.var (a.inputs.memk b x) + Cert.Consts.epsR :=
  add_pos_of_nonneg_of_pos (Cert.Spec.var_nonneg _) Cert.Consts.epsR_pos

theorem k_std (a : Cert.Bridge.Args) (hr : a.IsReal) (b : Fin 4) (x : Fin 8192) (z : Fin 1) :
    val_main_v39 (F := Ideal) a.memk (ix3 b x z) = ((Real.sqrt (Cert.Spec.var (a.inputs.memk b x) + Cert.Consts.epsR) : ℝ) : EReal) := by
  rw [val_main_v39_apply, val_main_v38_apply, val_main_v37_apply, val_main_cst_8_apply, Ideal.hostUnary_sqrt_def, Ideal.addf_def, Ideal.ofBits_def,
    Cert.Consts.ofBits_eps, k_var a hr b x z, Cert.CoeOps.add_coe, Cert.CoeOps.sqrt_coe (k_var_eps_pos a b x).le]

theorem k_nrm (a : Cert.Bridge.Args) (hr : a.IsReal) (b : Fin 4) (x : Fin 8192) (c : Fin 1024) :
    val_main_v41 (F := Ideal) a.memk (ix3 b x c) =
      (((a.inputs.memk b x c - Cert.Spec.mean (a.inputs.memk b x)) / Real.sqrt (Cert.Spec.var (a.inputs.memk b x) + Cert.Consts.epsR) : ℝ) : EReal) := by
  rw [val_main_v41_apply, val_main_v36_apply, val_main_v35_apply, val_main_v40_apply, k_idx_col' b x c, k_idx_col'' b x c,
    k_mean a hr b x _, k_std a hr b x _, Ideal.subf_def, Ideal.hostDivf_def, memk_at a hr b x c, Cert.CoeOps.sub_coe,
    Cert.CoeOps.div_coe _ (Real.sqrt_pos.mpr (k_var_eps_pos a b x)).ne']

theorem k_apply (a : Cert.Bridge.Args) (hr : a.IsReal) (b : Fin 4) (x : Fin 8192) (c : Fin 1024) :
    val_main_v47 (F := Ideal) a.memk a.gk a.bk (ix3 b x c) = ((Cert.Spec.k Cert.Consts.epsR a.inputs b x c : ℝ) : EReal) := by
  rw [val_main_v47_apply, val_main_v44_apply, val_main_v46_apply, val_main_v45_apply, val_main_v43_apply, val_main_v42_apply, k_idx_gain b x c,
    k_idx_bias b x c, k_nrm a hr b x c, gk_at a hr c, bk_at a hr c, Ideal.mulf_def, Ideal.addf_def,
    Cert.CoeOps.mul_coe, Cert.CoeOps.add_coe]
  rfl

end Cert.RefValue

end
-- ==== Proof.RefLNv.lean ====
import proofs.«404741_j62388694941903_3_alg».proof.Proof.RefRun
import proofs.«404741_j62388694941903_3_alg».proof.Proof.Bridge
import proofs.«404741_j62388694941903_3_alg».proof.Proof.CoeOps
import proofs.«404741_j62388694941903_3_alg».proof.Proof.Consts

noncomputable section

namespace Cert.RefValue

open Idealize.ShloMosaic Idealize.ShloMosaic.ValueIdx Cert.ReferenceIdeal Cert.ReferenceIdeal.Read
open scoped BigOperators

theorem memv_at (a : Cert.Bridge.Args) (hr : a.IsReal) (b : Fin 4) (x : Fin 8192) (c : Fin 1024) :
    a.memv (ix3 b x c) = ((a.inputs.memv b x c : ℝ) : EReal) := hr.memv _
theorem gv_at (a : Cert.Bridge.Args) (hr : a.IsReal) (c : Fin 1024) :
    a.gv (ix1 c) = ((a.inputs.gv c : ℝ) : EReal) := hr.gv _
theorem bv_at (a : Cert.Bridge.Args) (hr : a.IsReal) (c : Fin 1024) :
    a.bv (ix1 c) = ((a.inputs.bv c : ℝ) : EReal) := hr.bv _

theorem v_idx_sum (b : Fin 4) (x : Fin 8192) (k : Fin 1024) : idx_main_v73 (ix2 b x) k = ix3 b x k := by
  funext d; match d with | ⟨0, _⟩ => rfl | ⟨1, _⟩ => rfl | ⟨2, _⟩ => rfl
theorem v_idx_row (b : Fin 4) (x : Fin 8192) (z : Fin 1) : idx_main_v74 (ix3 b x z) = ix2 b x := by
  funext d; match d with | ⟨0, _⟩ => rfl | ⟨1, _⟩ => rfl
theorem v_idx_col (b : Fin 4) (x : Fin 8192) (c : Fin 1024) : idx_main_v77 (ix3 b x c) = ix3 b x ⟨0, Nat.one_pos⟩ := by
  funext d; match d with | ⟨0, _⟩ => rfl | ⟨1, _⟩ => rfl | ⟨2, _⟩ => rfl
theorem v_idx_sqsum (b : Fin 4) (x : Fin 8192) (k : Fin 1024) : idx_main_v80 (ix2 b x) k = ix3 b x k := by
  funext d; match d with | ⟨0, _⟩ => rfl | ⟨1, _⟩ => rfl | ⟨2, _⟩ => rfl
theorem v_idx_row' (b : Fin 4) (x : Fin 8192) (z : Fin 1) : idx_main_v81 (ix3 b x z) = ix2 b x := by
  funext d; match d with | ⟨0, _⟩ => rfl | ⟨1, _⟩ => rfl
theorem v_idx_col' (b : Fin 4) (x : Fin 8192) (c : Fin 1024) : idx_main_v84 (ix3 b x c) = ix3 b x ⟨0, Nat.one_pos⟩ := by
  funext d; match d with | ⟨0, _⟩ => rfl | ⟨1, _⟩ => rfl | ⟨2, _⟩ => rfl
theorem v_idx_col'' (b : Fin 4) (x : Fin 8192) (c : Fin 1024) : idx_main_v89 (ix3 b x c) = ix3 b x ⟨0, Nat.one_pos⟩ := by
  funext d; match d with | ⟨0, _⟩ => rfl | ⟨1, _⟩ => rfl | ⟨2, _⟩ => rfl
theorem v_idx_gain (b : Fin 4) (x : Fin 8192) (c : Fin 1024) : idx_main_v91 (idx_main_v92 (ix3 b x c)) = ix1 c := by
  funext d; match d with | ⟨0, _⟩ => rfl
theorem v_idx_bias (b : Fin 4) (x : Fin 8192) (c : Fin 1024) : idx_main_v94 (idx_main_v95 (ix3 b x c)) = ix1 c := by
  funext d; match d with | ⟨0, _⟩ => rfl

theorem v_sum (a : Cert.Bridge.Args) (hr : a.IsReal) (b : Fin 4) (x : Fin 8192) :
    val_main_v73 (F := Ideal) a.memv (ix2 b x) = ((∑ c, a.inputs.memv b x c : ℝ) : EReal) := by
  have h : (∑ k : Fin 1024, a.memv (idx_main_v73 (ix2 b x) k)) = ∑ k : Fin 1024, ((a.inputs.memv b x k : ℝ) : EReal) :=
    Finset.sum_congr rfl (fun k _ => by rw [v_idx_sum b x k, memv_at a hr b x k])
  rw [val_main_v73_apply, val_main_cst_16_apply, Ideal.ofBits_def, Cert.Consts.ofBits_zero, h, Cert.CoeOps.sum_coe, Cert.CoeOps.add_coe, zero_add]

theorem v_mean (a : Cert.Bridge.Args) (hr : a.IsReal) (b : Fin 4) (x : Fin 8192) (z : Fin 1) :
    val_main_v76 (F := Ideal) a.memv (ix3 b x z) = ((Cert.Spec.mean (a.inputs.memv b x) : ℝ) : EReal) := by
  rw [val_main_v76_apply, val_main_v74_apply, val_main_v75_apply, val_main_cst_17_apply, Ideal.hostDivf_def, Ideal.ofBits_def,
    Cert.Consts.ofBits_1024, v_idx_row b x z, v_sum a hr b x, Cert.CoeOps.div_coe _ (by norm_num)]
  rfl

theorem v_cen (a : Cert.Bridge.Args) (hr : a.IsReal) (b : Fin 4) (x : Fin 8192) (c : Fin 1024) :
    val_main_v78 (F := Ideal) a.memv (ix3 b x c) = ((a.inputs.memv b x c - Cert.Spec.mean (a.inputs.memv b x) : ℝ) : EReal) := by
  rw [val_main_v78_apply, val_main_v77_apply, v_idx_col b x c, v_mean a hr b x _, Ideal.subf_def, memv_at a hr b x c,
    Cert.CoeOps.sub_coe]

theorem v_sqsum (a : Cert.Bridge.Args) (hr : a.IsReal) (b : Fin 4) (x : Fin 8192) :
    val_main_v80 (F := Ideal) a.memv (ix2 b x) =
      ((∑ c, (a.inputs.memv b x c - Cert.Spec.mean (a.inputs.memv b x)) * (a.inputs.memv b x c - Cert.Spec.mean (a.inputs.memv b x)) : ℝ) : EReal) := by
  have h : (∑ k : Fin 1024, val_main_v79 (F := Ideal) a.memv (idx_main_v80 (ix2 b x) k)) =
      ∑ k : Fin 1024, (((a.inputs.memv b x k - Cert.Spec.mean (a.inputs.memv b x)) * (a.inputs.memv b x k - Cert.Spec.mean (a.inputs.memv b x)) : ℝ) : EReal) :=
    Finset.sum_congr rfl (fun k _ => by
      rw [v_idx_sqsum b x k, val_main_v79_apply, v_cen a hr b x k, Ideal.mulf_def, Cert.CoeOps.mul_coe])
  rw [val_main_v80_apply, val_main_cst_18_apply, Ideal.ofBits_def, Cert.Consts.ofBits_zero, h, Cert.CoeOps.sum_coe, Cert.CoeOps.add_coe, zero_add]

theorem v_var (a : Cert.Bridge.Args) (hr : a.IsReal) (b : Fin 4) (x : Fin 8192) (z : Fin 1) :
    val_main_v83 (F := Ideal) a.memv (ix3 b x z) = ((Cert.Spec.var (a.inputs.memv b x) : ℝ) : EReal) := by
  rw [val_main_v83_apply, val_main_v81_apply, val_main_v82_apply, val_main_cst_19_apply, Ideal.hostDivf_def, Ideal.ofBits_def,
    Cert.Consts.ofBits_1024, v_idx_row' b x z, v_sqsum a hr b x, Cert.CoeOps.div_coe _ (by norm_num)]
  rfl

theorem v_var_eps_pos (a : Cert.Bridge.Args) (b : Fin 4) (x : Fin 8192) :
    0 < Cert.Spec.var (a.inputs.memv b x) + Cert.Consts.epsR :=
  add_pos_of_nonneg_of_pos (Cert.Spec.var_nonneg _) Cert.Consts.epsR_pos

theorem v_std (a : Cert.Bridge.Args) (hr : a.IsReal) (b : Fin 4) (x : Fin 8192) (z : Fin 1) :
    val_main_v88 (F := Ideal) a.memv (ix3 b x z) = ((Real.sqrt (Cert.Spec.var (a.inputs.memv b x) + Cert.Consts.epsR) : ℝ) : EReal) := by
  rw [val_main_v88_apply, val_main_v87_apply, val_main_v86_apply, val_main_cst_20_apply, Ideal.hostUnary_sqrt_def, Ideal.addf_def, Ideal.ofBits_def,
    Cert.Consts.ofBits_eps, v_var a hr b x z, Cert.CoeOps.add_coe, Cert.CoeOps.sqrt_coe (v_var_eps_pos a b x).le]

theorem v_nrm (a : Cert.Bridge.Args) (hr : a.IsReal) (b : Fin 4) (x : Fin 8192) (c : Fin 1024) :
    val_main_v90 (F := Ideal) a.memv (ix3 b x c) =
      (((a.inputs.memv b x c - Cert.Spec.mean (a.inputs.memv b x)) / Real.sqrt (Cert.Spec.var (a.inputs.memv b x) + Cert.Consts.epsR) : ℝ) : EReal) := by
  rw [val_main_v90_apply, val_main_v85_apply, val_main_v84_apply, val_main_v89_apply, v_idx_col' b x c, v_idx_col'' b x c,
    v_mean a hr b x _, v_std a hr b x _, Ideal.subf_def, Ideal.hostDivf_def, memv_at a hr b x c, Cert.CoeOps.sub_coe,
    Cert.CoeOps.div_coe _ (Real.sqrt_pos.mpr (v_var_eps_pos a b x)).ne']

theorem v_apply (a : Cert.Bridge.Args) (hr : a.IsReal) (b : Fin 4) (x : Fin 8192) (c : Fin 1024) :
    val_main_v96 (F := Ideal) a.memv a.gv a.bv (ix3 b x c) = ((Cert.Spec.v Cert.Consts.epsR a.inputs b x c : ℝ) : EReal) := by
  rw [val_main_v96_apply, val_main_v93_apply, val_main_v95_apply, val_main_v94_apply, val_main_v92_apply, val_main_v91_apply, v_idx_gain b x c,
    v_idx_bias b x c, v_nrm a hr b x c, gv_at a hr c, bv_at a hr c, Ideal.mulf_def, Ideal.addf_def,
    Cert.CoeOps.mul_coe, Cert.CoeOps.add_coe]
  rfl

end Cert.RefValue

end
-- ==== Proof.RefLN.lean ====
import proofs.«404741_j62388694941903_3_alg».proof.Proof.RefLNq
import proofs.«404741_j62388694941903_3_alg».proof.Proof.RefLNk
import proofs.«404741_j62388694941903_3_alg».proof.Proof.RefLNv
-- ==== Proof.RefAttn.lean ====
import proofs.«404741_j62388694941903_3_alg».proof.Proof.RefRun
import proofs.«404741_j62388694941903_3_alg».proof.Proof.Bridge
import proofs.«404741_j62388694941903_3_alg».proof.Proof.CoeOps
import proofs.«404741_j62388694941903_3_alg».proof.Proof.Consts
import Mathlib.Data.Finset.Lattice.Fold
import Mathlib.Analysis.SpecialFunctions.Exp

noncomputable section

namespace Cert.RefValue

open Cert.ReferenceIdeal Cert.ReferenceIdeal.Gen Cert.ReferenceIdeal.Read Idealize.ShloMosaic Idealize.ShloMosaic.ValueIdx
open scoped BigOperators

theorem cmpf_def (p : CmpFPredicate) (x y : EReal) :
    FloatOps.cmpf (F := Ideal) (φ := .f32) p x y = Ideal.cmp p x y := rfl

theorem fold_maximumf_coe {ι : Type} (s : Finset ι) (hs : s.Nonempty) (f : ι → ℝ) (g : ι → EReal)
    (hg : ∀ i, g i = ((f i : ℝ) : EReal)) :
    s.fold (FloatOps.maximumf (F := Ideal) (φ := .f32)) (⊥ : EReal) g = ((s.sup' hs f : ℝ) : EReal) := by
  induction hs using Finset.Nonempty.cons_induction with
  | singleton i =>
    rw [Finset.fold_singleton, Finset.sup'_singleton, hg, Ideal.maximumf_def, max_comm]
    exact CoeOps.max_bot_coe _
  | cons i s hi hs ih =>
    rw [Finset.fold_cons, ih, Finset.sup'_cons hs, hg, Ideal.maximumf_def, CoeOps.max_coe]

theorem denom_pos (r : Fin 8192 → ℝ) : 0 < Spec.denom r :=
  Finset.sum_pos (fun _ _ => Real.exp_pos _) ⟨⟨0, by norm_num⟩, Finset.mem_univ _⟩

theorem dot_apply (a : Bridge.Args) (hr : a.IsReal)
    (hq : ∀ b p c, val_main_v23 (F := Ideal) a.feat a.gq a.bq (ix3 b p c) = ((Spec.q Consts.epsR a.inputs b p c : ℝ) : EReal))
    (hk : ∀ b x c, val_main_v47 (F := Ideal) a.memk a.gk a.bk (ix3 b x c) = ((Spec.k Consts.epsR a.inputs b x c : ℝ) : EReal)) (b : Fin 4) (p : Fin 1024) (x : Fin 8192) :
    val_main_v48 (F := Ideal) a.feat a.memk a.gq a.bq a.gk a.bk (ix3 b p x)
      = ((∑ c, Spec.q Consts.epsR a.inputs b p c * Spec.k Consts.epsR a.inputs b x c : ℝ) : EReal) := by
  rw [val_main_v48_apply]
  refine (Finset.sum_congr rfl fun c _ => ?_).trans
    (CoeOps.sum_coe Finset.univ fun c => Spec.q Consts.epsR a.inputs b p c * Spec.k Consts.epsR a.inputs b x c)
  have hl : lidx_main_v48 (ix3 b p x) c = ix3 b p c := funext fun d => Fin.ext (by match d with | ⟨0, _⟩ => rfl | ⟨1, _⟩ => rfl | ⟨2, _⟩ => rfl)
  have hx : ridx_main_v48 (ix3 b p x) c = ix3 b x c := funext fun d => Fin.ext (by match d with | ⟨0, _⟩ => rfl | ⟨1, _⟩ => rfl | ⟨2, _⟩ => rfl)
  rw [hl, hx, hq, hk, CoeOps.mul_coe]

theorem scale_apply (i : S4x1024x8192.Idx) : val_main_v50 (F := Ideal) i = ((32 : ℝ) : EReal) := by
  rw [val_main_v50_apply, val_main_v49_apply, val_main_cst_9_apply, Ideal.hostUnary_sqrt_def, Ideal.ofBits_def,
    Consts.ofBits_1024, CoeOps.sqrt_coe (by norm_num), Consts.sqrt_1024]

theorem conf_apply (a : Bridge.Args) (hr : a.IsReal) (b : Fin 4) (p : Fin 1024) (x : Fin 8192) :
    val_main_v53 (F := Ideal) a.memc (ix3 b p x) = ((a.inputs.memc b x : ℝ) : EReal) := by
  rw [val_main_v53_apply, val_main_v52_apply]
  have hi : idx_main_v52 (idx_main_v53 (ix3 b p x)) = ix3 b x 0 := funext fun d => Fin.ext (by match d with | ⟨0, _⟩ => rfl | ⟨1, _⟩ => rfl | ⟨2, _⟩ => rfl)
  rw [hi]
  exact hr.memc _

theorem aff_apply (a : Bridge.Args) (hr : a.IsReal)
    (hq : ∀ b p c, val_main_v23 (F := Ideal) a.feat a.gq a.bq (ix3 b p c) = ((Spec.q Consts.epsR a.inputs b p c : ℝ) : EReal))
    (hk : ∀ b x c, val_main_v47 (F := Ideal) a.memk a.gk a.bk (ix3 b x c) = ((Spec.k Consts.epsR a.inputs b x c : ℝ) : EReal)) (b : Fin 4) (p : Fin 1024) (x : Fin 8192) :
    val_main_v54 (F := Ideal) a.feat a.memk a.memc a.gq a.bq a.gk a.bk (ix3 b p x) = ((Spec.aff Consts.epsR a.inputs b p x : ℝ) : EReal) := by
  rw [val_main_v54_apply, val_main_v51_apply, dot_apply a hr hq hk, scale_apply, conf_apply a hr,
    Ideal.hostDivf_def, CoeOps.div_coe _ (by norm_num : (32 : ℝ) ≠ 0), Ideal.mulf_def, CoeOps.mul_coe]
  rfl

theorem rowMax_apply (a : Bridge.Args) (hr : a.IsReal)
    (hq : ∀ b p c, val_main_v23 (F := Ideal) a.feat a.gq a.bq (ix3 b p c) = ((Spec.q Consts.epsR a.inputs b p c : ℝ) : EReal))
    (hk : ∀ b x c, val_main_v47 (F := Ideal) a.memk a.gk a.bk (ix3 b x c) = ((Spec.k Consts.epsR a.inputs b x c : ℝ) : EReal)) (b : Fin 4) (p : Fin 1024) :
    val_main_v57 (F := Ideal) a.feat a.memk a.memc a.gq a.bq a.gk a.bk (ix2 b p) = ((Spec.rowMax (Spec.aff Consts.epsR a.inputs b p) : ℝ) : EReal) := by
  have hred : S4x1024x8192.Reduces [2] S4x1024 := by decide
  have h55 : val_main_v55 (F := Ideal) a.feat a.memk a.memc a.gq a.bq a.gk a.bk (ix2 b p) = ((Spec.rowMax (Spec.aff Consts.epsR a.inputs b p) : ℝ) : EReal) := by
    unfold val_main_v55
    rw [Host.reduce_eq_fold_single FloatOps.maximumf _ _ reducesTo_S4x1024x8192_S4x1024_d2 hred h_S_,
      val_main_cst_10_apply, Ideal.ofBits_def, Consts.ofBits_neg_inf]
    refine fold_maximumf_coe Finset.univ _ (Spec.aff Consts.epsR a.inputs b p) _ fun k => ?_
    have hi : hred.lift (ix2 b p) k = ix3 b p k := funext fun d => Fin.ext (by match d with | ⟨0, _⟩ => rfl | ⟨1, _⟩ => rfl | ⟨2, _⟩ => rfl)
    show val_main_v54 (F := Ideal) a.feat a.memk a.memc a.gq a.bq a.gk a.bk (hred.lift (ix2 b p) k) = _
    rw [hi]
    exact aff_apply a hr hq hk b p k
  rw [val_main_v57_apply, val_main_v56_apply, val_main_cst_11_apply, Ideal.ofBits_def, Consts.ofBits_neg_inf, h55,
    Ideal.maximumf_def]
  exact CoeOps.max_bot_coe _

theorem expo_apply (a : Bridge.Args) (hr : a.IsReal)
    (hq : ∀ b p c, val_main_v23 (F := Ideal) a.feat a.gq a.bq (ix3 b p c) = ((Spec.q Consts.epsR a.inputs b p c : ℝ) : EReal))
    (hk : ∀ b x c, val_main_v47 (F := Ideal) a.memk a.gk a.bk (ix3 b x c) = ((Spec.k Consts.epsR a.inputs b x c : ℝ) : EReal)) (b : Fin 4) (p : Fin 1024) (x : Fin 8192) :
    val_main_v61 (F := Ideal) a.feat a.memk a.memc a.gq a.bq a.gk a.bk (ix3 b p x) = ((Spec.expo (Spec.aff Consts.epsR a.inputs b p) x : ℝ) : EReal) := by
  have hi : idx_main_v58 (idx_main_v59 (ix3 b p x)) = ix2 b p := funext fun d => Fin.ext (by match d with | ⟨0, _⟩ => rfl | ⟨1, _⟩ => rfl)
  rw [val_main_v61_apply, val_main_v60_apply, val_main_v59_apply, val_main_v58_apply, hi,
    rowMax_apply a hr hq hk, aff_apply a hr hq hk, Ideal.subf_def, CoeOps.sub_coe, Ideal.hostUnary_exp_def, CoeOps.exp_coe]
  rfl

theorem denom_apply (a : Bridge.Args) (hr : a.IsReal)
    (hq : ∀ b p c, val_main_v23 (F := Ideal) a.feat a.gq a.bq (ix3 b p c) = ((Spec.q Consts.epsR a.inputs b p c : ℝ) : EReal))
    (hk : ∀ b x c, val_main_v47 (F := Ideal) a.memk a.gk a.bk (ix3 b x c) = ((Spec.k Consts.epsR a.inputs b x c : ℝ) : EReal)) (b : Fin 4) (p : Fin 1024) :
    val_main_v62 (F := Ideal) a.feat a.memk a.memc a.gq a.bq a.gk a.bk (ix2 b p) = ((Spec.denom (Spec.aff Consts.epsR a.inputs b p) : ℝ) : EReal) := by
  rw [val_main_v62_apply, val_main_cst_12_apply, Ideal.ofBits_def, Consts.ofBits_zero, EReal.coe_zero, zero_add]
  refine (Finset.sum_congr rfl fun k _ => ?_).trans (CoeOps.sum_coe Finset.univ fun k => Spec.expo (Spec.aff Consts.epsR a.inputs b p) k)
  have hi : idx_main_v62 (ix2 b p) k = ix3 b p k := funext fun d => Fin.ext (by match d with | ⟨0, _⟩ => rfl | ⟨1, _⟩ => rfl | ⟨2, _⟩ => rfl)
  rw [hi]
  exact expo_apply a hr hq hk b p k

theorem prob_apply (a : Bridge.Args) (hr : a.IsReal)
    (hq : ∀ b p c, val_main_v23 (F := Ideal) a.feat a.gq a.bq (ix3 b p c) = ((Spec.q Consts.epsR a.inputs b p c : ℝ) : EReal))
    (hk : ∀ b x c, val_main_v47 (F := Ideal) a.memk a.gk a.bk (ix3 b x c) = ((Spec.k Consts.epsR a.inputs b x c : ℝ) : EReal)) (b : Fin 4) (p : Fin 1024) (x : Fin 8192) :
    val_main_v65 (F := Ideal) a.feat a.memk a.memc a.gq a.bq a.gk a.bk (ix3 b p x) = ((Spec.prob (Spec.aff Consts.epsR a.inputs b p) x : ℝ) : EReal) := by
  have hi : idx_main_v63 (idx_main_v64 (ix3 b p x)) = ix2 b p := funext fun d => Fin.ext (by match d with | ⟨0, _⟩ => rfl | ⟨1, _⟩ => rfl)
  rw [val_main_v65_apply, val_main_v64_apply, val_main_v63_apply, hi, denom_apply a hr hq hk, expo_apply a hr hq hk,
    Ideal.hostDivf_def, CoeOps.div_coe _ (denom_pos _).ne']
  rfl

theorem kept_apply (a : Bridge.Args) (hr : a.IsReal)
    (hq : ∀ b p c, val_main_v23 (F := Ideal) a.feat a.gq a.bq (ix3 b p c) = ((Spec.q Consts.epsR a.inputs b p c : ℝ) : EReal))
    (hk : ∀ b x c, val_main_v47 (F := Ideal) a.memk a.gk a.bk (ix3 b x c) = ((Spec.k Consts.epsR a.inputs b x c : ℝ) : EReal)) (b : Fin 4) (p : Fin 1024) (x : Fin 8192) :
    val_main_v68 (F := Ideal) a.feat a.memk a.memc a.gq a.bq a.gk a.bk (ix3 b p x) = ((Spec.kept Consts.thrR (Spec.aff Consts.epsR a.inputs b p) x : ℝ) : EReal) := by
  rw [val_main_v68_apply, val_main_v67_apply, val_main_v66_apply, val_main_cst_13_apply, val_main_call0_v0_apply,
    val_main_cst_14_apply, prob_apply a hr hq hk, Ideal.ofBits_def, Ideal.ofBits_def, Consts.ofBits_thr,
    Consts.ofBits_zero, cmpf_def, CoeOps.cmp_olt_coe]
  unfold Spec.kept Scalar.select
  by_cases h : Spec.prob (Spec.aff Consts.epsR a.inputs b p) x < Consts.thrR
  · rw [if_pos h, if_pos h]
    exact if_pos (by decide)
  · rw [if_neg h, if_neg h]
    exact if_neg (by decide)

theorem mass_apply (a : Bridge.Args) (hr : a.IsReal)
    (hq : ∀ b p c, val_main_v23 (F := Ideal) a.feat a.gq a.bq (ix3 b p c) = ((Spec.q Consts.epsR a.inputs b p c : ℝ) : EReal))
    (hk : ∀ b x c, val_main_v47 (F := Ideal) a.memk a.gk a.bk (ix3 b x c) = ((Spec.k Consts.epsR a.inputs b x c : ℝ) : EReal)) (b : Fin 4) (p : Fin 1024) :
    val_main_v69 (F := Ideal) a.feat a.memk a.memc a.gq a.bq a.gk a.bk (ix2 b p) = ((Spec.keptMass Consts.epsR Consts.thrR a.inputs b p : ℝ) : EReal) := by
  rw [val_main_v69_apply, val_main_cst_15_apply, Ideal.ofBits_def, Consts.ofBits_zero, EReal.coe_zero, zero_add]
  refine (Finset.sum_congr rfl fun k _ => ?_).trans
    (CoeOps.sum_coe Finset.univ fun k => Spec.kept Consts.thrR (Spec.aff Consts.epsR a.inputs b p) k)
  have hi : idx_main_v69 (ix2 b p) k = ix3 b p k := funext fun d => Fin.ext (by match d with | ⟨0, _⟩ => rfl | ⟨1, _⟩ => rfl | ⟨2, _⟩ => rfl)
  rw [hi]
  exact kept_apply a hr hq hk b p k

theorem keptMass_apply (a : Bridge.Args) (hr : a.IsReal)
    (hq : ∀ b p c, val_main_v23 (F := Ideal) a.feat a.gq a.bq (ix3 b p c) = ((Spec.q Consts.epsR a.inputs b p c : ℝ) : EReal))
    (hk : ∀ b x c, val_main_v47 (F := Ideal) a.memk a.gk a.bk (ix3 b x c) = ((Spec.k Consts.epsR a.inputs b x c : ℝ) : EReal)) (i : S4x1024x1.Idx) :
    val_main_v70 (F := Ideal) a.feat a.memk a.memc a.gq a.bq a.gk a.bk i = ((Spec.keptMass Consts.epsR Consts.thrR a.inputs (i 0) (i 1) : ℝ) : EReal) := by
  have hi : idx_main_v70 i = ix2 (i 0) (i 1) := funext fun d => Fin.ext (by match d with | ⟨0, _⟩ => rfl | ⟨1, _⟩ => rfl)
  rw [val_main_v70_apply, hi]
  exact mass_apply a hr hq hk (i 0) (i 1)

theorem renorm_apply (a : Bridge.Args) (hr : a.IsReal)
    (hq : ∀ b p c, val_main_v23 (F := Ideal) a.feat a.gq a.bq (ix3 b p c) = ((Spec.q Consts.epsR a.inputs b p c : ℝ) : EReal))
    (hk : ∀ b x c, val_main_v47 (F := Ideal) a.memk a.gk a.bk (ix3 b x c) = ((Spec.k Consts.epsR a.inputs b x c : ℝ) : EReal))
    (hm : ∀ b p, Spec.keptMass Consts.epsR Consts.thrR a.inputs b p ≠ 0) (b : Fin 4) (p : Fin 1024) (x : Fin 8192) :
    val_main_v72 (F := Ideal) a.feat a.memk a.memc a.gq a.bq a.gk a.bk (ix3 b p x)
      = ((Spec.kept Consts.thrR (Spec.aff Consts.epsR a.inputs b p) x / Spec.keptMass Consts.epsR Consts.thrR a.inputs b p : ℝ) : EReal) := by
  have h71 : val_main_v71 (F := Ideal) a.feat a.memk a.memc a.gq a.bq a.gk a.bk (ix3 b p x)
      = ((Spec.keptMass Consts.epsR Consts.thrR a.inputs b p : ℝ) : EReal) := by
    rw [val_main_v71_apply, keptMass_apply a hr hq hk]
    rfl
  rw [val_main_v72_apply, h71, kept_apply a hr hq hk, Ideal.hostDivf_def, CoeOps.div_coe _ (hm b p)]

end Cert.RefValue

end
-- ==== Proof.RefOut.lean ====
import proofs.«404741_j62388694941903_3_alg».proof.Proof.RefRun
import proofs.«404741_j62388694941903_3_alg».proof.Proof.Bridge
import proofs.«404741_j62388694941903_3_alg».proof.Proof.CoeOps
import proofs.«404741_j62388694941903_3_alg».proof.Proof.Consts
import proofs.«404741_j62388694941903_3_alg».proof.Proof.RefLNq
import proofs.«404741_j62388694941903_3_alg».proof.Proof.RefLNv

noncomputable section

namespace Cert.RefValue

open Idealize.ShloMosaic Idealize.ShloMosaic.ValueIdx Cert.ReferenceIdeal Cert.ReferenceIdeal.Read
open scoped BigOperators

theorem out_lidx (b : Fin 4) (p : Fin 1024) (c : Fin 1024) (k : Fin 8192) : lidx_main_v97 (ix3 b p c) k = ix3 b p k := by
  funext d; match d with | ⟨0, _⟩ => rfl | ⟨1, _⟩ => rfl | ⟨2, _⟩ => rfl
theorem out_ridx (b : Fin 4) (p : Fin 1024) (c : Fin 1024) (k : Fin 8192) : ridx_main_v97 (ix3 b p c) k = ix3 b k c := by
  funext d; match d with | ⟨0, _⟩ => rfl | ⟨1, _⟩ => rfl | ⟨2, _⟩ => rfl

theorem out_point (a : Cert.Bridge.Args) (hr : a.IsReal)
    (h72 : ∀ b p x, val_main_v72 (F := Ideal) a.feat a.memk a.memc a.gq a.bq a.gk a.bk (ix3 b p x) = ((Cert.Spec.kept Cert.Consts.thrR (Cert.Spec.aff Cert.Consts.epsR a.inputs b p) x / Cert.Spec.keptMass Cert.Consts.epsR Cert.Consts.thrR a.inputs b p : ℝ) : EReal))
    (b : Fin 4) (p : Fin 1024) (c : Fin 1024) :
    val_main_v98 (F := Ideal) a.feat a.memk a.memv a.memc a.gq a.bq a.gk a.bk a.gv a.bv (ix3 b p c) = ((Cert.Spec.out Cert.Consts.epsR Cert.Consts.thrR a.inputs b p c : ℝ) : EReal) := by
  have h : (∑ k : Fin 8192, val_main_v72 (F := Ideal) a.feat a.memk a.memc a.gq a.bq a.gk a.bk (lidx_main_v97 (ix3 b p c) k) * val_main_v96 (F := Ideal) a.memv a.gv a.bv (ridx_main_v97 (ix3 b p c) k)) =
      ∑ k : Fin 8192, ((Cert.Spec.kept Cert.Consts.thrR (Cert.Spec.aff Cert.Consts.epsR a.inputs b p) k / Cert.Spec.keptMass Cert.Consts.epsR Cert.Consts.thrR a.inputs b p * Cert.Spec.v Cert.Consts.epsR a.inputs b k c : ℝ) : EReal) :=
    Finset.sum_congr rfl (fun k _ => by
      rw [out_lidx b p c k, out_ridx b p c k, h72 b p k, v_apply a hr b k c, Cert.CoeOps.mul_coe])
  rw [val_main_v98_apply, val_main_v97_apply, h, Cert.CoeOps.sum_coe, Ideal.addf_def, feat_at a hr b p c, Cert.CoeOps.add_coe]
  rfl

theorem out_apply (a : Cert.Bridge.Args) (hr : a.IsReal)
    (hm : ∀ b p, Cert.Spec.keptMass Cert.Consts.epsR Cert.Consts.thrR a.inputs b p ≠ 0)
    (h72 : ∀ b p x, val_main_v72 (F := Ideal) a.feat a.memk a.memc a.gq a.bq a.gk a.bk (ix3 b p x) = ((Cert.Spec.kept Cert.Consts.thrR (Cert.Spec.aff Cert.Consts.epsR a.inputs b p) x / Cert.Spec.keptMass Cert.Consts.epsR Cert.Consts.thrR a.inputs b p : ℝ) : EReal)) :
    val_main_v98 (F := Ideal) a.feat a.memk a.memv a.memc a.gq a.bq a.gk a.bk a.gv a.bv = a.result Cert.Consts.epsR Cert.Consts.thrR := by
  funext i
  obtain ⟨b, p, c, rfl⟩ : ∃ (b : Fin 4) (p : Fin 1024) (c : Fin 1024), i = ix3 b p c := ⟨i 0, i 1, i 2, eq_ix3 i⟩
  rw [out_point a hr h72 b p c]
  rfl

end Cert.RefValue

end
-- ==== Proof.RefValue.lean ====
import proofs.«404741_j62388694941903_3_alg».proof.Proof.RefLN
import proofs.«404741_j62388694941903_3_alg».proof.Proof.RefAttn
import proofs.«404741_j62388694941903_3_alg».proof.Proof.RefOut

noncomputable section

namespace Cert.RefValue

open Idealize.ShloMosaic Idealize.ShloMosaic.ValueIdx Cert.ReferenceIdeal Cert.ReferenceIdeal.Read
open scoped BigOperators

theorem ref_result (a : Cert.Bridge.Args) (hr : a.IsReal)
    (hm : ∀ b p, Cert.Spec.keptMass Cert.Consts.epsR Cert.Consts.thrR a.inputs b p ≠ 0) :
    Cert.ReferenceIdeal.Read.val_main_v98 (F := Ideal) a.feat a.memk a.memv a.memc a.gq a.bq a.gk a.bk a.gv a.bv
      = a.result Cert.Consts.epsR Cert.Consts.thrR :=
  out_apply a hr hm (renorm_apply a hr (q_apply a hr) (k_apply a hr) hm)

theorem ref_keptMass (a : Cert.Bridge.Args) (hr : a.IsReal) (i : S4x1024x1.Idx) :
    Cert.ReferenceIdeal.Read.val_main_v70 (F := Ideal) a.feat a.memk a.memc a.gq a.bq a.gk a.bk i
      = ((Cert.Spec.keptMass Cert.Consts.epsR Cert.Consts.thrR a.inputs (i 0) (i 1) : ℝ) : EReal) :=
  keptMass_apply a hr (q_apply a hr) (k_apply a hr) i

end Cert.RefValue

end
-- ==== Proof.PreFinite.lean ====
import Idealize.ShloMosaic.Lib.ReduceAll
import Idealize.ShloMosaic.Lib.ValueIdx
import proofs.«404741_j62388694941903_3_alg».proof.Pre_finite_inputs
import proofs.«404741_j62388694941903_3_alg».proof.Proof.Bridge
import proofs.«404741_j62388694941903_3_alg».proof.Proof.CoeOps
import proofs.«404741_j62388694941903_3_alg».proof.Proof.Consts

noncomputable section

namespace Cert.PreDecode

open Idealize.ShloMosaic Idealize.ShloMosaic.ValueIdx
open Cert.Pre_finite_inputs Cert.Pre_finite_inputs.Facts

variable [Cert.Pre_finite_inputs.Facts]

section Stages

variable {F : FTy → Type} [FloatOps F]

def qMean (x0 : FVec F S4x1024x1024 .f32) : FVec F S4x1024x1 .f32 :=
  Host.divf
    (broadcastInDim S4x1024x1 ![0, 1] bcast_S4x1024_S4x1024x1_0_1
      (Host.reduceAdd x0 (constant S_ .f32 0x00000000#32) reducesTo_S4x1024x1024_S4x1024_d2 h_S_))
    (broadcastInDim S4x1024x1 ![] bcast_S_S4x1024x1 (constant S_ .f32 0x44800000#32))

def qCentered (x0 : FVec F S4x1024x1024 .f32) : FVec F S4x1024x1024 .f32 :=
  subf x0 (broadcastInDim S4x1024x1024 ![0, 1, 2] bcast_S4x1024x1_S4x1024x1024_0_1_2 (qMean x0))

def qVarEps (x0 : FVec F S4x1024x1024 .f32) : FVec F S4x1024x1 .f32 :=
  addf
    (Host.divf
      (broadcastInDim S4x1024x1 ![0, 1] bcast_S4x1024_S4x1024x1_0_1
        (Host.reduceAdd (mulf (qCentered x0) (qCentered x0)) (constant S_ .f32 0x00000000#32)
          reducesTo_S4x1024x1024_S4x1024_d2 h_S_))
      (broadcastInDim S4x1024x1 ![] bcast_S_S4x1024x1 (constant S_ .f32 0x44800000#32)))
    (broadcastInDim S4x1024x1 ![] bcast_S_S4x1024x1 (constant S_ .f32 0x3727C5AC#32))

def qNorm (x0 : FVec F S4x1024x1024 .f32) (x5 x6 : FVec F S1024 .f32) : FVec F S4x1024x1024 .f32 :=
  addf
    (mulf
      (Host.divf (qCentered x0)
        (broadcastInDim S4x1024x1024 ![0, 1, 2] bcast_S4x1024x1_S4x1024x1024_0_1_2 (Host.sqrt (qVarEps x0))))
      (broadcastInDim S4x1024x1024 ![0, 1, 2] bcast_S1x1x1024_S4x1024x1024_0_1_2
        (broadcastInDim S1x1x1024 ![2] bcast_S1024_S1x1x1024_2 x5)))
    (broadcastInDim S4x1024x1024 ![0, 1, 2] bcast_S1x1x1024_S4x1024x1024_0_1_2
      (broadcastInDim S1x1x1024 ![2] bcast_S1024_S1x1x1024_2 x6))

def kMean (x1 : FVec F S4x8192x1024 .f32) : FVec F S4x8192x1 .f32 :=
  Host.divf
    (broadcastInDim S4x8192x1 ![0, 1] bcast_S4x8192_S4x8192x1_0_1
      (Host.reduceAdd x1 (constant S_ .f32 0x00000000#32) reducesTo_S4x8192x1024_S4x8192_d2 h_S_))
    (broadcastInDim S4x8192x1 ![] bcast_S_S4x8192x1 (constant S_ .f32 0x44800000#32))

def kCentered (x1 : FVec F S4x8192x1024 .f32) : FVec F S4x8192x1024 .f32 :=
  subf x1 (broadcastInDim S4x8192x1024 ![0, 1, 2] bcast_S4x8192x1_S4x8192x1024_0_1_2 (kMean x1))

def kVarEps (x1 : FVec F S4x8192x1024 .f32) : FVec F S4x8192x1 .f32 :=
  addf
    (Host.divf
      (broadcastInDim S4x8192x1 ![0, 1] bcast_S4x8192_S4x8192x1_0_1
        (Host.reduceAdd (mulf (kCentered x1) (kCentered x1)) (constant S_ .f32 0x00000000#32)
          reducesTo_S4x8192x1024_S4x8192_d2 h_S_))
      (broadcastInDim S4x8192x1 ![] bcast_S_S4x8192x1 (constant S_ .f32 0x44800000#32)))
    (broadcastInDim S4x8192x1 ![] bcast_S_S4x8192x1 (constant S_ .f32 0x3727C5AC#32))

def kNorm (x1 : FVec F S4x8192x1024 .f32) (x7 x8 : FVec F S1024 .f32) : FVec F S4x8192x1024 .f32 :=
  addf
    (mulf
      (Host.divf (kCentered x1)
        (broadcastInDim S4x8192x1024 ![0, 1, 2] bcast_S4x8192x1_S4x8192x1024_0_1_2 (Host.sqrt (kVarEps x1))))
      (broadcastInDim S4x8192x1024 ![0, 1, 2] bcast_S1x1x1024_S4x8192x1024_0_1_2
        (broadcastInDim S1x1x1024 ![2] bcast_S1024_S1x1x1024_2 x7)))
    (broadcastInDim S4x8192x1024 ![0, 1, 2] bcast_S1x1x1024_S4x8192x1024_0_1_2
      (broadcastInDim S1x1x1024 ![2] bcast_S1024_S1x1x1024_2 x8))

def aff (x0 : FVec F S4x1024x1024 .f32) (x1 : FVec F S4x8192x1024 .f32) (x3 : FVec F S4x8192x1 .f32)
    (x5 x6 x7 x8 : FVec F S1024 .f32) : FVec F S4x1024x8192 .f32 :=
  mulf
    (Host.divf
      (Host.dotGeneral dot_S4x1024x1024_S4x8192x1024_S4x1024x8192_2_2_1_1_0_0 none (qNorm x0 x5 x6) (kNorm x1 x7 x8))
      (broadcastInDim S4x1024x8192 ![] bcast_S_S4x1024x8192 (Host.sqrt (constant S_ .f32 0x44800000#32))))
    (broadcastInDim S4x1024x8192 ![0, 1, 2] bcast_S4x1x8192_S4x1024x8192_0_1_2
      (transpose S4x1x8192 [0, 2, 1] x3 transposes_S4x8192x1_S4x1x8192_0_2_1))

def rowMax (x0 : FVec F S4x1024x1024 .f32) (x1 : FVec F S4x8192x1024 .f32) (x3 : FVec F S4x8192x1 .f32)
    (x5 x6 x7 x8 : FVec F S1024 .f32) : FVec F S4x1024 .f32 :=
  maximumf (broadcastInDim S4x1024 ![] bcast_S_S4x1024 (constant S_ .f32 0xFF800000#32))
    (Host.reduce FloatOps.maximumf (aff x0 x1 x3 x5 x6 x7 x8) (constant S_ .f32 0xFF800000#32)
      reducesTo_S4x1024x8192_S4x1024_d2 h_S_)

def expo (x0 : FVec F S4x1024x1024 .f32) (x1 : FVec F S4x8192x1024 .f32) (x3 : FVec F S4x8192x1 .f32)
    (x5 x6 x7 x8 : FVec F S1024 .f32) : FVec F S4x1024x8192 .f32 :=
  Host.exp
    (subf (aff x0 x1 x3 x5 x6 x7 x8)
      (broadcastInDim S4x1024x8192 ![0, 1, 2] bcast_S4x1024x1_S4x1024x8192_0_1_2
        (broadcastInDim S4x1024x1 ![0, 1] bcast_S4x1024_S4x1024x1_0_1 (rowMax x0 x1 x3 x5 x6 x7 x8))))

def prob (x0 : FVec F S4x1024x1024 .f32) (x1 : FVec F S4x8192x1024 .f32) (x3 : FVec F S4x8192x1 .f32)
    (x5 x6 x7 x8 : FVec F S1024 .f32) : FVec F S4x1024x8192 .f32 :=
  Host.divf (expo x0 x1 x3 x5 x6 x7 x8)
    (broadcastInDim S4x1024x8192 ![0, 1, 2] bcast_S4x1024x1_S4x1024x8192_0_1_2
      (broadcastInDim S4x1024x1 ![0, 1] bcast_S4x1024_S4x1024x1_0_1
        (Host.reduceAdd (expo x0 x1 x3 x5 x6 x7 x8) (constant S_ .f32 0x00000000#32)
          reducesTo_S4x1024x8192_S4x1024_d2 h_S_)))

def kept (x0 : FVec F S4x1024x1024 .f32) (x1 : FVec F S4x8192x1024 .f32) (x3 : FVec F S4x8192x1 .f32)
    (x5 x6 x7 x8 : FVec F S1024 .f32) : FVec F S4x1024x8192 .f32 :=
  select
    (cmpf .olt (prob x0 x1 x3 x5 x6 x7 x8)
      (broadcastInDim S4x1024x8192 ![] bcast_S_S4x1024x8192 (constant S_ .f32 0x3A03126F#32)))
    (broadcastInDim S4x1024x8192 ![] bcast_S_S4x1024x8192 (constant S_ .f32 0x00000000#32))
    (prob x0 x1 x3 x5 x6 x7 x8)

def preMass (x0 : FVec F S4x1024x1024 .f32) (x1 : FVec F S4x8192x1024 .f32) (x3 : FVec F S4x8192x1 .f32)
    (x5 x6 x7 x8 : FVec F S1024 .f32) : FVec F S4x1024x1 .f32 :=
  broadcastInDim S4x1024x1 ![0, 1] bcast_S4x1024_S4x1024x1_0_1
    (Host.reduceAdd (kept x0 x1 x3 x5 x6 x7 x8) (constant S_ .f32 0x00000000#32)
      reducesTo_S4x1024x8192_S4x1024_d2 h_S_)

end Stages

instance : Subsingleton S_.Idx := ⟨fun a b => funext fun d => d.elim0⟩

theorem andi_one {s : Shape} (a b : IVec s 1) (i : s.Idx) : andi a b i = 1#1 ↔ a i = 1#1 ∧ b i = 1#1 :=
  IntOp.andi_eq_one

theorem lt_of_cmp_olt {a b : EReal} (h : Ideal.cmp .olt a b = 1#1) : a < b := by
  unfold Ideal.cmp at h
  by_contra hn
  simp [hn] at h

theorem ne_of_cmp_une {a b : EReal} (h : Ideal.cmp .une a b = 1#1) : a ≠ b := by
  unfold Ideal.cmp at h
  intro hn
  simp [hn] at h

theorem real_of_all {s : Shape} (x : FVec Ideal s .f32) (hb : S_.BroadcastsInDim s ![]) {axes : List (Fin s.rank)}
    (hr : s.ReducesTo axes S_) (hu : 0 < S_.numel) (init : IVec S_ 1)
    (e : Host.reduce IntOp.andi
        (cmpf .olt (Host.absf x) (broadcastInDim s ![] hb (constant (F := Ideal) S_ .f32 0x7F800000#32))) init hr hu ix0 = 1#1)
    (i : s.Idx) : x i = (((x i).toReal : ℝ) : EReal) := by
  have hi := Host.reduce_andi_all _ init hr hu ix0 e i
  have hlt : max (x i) (-(x i)) < Ideal.ofBits .f32 0x7F800000#32 := lt_of_cmp_olt hi
  rw [Cert.Consts.ofBits_pos_inf] at hlt
  exact Cert.CoeOps.coe_toReal_of_abs_lt_top hlt

theorem isReal_of_pre (x0 : FVec Ideal S4x1024x1024 .f32) (x1 x2 : FVec Ideal S4x8192x1024 .f32)
    (x3 x4 : FVec Ideal S4x8192x1 .f32) (x5 x6 x7 x8 x9 x10 : FVec Ideal S1024 .f32)
    (h : Cert.Pre_finite_inputs.fn (F := Ideal) x0 x1 x2 x3 x4 x5 x6 x7 x8 x9 x10 = fun _ => 1#1) :
    (Cert.Bridge.Args.mk x0 x1 x2 x3 x5 x6 x7 x8 x9 x10).IsReal := by
  have h0 : Cert.Pre_finite_inputs.fn (F := Ideal) x0 x1 x2 x3 x4 x5 x6 x7 x8 x9 x10 ix0 = 1#1 := congrFun h ix0
  obtain ⟨h53, -⟩ := (andi_one _ _ ix0).1 h0
  obtain ⟨h48, h52⟩ := (andi_one _ _ ix0).1 h53
  obtain ⟨h43, h47⟩ := (andi_one _ _ ix0).1 h48
  obtain ⟨h38, h42⟩ := (andi_one _ _ ix0).1 h43
  obtain ⟨h33, h37⟩ := (andi_one _ _ ix0).1 h38
  obtain ⟨h28, h32⟩ := (andi_one _ _ ix0).1 h33
  obtain ⟨h23, h27⟩ := (andi_one _ _ ix0).1 h28
  obtain ⟨h18, -⟩ := (andi_one _ _ ix0).1 h23
  obtain ⟨h13, h17⟩ := (andi_one _ _ ix0).1 h18
  obtain ⟨h8, h12⟩ := (andi_one _ _ ix0).1 h13
  obtain ⟨h3, h7⟩ := (andi_one _ _ ix0).1 h8
  exact
    { feat := real_of_all x0 _ _ _ _ h3
      memk := real_of_all x1 _ _ _ _ h7
      memv := real_of_all x2 _ _ _ _ h12
      memc := real_of_all x3 _ _ _ _ h17
      gq := real_of_all x5 _ _ _ _ h27
      bq := real_of_all x6 _ _ _ _ h32
      gk := real_of_all x7 _ _ _ _ h37
      bk := real_of_all x8 _ _ _ _ h42
      gv := real_of_all x9 _ _ _ _ h47
      bv := real_of_all x10 _ _ _ _ h52 }

theorem mass_ne_of_pre (x0 : FVec Ideal S4x1024x1024 .f32) (x1 x2 : FVec Ideal S4x8192x1024 .f32)
    (x3 x4 : FVec Ideal S4x8192x1 .f32) (x5 x6 x7 x8 x9 x10 : FVec Ideal S1024 .f32)
    (h : Cert.Pre_finite_inputs.fn (F := Ideal) x0 x1 x2 x3 x4 x5 x6 x7 x8 x9 x10 = fun _ => 1#1)
    (i : S4x1024x1.Idx) : preMass (F := Ideal) x0 x1 x3 x5 x6 x7 x8 i ≠ ((0 : ℝ) : EReal) := by
  have h0 : Cert.Pre_finite_inputs.fn (F := Ideal) x0 x1 x2 x3 x4 x5 x6 x7 x8 x9 x10 ix0 = 1#1 := congrFun h ix0
  obtain ⟨-, h128⟩ := (andi_one _ _ ix0).1 h0
  have hi : cmpf .une (preMass (F := Ideal) x0 x1 x3 x5 x6 x7 x8)
      (broadcastInDim S4x1024x1 ![] bcast_S_S4x1024x1 (constant (F := Ideal) S_ .f32 0x00000000#32)) i = 1#1 :=
    Host.reduce_andi_all _ _ reducesTo_S4x1024x1_S_d0_1_2 h_S_ ix0 h128 i
  have hne : preMass (F := Ideal) x0 x1 x3 x5 x6 x7 x8 i ≠ Ideal.ofBits .f32 0x00000000#32 := ne_of_cmp_une hi
  rwa [Cert.Consts.ofBits_zero] at hne

end Cert.PreDecode

end
-- ==== Proof.PreMass.lean ====
import proofs.«404741_j62388694941903_3_alg».proof.Proof.PreFinite
import proofs.«404741_j62388694941903_3_alg».proof.Proof.RefRun

noncomputable section

namespace Cert.PreDecode

open Idealize.ShloMosaic
open Cert.Pre_finite_inputs

variable [Cert.Pre_finite_inputs.Facts]

section Stages

variable (x0 : FVec Ideal S4x1024x1024 .f32) (x1 : FVec Ideal S4x8192x1024 .f32) (x3 : FVec Ideal S4x8192x1 .f32)
  (x5 x6 x7 x8 : FVec Ideal S1024 .f32)

theorem qMean_eq_ref : qMean (F := Ideal) x0 = Cert.ReferenceIdeal.Read.val_main_v3 (F := Ideal) x0 := rfl

theorem qCentered_eq_ref : qCentered (F := Ideal) x0 = Cert.ReferenceIdeal.Read.val_main_v12 (F := Ideal) x0 := rfl

theorem qVarEps_eq_ref : qVarEps (F := Ideal) x0 = Cert.ReferenceIdeal.Read.val_main_v14 (F := Ideal) x0 := rfl

theorem qNorm_eq_ref : qNorm (F := Ideal) x0 x5 x6 = Cert.ReferenceIdeal.Read.val_main_v23 (F := Ideal) x0 x5 x6 := rfl

theorem kMean_eq_ref : kMean (F := Ideal) x1 = Cert.ReferenceIdeal.Read.val_main_v27 (F := Ideal) x1 := rfl

theorem kCentered_eq_ref : kCentered (F := Ideal) x1 = Cert.ReferenceIdeal.Read.val_main_v36 (F := Ideal) x1 := rfl

theorem kVarEps_eq_ref : kVarEps (F := Ideal) x1 = Cert.ReferenceIdeal.Read.val_main_v38 (F := Ideal) x1 := rfl

theorem kNorm_eq_ref : kNorm (F := Ideal) x1 x7 x8 = Cert.ReferenceIdeal.Read.val_main_v47 (F := Ideal) x1 x7 x8 := rfl

theorem aff_eq_ref :
    aff (F := Ideal) x0 x1 x3 x5 x6 x7 x8 = Cert.ReferenceIdeal.Read.val_main_v54 (F := Ideal) x0 x1 x3 x5 x6 x7 x8 := rfl

theorem rowMax_eq_ref :
    rowMax (F := Ideal) x0 x1 x3 x5 x6 x7 x8 = Cert.ReferenceIdeal.Read.val_main_v57 (F := Ideal) x0 x1 x3 x5 x6 x7 x8 := rfl

theorem expo_eq_ref :
    expo (F := Ideal) x0 x1 x3 x5 x6 x7 x8 = Cert.ReferenceIdeal.Read.val_main_v61 (F := Ideal) x0 x1 x3 x5 x6 x7 x8 := rfl

theorem prob_eq_ref :
    prob (F := Ideal) x0 x1 x3 x5 x6 x7 x8 = Cert.ReferenceIdeal.Read.val_main_v65 (F := Ideal) x0 x1 x3 x5 x6 x7 x8 := rfl

theorem kept_eq_ref :
    kept (F := Ideal) x0 x1 x3 x5 x6 x7 x8 = Cert.ReferenceIdeal.Read.val_main_v68 (F := Ideal) x0 x1 x3 x5 x6 x7 x8 := rfl

theorem preMass_eq_ref :
    preMass (F := Ideal) x0 x1 x3 x5 x6 x7 x8 = Cert.ReferenceIdeal.Read.val_main_v70 (F := Ideal) x0 x1 x3 x5 x6 x7 x8 := rfl

end Stages

theorem ref_mass_ne_of_pre (x0 : FVec Ideal S4x1024x1024 .f32) (x1 x2 : FVec Ideal S4x8192x1024 .f32)
    (x3 x4 : FVec Ideal S4x8192x1 .f32) (x5 x6 x7 x8 x9 x10 : FVec Ideal S1024 .f32)
    (h : Cert.Pre_finite_inputs.fn (F := Ideal) x0 x1 x2 x3 x4 x5 x6 x7 x8 x9 x10 = fun _ => 1#1)
    (i : S4x1024x1.Idx) :
    Cert.ReferenceIdeal.Read.val_main_v70 (F := Ideal) x0 x1 x3 x5 x6 x7 x8 i ≠ ((0 : ℝ) : EReal) := by
  rw [← preMass_eq_ref]
  exact mass_ne_of_pre x0 x1 x2 x3 x4 x5 x6 x7 x8 x9 x10 h i

end Cert.PreDecode

end
-- ==== Proof.lean ====
/-
  Attention read over a memory bank with thresholded, renormalised softmax weights. The kernel sweeps the bank in 16
  tiles of 512 slots, twice: an online softmax (running row maximum, rescaled running sum of exponentials), then a sweep
  that thresholds the weights, accumulates the weighted values and the kept mass, and renormalises at the last tile.
  Over the reals this is the reference's whole-array computation, given real inputs and a nonzero kept mass.
-/
import proofs.«404741_j62388694941903_3_alg».proof.Defs
import proofs.«404741_j62388694941903_3_alg».proof.Proof.Gen.Kernel
import proofs.«404741_j62388694941903_3_alg».proof.Proof.Gen.KernelIdeal
import proofs.«404741_j62388694941903_3_alg».proof.Proof.Gen.ReferenceIdeal
import proofs.«404741_j62388694941903_3_alg».proof.Proof.Gen.Pre_finite_inputs
import proofs.«404741_j62388694941903_3_alg».proof.Proof.KI.Regions
import proofs.«404741_j62388694941903_3_alg».proof.Proof.KI.Result
import proofs.«404741_j62388694941903_3_alg».proof.Proof.RefValue
import proofs.«404741_j62388694941903_3_alg».proof.Proof.PreMass
import Idealize.ShloMosaic.Adequacy
import Idealize.ShloMosaic.Init

noncomputable section

namespace Cert.Proof

open Idealize.ShloMosaic Idealize.SL.Sem

-- The frame is proved once for every float model.
theorem frame_ki : Cert.frame_KernelIdeal := fun m ρ _ => Cert.KernelIdeal.Hand.frame (F := Ideal) m ρ

-- `Cert.Kernel` and `Cert.KernelIdeal` have the same text, so their kernel bodies agree, label by label.
theorem body0_eq (a) : Cert.Kernel.defs₀ (F := Bits) .tc 0 a = Cert.KernelIdeal.defs₀ (F := Bits) .tc 0 a := rfl
theorem body1_eq (a) : Cert.Kernel.defs₀ (F := Bits) .tc 1 a = Cert.KernelIdeal.defs₀ (F := Bits) .tc 1 a := rfl
theorem tc_eq : Cert.Kernel.defs₀ (F := Bits) .tc = Cert.KernelIdeal.defs₀ (F := Bits) .tc := by
  funext ℓ a
  match ℓ with
  | 0 => exact body0_eq a
  | 1 => exact body1_eq a
  | ⟨_ + 2, h⟩ => exact absurd h (by omega)
theorem bodies_eq : Cert.Kernel.defs₀ (F := Bits) = Cert.KernelIdeal.defs₀ (F := Bits) :=
  funext fun p => match p with
    | .tc => tc_eq
    | .scScalar _ => rfl
    | .scVector _ _ => rfl
theorem defs_eq : Cert.Kernel.defs (F := Bits) = Cert.KernelIdeal.defs (F := Bits) :=
  congrArg (Pipeline.defs Cert.KernelIdeal.pcfgs) bodies_eq

-- So the frame proved once for every float model is `Cert.Kernel`'s frame too.
theorem frame_k : Cert.frame_Kernel := fun m ρ _ => by
  rw [defs_eq]; exact Cert.KernelIdeal.Hand.frame (F := Bits) m ρ

-- A straight line of host operations: its run, with the result dropped.
theorem frame_ri : Cert.frame_ReferenceIdeal := fun m ρ _ =>
  (θ_run Cert.ReferenceIdeal.defs _ _).mono (fun _ h c => (h c).2) (Cert.ReferenceIdeal.Value.run (F := Ideal) m ρ)

-- The precondition says: every input entry is real, and no row's kept mass vanishes.
theorem facts_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Hand.argsOf m c).IsReal
      ∧ ∀ b p, Cert.Spec.keptMass Cert.Consts.epsR Cert.Consts.thrR (Cert.KernelIdeal.Hand.argsOf m c).inputs b p ≠ 0 := by
  have hr : (Cert.KernelIdeal.Hand.argsOf m c).IsReal := Cert.PreDecode.isReal_of_pre _ _ _ _ _ _ _ _ _ _ _ (hpre c)
  refine ⟨hr, fun b p h0 => ?_⟩
  have hne := Cert.PreDecode.ref_mass_ne_of_pre _ _ _ _ _ _ _ _ _ _ _ (hpre c) (Idealize.ShloMosaic.ValueIdx.ix3 b p 0)
  refine hne ?_
  exact (Cert.RefValue.ref_keptMass (Cert.KernelIdeal.Hand.argsOf m c) hr (Idealize.ShloMosaic.ValueIdx.ix3 b p 0)).trans (congrArg _ h0)

-- Both programs end with the specification's result array.
theorem algebraic : Cert.algebraic_KernelIdeal_ReferenceIdeal := by
  intro m ρ m' ρ' hpre hagree
  refine ⟨fun c => (Cert.KernelIdeal.Hand.argsOf m c).result Cert.Consts.epsR Cert.Consts.thrR, ?_, ?_⟩
  · refine (θ_run Cert.KernelIdeal.defs _ _).mono (fun r h c => ⟨(h c).1.trans ?_, (h c).2⟩)
      (Cert.KernelIdeal.Hand.run_value (F := Ideal) m ρ)
    obtain ⟨hr, hm⟩ := facts_of_pre m hpre c
    exact Cert.KernelIdeal.Hand.result_eq m ρ c hr hm
  · refine (θ_run Cert.ReferenceIdeal.defs _ _).mono (fun r h c => ⟨(h c).1.trans ?_, (h c).2⟩)
      (Cert.ReferenceIdeal.Value.run (F := Ideal) m' ρ')
    obtain ⟨hr, hm⟩ := facts_of_pre m hpre c
    rw [Cert.ReferenceIdeal.Read.val_main_v98_eq, (hagree c).1, (hagree c).2.1, (hagree c).2.2.1, (hagree c).2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
    exact Cert.RefValue.ref_result (Cert.KernelIdeal.Hand.argsOf m c) hr hm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
